-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S256x64 : Shape := ⟨2, ![256, 64]⟩
abbrev S64x64 : Shape := ⟨2, ![64, 64]⟩
abbrev S64 : Shape := ⟨1, ![64]⟩
abbrev S192x10 : Shape := ⟨2, ![192, 10]⟩
abbrev S10 : Shape := ⟨1, ![10]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S256x64 : S_.BroadcastsInDim S256x64 (![] : Fin 0 → Fin S256x64.rank)
  reducesTo_S256x64_S_d0_1 : S256x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S192x10 : S_.BroadcastsInDim S192x10 (![] : Fin 0 → Fin S192x10.rank)
  reducesTo_S192x10_S_d0_1 : S192x10.ReducesTo [0, 1] S_
  bcast_S_S10 : S_.BroadcastsInDim S10 (![] : Fin 0 → Fin S10.rank)
  reducesTo_S10_S_d0 : S10.ReducesTo [0] S_
  natLt_1_32 : 1 < 32

variable [Facts]

def fn_part3 {F : FTy → Type} [FloatOps F] (main_arg1 : FVec F S4096x4096 .f32) (main_v48 : IVec S_ 1) (main_v50 : IVec S4096x4096 1) : IVec S_ 1 :=
  let main_cst_19 : FVec F S_ .f32 := constant S_ .f32 0x3F800000#32
  let main_v51 : FVec F S4096x4096 .f32 := broadcastInDim S4096x4096 ![] bcast_S_S4096x4096 main_cst_19
  let main_v52 : IVec S4096x4096 1 := cmpf .oeq main_arg1 main_v51
  let main_v53 : IVec S4096x4096 1 := ori main_v50 main_v52
  let main_c_20 : IVec S_ 1 := constantI S_ 1 1#1
  let main_v54 : IVec S_ 1 := (fun x v => Host.reduce IntOp.andi x v reducesTo_S4096x4096_S_d0_1 h_S_) main_v53 main_c_20
  let main_v55 : IVec S_ 1 := andi main_v48 main_v54
  let main_cst_21 : FVec F S_ .f32 := constant S_ .f32 0x00000000#32
  let main_v56 : FVec F S4096x4096 .f32 := broadcastInDim S4096x4096 ![] bcast_S_S4096x4096 main_cst_21
  let main_v57 : IVec S4096x4096 1 := cmpf .une main_arg1 main_v56
  let main_v58 : IVec S4096x4096 32 := (extui 32 · natLt_1_32) main_v57
  let main_c_22 : IVec S_ 32 := constantI S_ 32 0#32
  let main_v59 : IVec S_ 32 := (fun x v => Host.reduce IntOp.addi x v reducesTo_S4096x4096_S_d0_1 h_S_) main_v58 main_c_22
  let main_c_23 : IVec S_ 32 := constantI S_ 32 131072#32
  let main_v60 : IVec S_ 1 := cmpi .sle main_v59 main_c_23
  let main_v61 : IVec S_ 1 := andi main_v55 main_v60
  main_v61

def fn_part2 {F : FTy → Type} [FloatOps F] (main_arg1 : FVec F S4096x4096 .f32) (main_arg7 : FVec F S64 .f32) (main_arg8 : FVec F S192x10 .f32) (main_arg9 : FVec F S10 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S192x10 .f32 := Host.absf main_arg8
  let main_cst_14 : FVec F S_ .f32 := constant S_ .f32 0x7F800000#32
  let main_v40 : FVec F S192x10 .f32 := broadcastInDim S192x10 ![] bcast_S_S192x10 main_cst_14
  let main_v41 : IVec S192x10 1 := cmpf .olt main_v39 main_v40
  let main_c_15 : IVec S_ 1 := constantI S_ 1 1#1
  let main_v42 : IVec S_ 1 := (fun x v => Host.reduce IntOp.andi x v reducesTo_S192x10_S_d0_1 h_S_) main_v41 main_c_15
  let main_v43 : IVec S_ 1 := andi main_v38 main_v42
  let main_v44 : FVec F S10 .f32 := Host.absf main_arg9
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  let main_cst_18 : FVec F S_ .f32 := constant S_ .f32 0x00000000#32
  let main_v49 : FVec F S4096x4096 .f32 := broadcastInDim S4096x4096 ![] bcast_S_S4096x4096 main_cst_18
  let main_v50 : IVec S4096x4096 1 := cmpf .oeq main_arg1 main_v49
  fn_part3 (F := F) main_arg1 main_v48 main_v50

def fn_part1 {F : FTy → Type} [FloatOps F] (main_arg1 : FVec F S4096x4096 .f32) (main_arg4 : FVec F S64x64 .f32) (main_arg5 : FVec F S64 .f32) (main_arg6 : FVec F S64 .f32) (main_arg7 : FVec F S64 .f32) (main_arg8 : FVec F S192x10 .f32) (main_arg9 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg7 main_arg8 main_arg9 main_v33

def fn {F : FTy → Type} [FloatOps F] (main_arg0 : FVec F S4096x256 .f32) (main_arg1 : FVec F S4096x4096 .f32) (main_arg2 : FVec F S256x64 .f32) (main_arg3 : FVec F S64x64 .f32) (main_arg4 : FVec F S64x64 .f32) (main_arg5 : FVec F S64 .f32) (main_arg6 : FVec F S64 .f32) (main_arg7 : FVec F S64 .f32) (main_arg8 : FVec F S192x10 .f32) (main_arg9 : FVec F S10 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg4 main_arg5 main_arg6 main_arg7 main_arg8 main_arg9 main_v13 main_v16
-- ==== Kernel.lean ====
abbrev S4096x256 : Shape := ⟨2, ![4096, 256]⟩
abbrev S4096x4096 : Shape := ⟨2, ![4096, 4096]⟩
abbrev S256x64 : Shape := ⟨2, ![256, 64]⟩
abbrev S64x64 : Shape := ⟨2, ![64, 64]⟩
abbrev S64 : Shape := ⟨1, ![64]⟩
abbrev S192x10 : Shape := ⟨2, ![192, 10]⟩
abbrev S10 : Shape := ⟨1, ![10]⟩
abbrev S64x256 : Shape := ⟨2, ![64, 256]⟩
abbrev S10x192 : Shape := ⟨2, ![10, 192]⟩
abbrev S10x4096 : Shape := ⟨2, ![10, 4096]⟩
abbrev S4096x512 : Shape := ⟨2, ![4096, 512]⟩
abbrev S10x1024 : Shape := ⟨2, ![10, 1024]⟩
abbrev S64x4096 : Shape := ⟨2, ![64, 4096]⟩
abbrev S64x512 : Shape := ⟨2, ![64, 512]⟩
abbrev S64x1 : Shape := ⟨2, ![64, 1]⟩
abbrev S4096x1024 : Shape := ⟨2, ![4096, 1024]⟩
abbrev S64x1024 : Shape := ⟨2, ![64, 1024]⟩
abbrev S10x64 : Shape := ⟨2, ![10, 64]⟩
abbrev S10x1 : Shape := ⟨2, ![10, 1]⟩
abbrev S1024 : Shape := ⟨1, ![1024]⟩
abbrev S1x1024 : Shape := ⟨2, ![1, 1024]⟩
abbrev S4096x10 : Shape := ⟨2, ![4096, 10]⟩

abbrev nBuf : Space → Nat
  | .hbm => 14
  | .vmem => 18
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x64, .f32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S192x10, .f32⟩
  | .hbm, ⟨9, _⟩ => ⟨S10, .f32⟩
  | .hbm, ⟨10, _⟩ => ⟨S64x256, .f32⟩
  | .hbm, ⟨11, _⟩ => ⟨S10x192, .f32⟩
  | .hbm, ⟨12, _⟩ => ⟨S10x4096, .f32⟩
  | .hbm, ⟨13, _⟩ => ⟨S4096x10, .f32⟩
  | .local _ .vmem, ⟨0, _⟩ => ⟨S4096x512, .f32⟩
  | .local _ .vmem, ⟨1, _⟩ => ⟨S4096x512, .f32⟩
  | .local _ .vmem, ⟨2, _⟩ => ⟨S4096x256, .f32⟩
  | .local _ .vmem, ⟨3, _⟩ => ⟨S64x256, .f32⟩
  | .local _ .vmem, ⟨4, _⟩ => ⟨S64x64, .f32⟩
  | .local _ .vmem, ⟨5, _⟩ => ⟨S64x64, .f32⟩
  | .local _ .vmem, ⟨6, _⟩ => ⟨S64, .f32⟩
  | .local _ .vmem, ⟨7, _⟩ => ⟨S64, .f32⟩
  | .local _ .vmem, ⟨8, _⟩ => ⟨S64, .f32⟩
  | .local _ .vmem, ⟨9, _⟩ => ⟨S10x192, .f32⟩
  | .local _ .vmem, ⟨10, _⟩ => ⟨S10, .f32⟩
  | .local _ .vmem, ⟨11, _⟩ => ⟨S10x1024, .f32⟩
  | .local _ .vmem, ⟨12, _⟩ => ⟨S10x1024, .f32⟩
  | .local _ .vmem, ⟨13, _⟩ => ⟨S4096x4096, .bf16⟩
  | .local _ .vmem, ⟨14, _⟩ => ⟨S64x4096, .bf16⟩
  | .local _ .vmem, ⟨15, _⟩ => ⟨S64x4096, .bf16⟩
  | .local _ .vmem, ⟨16, _⟩ => ⟨S64x4096, .f32⟩
  | .local _ .vmem, ⟨17, _⟩ => ⟨S64x4096, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c8_i32 : BitVec 32 := 8#32
  let v3 : BitVec 1 := Scalar.cmpi .slt arg0 c8_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let c0_9 : Index := 0#32
  let arg0 : BitVec 32 := BitVec.ofNat 32 (i 0).val
  let c512_i32 : BitVec 32 := 512#32
  let v20 : BitVec 32 := Scalar.muli arg0 c512_i32
  let v23 : Index := Scalar.indexCast v20
  ![0, v23.toNat]
def k0_off2 (i : grid0.Coords) : Fin 2 → Nat :=
  let c0_14 : Index := 0#32
  let arg0 : BitVec 32 := BitVec.ofNat 32 (i 0).val
  let c512_i32 : BitVec 32 := 512#32
  let v20 : BitVec 32 := Scalar.muli arg0 c512_i32
  let v35 : Index := Scalar.indexCast v20
  ![0, v35.toNat]
def k0_cond4 (i : grid0.Coords) : BitVec 1 :=
  let arg0 : BitVec 32 := BitVec.ofNat 32 (i 0).val
  let c8_i32_3 : BitVec 32 := 8#32
  let v9 : BitVec 1 := Scalar.cmpi .sge arg0 c8_i32_3
  let c12_i32 : BitVec 32 := 12#32
  let v10 : BitVec 1 := Scalar.cmpi .slt arg0 c12_i32
  let v11 : BitVec 1 := Scalar.andi v9 v10
  let v12 : BitVec 32 := Scalar.extui v11
  let c0_i32_4 : BitVec 32 := 0#32
  let v13 : BitVec 1 := Scalar.cmpi .ne v12 c0_i32_4
  v13

def k0_off3 (i : grid0.Coords) : Fin 2 → Nat :=
  let c0_10 : Index := 0#32
  let arg0 : BitVec 32 := BitVec.ofNat 32 (i 0).val
  let c8_i32_8 : BitVec 32 := 8#32
  let v20 : BitVec 32 := Scalar.subi arg0 c8_i32_8
  let c1024_i32 : BitVec 32 := 1024#32
  let v21 : BitVec 32 := Scalar.muli v20 c1024_i32
  let v23 : Index := Scalar.indexCast v21
  ![0, v23.toNat]
def k0_off4 (i : grid0.Coords) : Fin 2 → Nat :=
  let c0_13 : Index := 0#32
  let arg0 : BitVec 32 := BitVec.ofNat 32 (i 0).val
  let c8_i32_8 : BitVec 32 := 8#32
  let v20 : BitVec 32 := Scalar.subi arg0 c8_i32_8
  let c1024_i32 : BitVec 32 := 1024#32
  let v21 : BitVec 32 := Scalar.muli v20 c1024_i32
  let v32 : Index := Scalar.indexCast v21
  ![0, v32.toNat]
def k0_cond6 (i : grid0.Coords) : BitVec 1 :=
  let arg0 : BitVec 32 := BitVec.ofNat 32 (i 0).val
  let c12_i32_6 : BitVec 32 := 12#32
  let v17 : BitVec 1 := Scalar.cmpi .sge arg0 c12_i32_6
  let v18 : BitVec 32 := Scalar.extui v17
  let c0_i32_7 : BitVec 32 := 0#32
  let v19 : BitVec 1 := Scalar.cmpi .ne v18 c0_i32_7
  v19

def k0_off5 (i : grid0.Coords) : Fin 2 → Nat :=
  let c0_10 : Index := 0#32
  let arg0 : BitVec 32 := BitVec.ofNat 32 (i 0).val
  let c8_i32_8 : BitVec 32 := 8#32
  let v20 : BitVec 32 := Scalar.subi arg0 c8_i32_8
  let c4_i32 : BitVec 32 := 4#32
  let v21 : BitVec 32 := Scalar.subi v20 c4_i32
  let c1024_i32 : BitVec 32 := 1024#32
  let v22 : BitVec 32 := Scalar.muli v21 c1024_i32
  let v24 : Index := Scalar.indexCast v22
  ![0, v24.toNat]
def k0_off6 (i : grid0.Coords) : Fin 2 → Nat :=
  let c0_12 : Index := 0#32
  let arg0 : BitVec 32 := BitVec.ofNat 32 (i 0).val
  let c8_i32_8 : BitVec 32 := 8#32
  let v20 : BitVec 32 := Scalar.subi arg0 c8_i32_8
  let c4_i32 : BitVec 32 := 4#32
  let v21 : BitVec 32 := Scalar.subi v20 c4_i32
  let c1024_i32 : BitVec 32 := 1024#32
  let v22 : BitVec 32 := Scalar.muli v21 c1024_i32
  let v31 : Index := Scalar.indexCast v22
  ![0, v31.toNat]
def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c8_i32 : BitVec 32 := 8#32
  let v0 : BitVec 32 := Scalar.subi arg0 c8_i32
  let c4_i32 : BitVec 32 := 4#32
  let v1 : BitVec 32 := Scalar.subi v0 c4_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S10x192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S10 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S10x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  transposes_S256x64_S64x256_1_0 : S256x64.Transposes [1, 0] S64x256
  transposes_S192x10_S10x192_1_0 : S192x10.Transposes [1, 0] S10x192
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S4096x256_S4096x256_0_0 : ∀ a, (![0, 0] : Fin 2 → Nat) a + S4096x256.size a ≤ S4096x256.size a
  h_S4096x256 : 0 < S4096x256.numel
  bitsLt_bf16_f32 : FTy.bits .bf16 < FTy.bits .f32
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  packedbf16_S64x4096_S64x4096_0_0 : (Rect.unit (s := S64x4096) ![0, 0] S64x4096.size inb_S64x4096_S64x4096_0_0).PackedRows (EltTy.packing .bf16)
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S64_S64_0 : ∀ a, (![0] : Fin 1 → Nat) a + S64.size a ≤ S64.size a
  h_S64 : 0 < S64.numel
  shapeCasts_S64_S64x1 : S64.ShapeCasts S64x1
  broadcasts_S64x1_S64x512 : S64x1.Broadcasts S64x512
  h_S64x512 : 0 < S64x512.numel
  shapeCasts_S64x512_S64x512 : S64x512.ShapeCasts S64x512
  inb_S64x64_S64x64_0_0 : ∀ a, (![0, 0] : Fin 2 → Nat) a + S64x64.size a ≤ S64x64.size a
  h_S64x64 : 0 < S64x64.numel
  h_S4096x1024 : 0 < S4096x1024.numel
  broadcasts_S64x1_S64x1024 : S64x1.Broadcasts S64x1024
  h_S64x1024 : 0 < S64x1024.numel
  shapeCasts_S64x1024_S64x1024 : S64x1024.ShapeCasts S64x1024
  inb_S10x192_S10x192_0_0 : ∀ a, (![0, 0] : Fin 2 → Nat) a + S10x192.size a ≤ S10x192.size a
  h_S10x192 : 0 < S10x192.numel
  shapeCasts_S10x192_S10x192 : S10x192.ShapeCasts S10x192
  slices_S10x192_o0_0_S10x64 : S10x192.Slices ![0, 0] S10x64
  slices_S10x192_o0_64_S10x64 : S10x192.Slices ![0, 64] S10x64
  slices_S10x192_o0_128_S10x64 : S10x192.Slices ![0, 128] S10x64
  inb_S10_S10_0 : ∀ a, (![0] : Fin 1 → Nat) a + S10.size a ≤ S10.size a
  h_S10 : 0 < S10.numel
  shapeCasts_S10_S10x1 : S10.ShapeCasts S10x1
  broadcasts_S10x1_S10x1024 : S10x1.Broadcasts S10x1024
  reduces_S10x1024_S1024 : S10x1024.Reduces [0] S1024
  shapeCasts_S1024_S1x1024 : S1024.ShapeCasts S1x1024
  broadcasts_S1x1024_S10x1024 : S1x1024.Broadcasts S10x1024
  inb_S10x1024_S10x1024_0_0 : ∀ a, (![0, 0] : Fin 2 → Nat) a + S10x1024.size a ≤ S10x1024.size a
  h_S10x1024 : 0 < S10x1024.numel
  transposes_S10x4096_S4096x10_1_0 : S10x4096.Transposes [1, 0] S4096x10
  dot_S64x256_S4096x256_S64x4096_1_1_0_0_n_n_wf : DotDims.WF S64x256 S4096x256 S64x4096 [1] [1] [0] [0] [] []
  dot_S64x4096_S4096x512_S64x512_1_0_0_1_n_n_wf : DotDims.WF S64x4096 S4096x512 S64x512 [1] [0] [0] [1] [] []
  dot_S64x64_S64x4096_S64x4096_0_0_1_1_n_n_wf : DotDims.WF S64x64 S64x4096 S64x4096 [0] [0] [1] [1] [] []
  dot_S64x4096_S4096x1024_S64x1024_1_0_0_1_n_n_wf : DotDims.WF S64x4096 S4096x1024 S64x1024 [1] [0] [0] [1] [] []
  dot_S10x64_S64x1024_S10x1024_1_0_0_1_n_n_wf : DotDims.WF S10x64 S64x1024 S10x1024 [1] [0] [0] [1] [] []
  hrank0 : 0 < grid0.rank
  k0_off1_inb : ∀ i : grid0.Coords, ∀ (k0_h2 : k0_cond2 i = 1#1), ∀ a, (k0_off1 i) a + S4096x512.size a ≤ S4096x4096.size a
  k0_off1_packedbf16 : ∀ i : grid0.Coords, ∀ (k0_h2 : k0_cond2 i = 1#1), (Rect.unit (s := S4096x4096) (k0_off1 i) S4096x512.size (k0_off1_inb i k0_h2)).PackedRows (EltTy.packing .bf16)
  k0_off2_inb : ∀ i : grid0.Coords, ∀ (k0_h2 : k0_cond2 i = 1#1), ∀ a, (k0_off2 i) a + S64x512.size a ≤ S64x4096.size a
  k0_off3_inb : ∀ i : grid0.Coords, ∀ (k0_h4 : k0_cond4 i = 1#1), ∀ a, (k0_off3 i) a + S4096x1024.size a ≤ S4096x4096.size a
  k0_off4_inb : ∀ i : grid0.Coords, ∀ (k0_h4 : k0_cond4 i = 1#1), ∀ a, (k0_off4 i) a + S64x1024.size a ≤ S64x4096.size a
  k0_off5_inb : ∀ i : grid0.Coords, ∀ (k0_h6 : k0_cond6 i = 1#1), ∀ a, (k0_off5 i) a + S4096x1024.size a ≤ S4096x4096.size a
  k0_off6_inb : ∀ i : grid0.Coords, ∀ (k0_h6 : k0_cond6 i = 1#1), ∀ a, (k0_off6 i) a + S64x1024.size a ≤ S64x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S4096x4096.size a
  hwx0_0 : ∀ i : grid0.Coords, EltTy.bits .f32 = 32 ∨ (Rect.block (s := S4096x4096) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .f32 = 32 ∨ (Rect.block (s := S4096x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S10x192.size a ≤ S10x192.size a
  hwx0_8 : ∀ i : grid0.Coords, EltTy.bits .f32 = 32 ∨ (Rect.block (s := S10x192) S10x192.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S10.size a ≤ S10.size a
  hwx0_9 : ∀ i : grid0.Coords, EltTy.bits .f32 = 32 ∨ (Rect.block (s := S10) S10.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S10x1024.size a ≤ S10x4096.size a
  hwx0_10 : ∀ i : grid0.Coords, EltTy.bits .f32 = 32 ∨ (Rect.block (s := S10x4096) S10x1024.size (cc0_transform_10 i) (hinb0_10 i)).WholeWords (EltTy.packing .f32)

variable [Facts₀]

def dot_S64x256_S4096x256_S64x4096_1_1_0_0_n_n : DotDims S64x256 S4096x256 S64x4096 where
  lhsContracting := [1]
  rhsContracting := [1]
  lhsNonContracting := [0]
  rhsNonContracting := [0]
  lhsBatch := []
  rhsBatch := []
  wf := dot_S64x256_S4096x256_S64x4096_1_1_0_0_n_n_wf
def dot_S64x4096_S4096x512_S64x512_1_0_0_1_n_n : DotDims S64x4096 S4096x512 S64x512 where
  lhsContracting := [1]
  rhsContracting := [0]
  lhsNonContracting := [0]
  rhsNonContracting := [1]
  lhsBatch := []
  rhsBatch := []
  wf := dot_S64x4096_S4096x512_S64x512_1_0_0_1_n_n_wf
def dot_S64x64_S64x4096_S64x4096_0_0_1_1_n_n : DotDims S64x64 S64x4096 S64x4096 where
  lhsContracting := [0]
  rhsContracting := [0]
  lhsNonContracting := [1]
  rhsNonContracting := [1]
  lhsBatch := []
  rhsBatch := []
  wf := dot_S64x64_S64x4096_S64x4096_0_0_1_1_n_n_wf
def dot_S64x4096_S4096x1024_S64x1024_1_0_0_1_n_n : DotDims S64x4096 S4096x1024 S64x1024 where
  lhsContracting := [1]
  rhsContracting := [0]
  lhsNonContracting := [0]
  rhsNonContracting := [1]
  lhsBatch := []
  rhsBatch := []
  wf := dot_S64x4096_S4096x1024_S64x1024_1_0_0_1_n_n_wf
def dot_S10x64_S64x1024_S10x1024_1_0_0_1_n_n : DotDims S10x64 S64x1024 S10x1024 where
  lhsContracting := [1]
  rhsContracting := [0]
  lhsNonContracting := [0]
  rhsNonContracting := [1]
  lhsBatch := []
  rhsBatch := []
  wf := dot_S10x64_S64x1024_S10x1024_1_0_0_1_n_n_wf

abbrev win0_0 : Pipeline.Window sig grid0 :=
  Pipeline.Window.ofSpec (Memref.whole main_arg1) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S10x192.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S10.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v2) S10x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond6 i == 1#1) | ⟨_ + 11, h⟩ => absurd h (Nat.not_lt.2 (Nat.le_add_left _ _))

class Facts : Prop extends Facts₀ where

variable [Facts]
-- ==== ReferenceIdeal.lean ====
abbrev S4096x256 : Shape := ⟨2, ![4096, 256]⟩
abbrev S4096x4096 : Shape := ⟨2, ![4096, 4096]⟩
abbrev S256x64 : Shape := ⟨2, ![256, 64]⟩
abbrev S64x64 : Shape := ⟨2, ![64, 64]⟩
abbrev S64 : Shape := ⟨1, ![64]⟩
abbrev S192x10 : Shape := ⟨2, ![192, 10]⟩
abbrev S10 : Shape := ⟨1, ![10]⟩
abbrev S_ : Shape := ⟨0, ![]⟩
abbrev S16777216 : Shape := ⟨1, ![16777216]⟩
abbrev S131072 : Shape := ⟨1, ![131072]⟩
abbrev S16777216x1 : Shape := ⟨2, ![16777216, 1]⟩
abbrev S4096x64 : Shape := ⟨2, ![4096, 64]⟩
abbrev S131072x1 : Shape := ⟨2, ![131072, 1]⟩
abbrev S131072x64 : Shape := ⟨2, ![131072, 64]⟩
abbrev S1x64 : Shape := ⟨2, ![1, 64]⟩
abbrev S4096x192 : Shape := ⟨2, ![4096, 192]⟩
abbrev S4096x10 : Shape := ⟨2, ![4096, 10]⟩
abbrev S1x10 : Shape := ⟨2, ![1, 10]⟩
abbrev S4096 : Shape := ⟨1, ![4096]⟩
abbrev S4096x1 : Shape := ⟨2, ![4096, 1]⟩

abbrev nBuf : Space → Nat
  | .hbm => 207
  | .vmem => 0
  | .smem => 0
  | _ => 0

abbrev hbmTy0_0 (i : Nat) : BufTy := match i % 128 with
  | 0 => ⟨S4096x256, .f32⟩
  | 1 => ⟨S4096x4096, .f32⟩
  | 2 => ⟨S256x64, .f32⟩
  | 3 => ⟨S64x64, .f32⟩
  | 4 => ⟨S64x64, .f32⟩
  | 5 => ⟨S64, .f32⟩
  | 6 => ⟨S64, .f32⟩
  | 7 => ⟨S64, .f32⟩
  | 8 => ⟨S192x10, .f32⟩
  | 9 => ⟨S10, .f32⟩
  | 10 => ⟨S_, .f32⟩
  | 11 => ⟨S4096x4096, .f32⟩
  | 12 => ⟨S4096x4096, .i1⟩
  | 13 => ⟨S16777216, .i1⟩
  | 14 => ⟨S16777216, .i32⟩
  | 15 => ⟨S_, .i32⟩
  | 16 => ⟨S_, .i32⟩
  | 17 => ⟨S16777216, .i32⟩
  | 18 => ⟨S_, .i32⟩
  | 19 => ⟨S131072, .i32⟩
  | 20 => ⟨S_, .i32⟩
  | 21 => ⟨S_, .i32⟩
  | 22 => ⟨S16777216, .i32⟩
  | 23 => ⟨S16777216, .i32⟩
  | 24 => ⟨S_, .i32⟩
  | 25 => ⟨S16777216, .i32⟩
  | 26 => ⟨S16777216, .i1⟩
  | 27 => ⟨S_, .i32⟩
  | 28 => ⟨S16777216, .i32⟩
  | 29 => ⟨S16777216, .i32⟩
  | 30 => ⟨S16777216, .i32⟩
  | 31 => ⟨S16777216x1, .i32⟩
  | 32 => ⟨S_, .i32⟩
  | 33 => ⟨S16777216, .i32⟩
  | 34 => ⟨S131072, .i32⟩
  | 35 => ⟨S_, .i32⟩
  | 36 => ⟨S_, .i32⟩
  | 37 => ⟨S131072, .i32⟩
  | 38 => ⟨S_, .i32⟩
  | 39 => ⟨S131072, .i32⟩
  | 40 => ⟨S131072, .i32⟩
  | 41 => ⟨S131072, .i32⟩
  | 42 => ⟨S_, .i32⟩
  | 43 => ⟨S131072, .i32⟩
  | 44 => ⟨S131072, .i1⟩
  | 45 => ⟨S131072, .i32⟩
  | 46 => ⟨S131072, .i32⟩
  | 47 => ⟨S_, .i32⟩
  | 48 => ⟨S131072, .i32⟩
  | 49 => ⟨S131072, .i1⟩
  | 50 => ⟨S131072, .i1⟩
  | 51 => ⟨S_, .i32⟩
  | 52 => ⟨S131072, .i32⟩
  | 53 => ⟨S131072, .i32⟩
  | 54 => ⟨S131072, .i32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S131072, .i32⟩
  | 62 => ⟨S131072, .i32⟩
  | 63 => ⟨S_, .i32⟩
  | 64 => ⟨S131072, .i32⟩
  | 65 => ⟨S131072, .i1⟩
  | 66 => ⟨S_, .i32⟩
  | 67 => ⟨S131072, .i32⟩
  | 68 => ⟨S131072, .i1⟩
  | 69 => ⟨S_, .i32⟩
  | 70 => ⟨S_, .i1⟩
  | 71 => ⟨S131072, .i1⟩
  | 72 => ⟨S131072, .i1⟩
  | 73 => ⟨S131072, .i1⟩
  | 74 => ⟨S131072, .i32⟩
  | 75 => ⟨S131072, .i32⟩
  | 76 => ⟨S131072, .i32⟩
  | 77 => ⟨S_, .i32⟩
  | 78 => ⟨S131072, .i32⟩
  | 79 => ⟨S131072, .i32⟩
  | 80 => ⟨S131072, .i32⟩
  | 81 => ⟨S_, .i32⟩
  | 82 => ⟨S131072, .i32⟩
  | 83 => ⟨S131072, .i1⟩
  | 84 => ⟨S131072, .i32⟩
  | 85 => ⟨S131072, .i32⟩
  | 86 => ⟨S_, .i32⟩
  | 87 => ⟨S131072, .i32⟩
  | 88 => ⟨S131072, .i1⟩
  | 89 => ⟨S131072, .i1⟩
  | 90 => ⟨S_, .i32⟩
  | 91 => ⟨S131072, .i32⟩
  | 92 => ⟨S131072, .i32⟩
  | 93 => ⟨S131072, .i32⟩
  | 94 => ⟨S_, .i32⟩
  | 95 => ⟨S_, .i32⟩
  | 96 => ⟨S_, .i32⟩
  | 97 => ⟨S_, .i1⟩
  | 98 => ⟨S_, .i32⟩
  | 99 => ⟨S_, .i32⟩
  | 100 => ⟨S131072, .i32⟩
  | 101 => ⟨S131072, .i32⟩
  | 102 => ⟨S_, .i32⟩
  | 103 => ⟨S131072, .i32⟩
  | 104 => ⟨S131072, .i1⟩
  | 105 => ⟨S_, .i32⟩
  | 106 => ⟨S131072, .i32⟩
  | 107 => ⟨S131072, .i1⟩
  | 108 => ⟨S_, .i32⟩
  | 109 => ⟨S_, .i1⟩
  | 110 => ⟨S131072, .i1⟩
  | 111 => ⟨S131072, .i1⟩
  | 112 => ⟨S131072, .i1⟩
  | 113 => ⟨S131072, .i32⟩
  | 114 => ⟨S131072, .i32⟩
  | 115 => ⟨S131072, .i32⟩
  | 116 => ⟨S131072, .i32⟩
  | 117 => ⟨S4096x4096, .i32⟩
  | 118 => ⟨S_, .i32⟩
  | 119 => ⟨S_, .i32⟩
  | 120 => ⟨S131072, .i32⟩
  | 121 => ⟨S131072, .i1⟩
  | 122 => ⟨S_, .i32⟩
  | 123 => ⟨S_, .i32⟩
  | 124 => ⟨S131072, .i32⟩
  | 125 => ⟨S131072, .i32⟩
  | 126 => ⟨S_, .i32⟩
  | 127 => ⟨S_, .i32⟩
  | _ => ⟨S4096x256, .f32⟩

abbrev hbmTy0_1 (i : Nat) : BufTy := match i % 128 with
  | 0 => ⟨S131072, .i32⟩
  | 1 => ⟨S131072, .i32⟩
  | 2 => ⟨S4096x64, .f32⟩
  | 3 => ⟨S_, .i32⟩
  | 4 => ⟨S131072, .i32⟩
  | 5 => ⟨S131072, .i1⟩
  | 6 => ⟨S_, .i32⟩
  | 7 => ⟨S131072, .i32⟩
  | 8 => ⟨S131072, .i32⟩
  | 9 => ⟨S131072, .i32⟩
  | 10 => ⟨S131072x1, .i32⟩
  | 11 => ⟨S131072x64, .f32⟩
  | 12 => ⟨S_, .f32⟩
  | 13 => ⟨S4096x64, .f32⟩
  | 14 => ⟨S131072x1, .i32⟩
  | 15 => ⟨S4096x64, .f32⟩
  | 16 => ⟨S1x64, .f32⟩
  | 17 => ⟨S4096x64, .f32⟩
  | 18 => ⟨S4096x64, .f32⟩
  | 19 => ⟨S_, .f32⟩
  | 20 => ⟨S4096x64, .f32⟩
  | 21 => ⟨S4096x64, .f32⟩
  | 22 => ⟨S4096x64, .f32⟩
  | 23 => ⟨S_, .i32⟩
  | 24 => ⟨S131072, .i32⟩
  | 25 => ⟨S131072, .i1⟩
  | 26 => ⟨S_, .i32⟩
  | 27 => ⟨S131072, .i32⟩
  | 28 => ⟨S131072, .i32⟩
  | 29 => ⟨S131072, .i32⟩
  | 30 => ⟨S131072x1, .i32⟩
  | 31 => ⟨S131072x64, .f32⟩
  | 32 => ⟨S_, .f32⟩
  | 33 => ⟨S4096x64, .f32⟩
  | 34 => ⟨S131072x1, .i32⟩
  | 35 => ⟨S4096x64, .f32⟩
  | 36 => ⟨S1x64, .f32⟩
  | 37 => ⟨S4096x64, .f32⟩
  | 38 => ⟨S4096x64, .f32⟩
  | 39 => ⟨S_, .f32⟩
  | 40 => ⟨S4096x64, .f32⟩
  | 41 => ⟨S4096x64, .f32⟩
  | 42 => ⟨S4096x64, .f32⟩
  | 43 => ⟨S_, .i32⟩
  | 44 => ⟨S131072, .i32⟩
  | 45 => ⟨S131072, .i1⟩
  | 46 => ⟨S_, .i32⟩
  | 47 => ⟨S131072, .i32⟩
  | 48 => ⟨S131072, .i32⟩
  | 49 => ⟨S131072, .i32⟩
  | 50 => ⟨S131072x1, .i32⟩
  | 51 => ⟨S131072x64, .f32⟩
  | 52 => ⟨S_, .f32⟩
  | 53 => ⟨S4096x64, .f32⟩
  | 54 => ⟨S131072x1, .i32⟩
  | 55 => ⟨S4096x64, .f32⟩
  | 56 => ⟨S1x64, .f32⟩
  | 57 => ⟨S4096x64, .f32⟩
  | 58 => ⟨S4096x64, .f32⟩
  | 59 => ⟨S4096x192, .f32⟩
  | 60 => ⟨S4096x10, .f32⟩
  | 61 => ⟨S1x10, .f32⟩
  | 62 => ⟨S4096x10, .f32⟩
  | 63 => ⟨S4096x10, .f32⟩
  | 64 => ⟨S_, .f32⟩
  | 65 => ⟨S4096, .f32⟩
  | 66 => ⟨S_, .f32⟩
  | 67 => ⟨S4096, .f32⟩
  | 68 => ⟨S4096, .f32⟩
  | 69 => ⟨S4096x1, .f32⟩
  | 70 => ⟨S4096x10, .f32⟩
  | 71 => ⟨S4096x10, .f32⟩
  | 72 => ⟨S4096x10, .f32⟩
  | 73 => ⟨S_, .f32⟩
  | 74 => ⟨S4096, .f32⟩
  | 75 => ⟨S4096x1, .f32⟩
  | 76 => ⟨S4096x1, .f32⟩
  | 77 => ⟨S4096x10, .f32⟩
  | 78 => ⟨S4096x10, .f32⟩
  | _ => ⟨S4096x256, .f32⟩

abbrev hbmTy (i : Nat) : BufTy := match i / 128 with
  | 0 => hbmTy0_0 i
  | 1 => hbmTy0_1 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_call0_v0 : Ref sig .tc := ⟨.hbm, 13, rfl⟩
abbrev main_call0_v1 : Ref sig .tc := ⟨.hbm, 14, rfl⟩
abbrev main_call0_call0_c : Ref sig .tc := ⟨.hbm, 15, rfl⟩
abbrev main_call0_call0_v0 : Ref sig .tc := ⟨.hbm, 16, rfl⟩
abbrev main_v2 : Ref sig .tc := ⟨.hbm, 17, rfl⟩
abbrev main_c : Ref sig .tc := ⟨.hbm, 18, rfl⟩
abbrev main_v3 : Ref sig .tc := ⟨.hbm, 19, rfl⟩
abbrev main_c_0 : Ref sig .tc := ⟨.hbm, 20, rfl⟩
abbrev main_call1_v0 : Ref sig .tc := ⟨.hbm, 21, rfl⟩
abbrev main_call1_v1 : Ref sig .tc := ⟨.hbm, 22, rfl⟩
abbrev main_v4 : Ref sig .tc := ⟨.hbm, 23, rfl⟩
abbrev main_c_1 : Ref sig .tc := ⟨.hbm, 24, rfl⟩
abbrev main_v5 : Ref sig .tc := ⟨.hbm, 25, rfl⟩
abbrev main_v6 : Ref sig .tc := ⟨.hbm, 26, rfl⟩
abbrev main_c_2 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_3 : Ref sig .tc := ⟨.hbm, 32, rfl⟩
abbrev main_v11 : Ref sig .tc := ⟨.hbm, 33, rfl⟩
abbrev main_v12 : Ref sig .tc := ⟨.hbm, 34, rfl⟩
abbrev main_call2_call0_c : Ref sig .tc := ⟨.hbm, 35, rfl⟩
abbrev main_call2_call0_v0 : Ref sig .tc := ⟨.hbm, 36, rfl⟩
abbrev main_v13 : Ref sig .tc := ⟨.hbm, 37, rfl⟩
abbrev main_c_4 : Ref sig .tc := ⟨.hbm, 38, rfl⟩
abbrev main_call3_v0 : Ref sig .tc := ⟨.hbm, 39, rfl⟩
abbrev main_call3_v1 : Ref sig .tc := ⟨.hbm, 40, rfl⟩
abbrev main_call3_v2 : Ref sig .tc := ⟨.hbm, 41, rfl⟩
abbrev main_call3_v3 : Ref sig .tc := ⟨.hbm, 42, rfl⟩
abbrev main_call3_v4 : Ref sig .tc := ⟨.hbm, 43, rfl⟩
abbrev main_call3_v5 : Ref sig .tc := ⟨.hbm, 44, rfl⟩
abbrev main_call3_v6 : Ref sig .tc := ⟨.hbm, 45, rfl⟩
abbrev main_call3_v7 : Ref sig .tc := ⟨.hbm, 46, rfl⟩
abbrev main_call3_c : Ref sig .tc := ⟨.hbm, 47, rfl⟩
abbrev main_call3_v8 : Ref sig .tc := ⟨.hbm, 48, rfl⟩
abbrev main_call3_v9 : Ref sig .tc := ⟨.hbm, 49, rfl⟩
abbrev main_call3_v10 : Ref sig .tc := ⟨.hbm, 50, rfl⟩
abbrev main_call3_c_0 : Ref sig .tc := ⟨.hbm, 51, rfl⟩
abbrev main_call3_v11 : Ref sig .tc := ⟨.hbm, 52, rfl⟩
abbrev main_call3_v12 : Ref sig .tc := ⟨.hbm, 53, rfl⟩
abbrev main_v14 : Ref sig .tc := ⟨.hbm, 54, rfl⟩
abbrev main_c_5 : Ref sig .tc := ⟨.hbm, 55, rfl⟩
abbrev main_call4_v0 : Ref sig .tc := ⟨.hbm, 56, rfl⟩
abbrev main_call4_c : Ref sig .tc := ⟨.hbm, 57, rfl⟩
abbrev main_call4_v1 : Ref sig .tc := ⟨.hbm, 58, rfl⟩
abbrev main_call4_c_0 : Ref sig .tc := ⟨.hbm, 59, rfl⟩
abbrev main_call4_v2 : Ref sig .tc := ⟨.hbm, 60, rfl⟩
abbrev main_call4_v3 : Ref sig .tc := ⟨.hbm, 61, rfl⟩
abbrev main_call4_v4 : Ref sig .tc := ⟨.hbm, 62, rfl⟩
abbrev main_call4_c_1 : Ref sig .tc := ⟨.hbm, 63, rfl⟩
abbrev main_call4_v5 : Ref sig .tc := ⟨.hbm, 64, rfl⟩
abbrev main_call4_v6 : Ref sig .tc := ⟨.hbm, 65, rfl⟩
abbrev main_call4_c_2 : Ref sig .tc := ⟨.hbm, 66, rfl⟩
abbrev main_call4_v7 : Ref sig .tc := ⟨.hbm, 67, rfl⟩
abbrev main_call4_v8 : Ref sig .tc := ⟨.hbm, 68, rfl⟩
abbrev main_call4_c_3 : Ref sig .tc := ⟨.hbm, 69, rfl⟩
abbrev main_call4_v9 : Ref sig .tc := ⟨.hbm, 70, rfl⟩
abbrev main_call4_v10 : Ref sig .tc := ⟨.hbm, 71, rfl⟩
abbrev main_call4_v11 : Ref sig .tc := ⟨.hbm, 72, rfl⟩
abbrev main_call4_v12 : Ref sig .tc := ⟨.hbm, 73, rfl⟩
abbrev main_call4_v13 : Ref sig .tc := ⟨.hbm, 74, rfl⟩
abbrev main_call4_v14 : Ref sig .tc := ⟨.hbm, 75, rfl⟩
abbrev main_v15 : Ref sig .tc := ⟨.hbm, 76, rfl⟩
abbrev main_c_6 : Ref sig .tc := ⟨.hbm, 77, rfl⟩
abbrev main_call5_v0 : Ref sig .tc := ⟨.hbm, 78, rfl⟩
abbrev main_call5_v1 : Ref sig .tc := ⟨.hbm, 79, rfl⟩
abbrev main_call5_v2 : Ref sig .tc := ⟨.hbm, 80, rfl⟩
abbrev main_call5_v3 : Ref sig .tc := ⟨.hbm, 81, rfl⟩
abbrev main_call5_v4 : Ref sig .tc := ⟨.hbm, 82, rfl⟩
abbrev main_call5_v5 : Ref sig .tc := ⟨.hbm, 83, rfl⟩
abbrev main_call5_v6 : Ref sig .tc := ⟨.hbm, 84, rfl⟩
abbrev main_call5_v7 : Ref sig .tc := ⟨.hbm, 85, rfl⟩
abbrev main_call5_c : Ref sig .tc := ⟨.hbm, 86, rfl⟩
abbrev main_call5_v8 : Ref sig .tc := ⟨.hbm, 87, rfl⟩
abbrev main_call5_v9 : Ref sig .tc := ⟨.hbm, 88, rfl⟩
abbrev main_call5_v10 : Ref sig .tc := ⟨.hbm, 89, rfl⟩
abbrev main_call5_c_0 : Ref sig .tc := ⟨.hbm, 90, rfl⟩
abbrev main_call5_v11 : Ref sig .tc := ⟨.hbm, 91, rfl⟩
abbrev main_call5_v12 : Ref sig .tc := ⟨.hbm, 92, rfl⟩
abbrev main_v16 : Ref sig .tc := ⟨.hbm, 93, rfl⟩
abbrev main_c_7 : Ref sig .tc := ⟨.hbm, 94, rfl⟩
abbrev main_call6_v0 : Ref sig .tc := ⟨.hbm, 95, rfl⟩
abbrev main_call6_c : Ref sig .tc := ⟨.hbm, 96, rfl⟩
abbrev main_call6_v1 : Ref sig .tc := ⟨.hbm, 97, rfl⟩
abbrev main_call6_c_0 : Ref sig .tc := ⟨.hbm, 98, rfl⟩
abbrev main_call6_v2 : Ref sig .tc := ⟨.hbm, 99, rfl⟩
abbrev main_call6_v3 : Ref sig .tc := ⟨.hbm, 100, rfl⟩
abbrev main_call6_v4 : Ref sig .tc := ⟨.hbm, 101, rfl⟩
abbrev main_call6_c_1 : Ref sig .tc := ⟨.hbm, 102, rfl⟩
abbrev main_call6_v5 : Ref sig .tc := ⟨.hbm, 103, rfl⟩
abbrev main_call6_v6 : Ref sig .tc := ⟨.hbm, 104, rfl⟩
abbrev main_call6_c_2 : Ref sig .tc := ⟨.hbm, 105, rfl⟩
abbrev main_call6_v7 : Ref sig .tc := ⟨.hbm, 106, rfl⟩
abbrev main_call6_v8 : Ref sig .tc := ⟨.hbm, 107, rfl⟩
abbrev main_call6_c_3 : Ref sig .tc := ⟨.hbm, 108, rfl⟩
abbrev main_call6_v9 : Ref sig .tc := ⟨.hbm, 109, rfl⟩
abbrev main_call6_v10 : Ref sig .tc := ⟨.hbm, 110, rfl⟩
abbrev main_call6_v11 : Ref sig .tc := ⟨.hbm, 111, rfl⟩
abbrev main_call6_v12 : Ref sig .tc := ⟨.hbm, 112, rfl⟩
abbrev main_call6_v13 : Ref sig .tc := ⟨.hbm, 113, rfl⟩
abbrev main_call6_v14 : Ref sig .tc := ⟨.hbm, 114, rfl⟩
abbrev main_v17 : Ref sig .tc := ⟨.hbm, 115, rfl⟩
abbrev main_v18 : Ref sig .tc := ⟨.hbm, 116, rfl⟩
abbrev main_v19 : Ref sig .tc := ⟨.hbm, 117, rfl⟩
abbrev main_c_8 : Ref sig .tc := ⟨.hbm, 118, rfl⟩
abbrev main_v20 : Ref sig .tc := ⟨.hbm, 119, rfl⟩
abbrev main_v21 : Ref sig .tc := ⟨.hbm, 120, rfl⟩
abbrev main_v22 : Ref sig .tc := ⟨.hbm, 121, rfl⟩
abbrev main_c_9 : Ref sig .tc := ⟨.hbm, 122, rfl⟩
abbrev main_call7_v0 : Ref sig .tc := ⟨.hbm, 123, rfl⟩
abbrev main_call7_v1 : Ref sig .tc := ⟨.hbm, 124, rfl⟩
abbrev main_v23 : Ref sig .tc := ⟨.hbm, 125, rfl⟩
abbrev main_c_10 : Ref sig .tc := ⟨.hbm, 126, rfl⟩
abbrev main_call8_v0 : Ref sig .tc := ⟨.hbm, 127, rfl⟩
abbrev main_call8_v1 : Ref sig .tc := ⟨.hbm, 128, rfl⟩
abbrev main_v24 : Ref sig .tc := ⟨.hbm, 129, rfl⟩
abbrev main_v25 : Ref sig .tc := ⟨.hbm, 130, rfl⟩
abbrev main_c_11 : Ref sig .tc := ⟨.hbm, 131, rfl⟩
abbrev main_v26 : Ref sig .tc := ⟨.hbm, 132, rfl⟩
abbrev main_v27 : Ref sig .tc := ⟨.hbm, 133, rfl⟩
abbrev main_c_12 : Ref sig .tc := ⟨.hbm, 134, rfl⟩
abbrev main_v28 : Ref sig .tc := ⟨.hbm, 135, rfl⟩
abbrev main_v29 : Ref sig .tc := ⟨.hbm, 136, rfl⟩
abbrev main_v30 : Ref sig .tc := ⟨.hbm, 137, rfl⟩
abbrev main_v31 : Ref sig .tc := ⟨.hbm, 138, rfl⟩
abbrev main_v32 : Ref sig .tc := ⟨.hbm, 139, rfl⟩
abbrev main_cst_13 : Ref sig .tc := ⟨.hbm, 140, rfl⟩
abbrev main_v33 : Ref sig .tc := ⟨.hbm, 141, rfl⟩
abbrev main_v34 : Ref sig .tc := ⟨.hbm, 142, rfl⟩
abbrev main_v35 : Ref sig .tc := ⟨.hbm, 143, rfl⟩
abbrev main_v36 : Ref sig .tc := ⟨.hbm, 144, rfl⟩
abbrev main_v37 : Ref sig .tc := ⟨.hbm, 145, rfl⟩
abbrev main_v38 : Ref sig .tc := ⟨.hbm, 146, rfl⟩
abbrev main_call9_cst : Ref sig .tc := ⟨.hbm, 147, rfl⟩
abbrev main_call9_v0 : Ref sig .tc := ⟨.hbm, 148, rfl⟩
abbrev main_v39 : Ref sig .tc := ⟨.hbm, 149, rfl⟩
abbrev main_v40 : Ref sig .tc := ⟨.hbm, 150, rfl⟩
abbrev main_c_14 : Ref sig .tc := ⟨.hbm, 151, rfl⟩
abbrev main_v41 : Ref sig .tc := ⟨.hbm, 152, rfl⟩
abbrev main_v42 : Ref sig .tc := ⟨.hbm, 153, rfl⟩
abbrev main_c_15 : Ref sig .tc := ⟨.hbm, 154, rfl⟩
abbrev main_v43 : Ref sig .tc := ⟨.hbm, 155, rfl⟩
abbrev main_v44 : Ref sig .tc := ⟨.hbm, 156, rfl⟩
abbrev main_v45 : Ref sig .tc := ⟨.hbm, 157, rfl⟩
abbrev main_v46 : Ref sig .tc := ⟨.hbm, 158, rfl⟩
abbrev main_v47 : Ref sig .tc := ⟨.hbm, 159, rfl⟩
abbrev main_cst_16 : Ref sig .tc := ⟨.hbm, 160, rfl⟩
abbrev main_v48 : Ref sig .tc := ⟨.hbm, 161, rfl⟩
abbrev main_v49 : Ref sig .tc := ⟨.hbm, 162, rfl⟩
abbrev main_v50 : Ref sig .tc := ⟨.hbm, 163, rfl⟩
abbrev main_v51 : Ref sig .tc := ⟨.hbm, 164, rfl⟩
abbrev main_v52 : Ref sig .tc := ⟨.hbm, 165, rfl⟩
abbrev main_v53 : Ref sig .tc := ⟨.hbm, 166, rfl⟩
abbrev main_call10_cst : Ref sig .tc := ⟨.hbm, 167, rfl⟩
abbrev main_call10_v0 : Ref sig .tc := ⟨.hbm, 168, rfl⟩
abbrev main_v54 : Ref sig .tc := ⟨.hbm, 169, rfl⟩
abbrev main_v55 : Ref sig .tc := ⟨.hbm, 170, rfl⟩
abbrev main_c_17 : Ref sig .tc := ⟨.hbm, 171, rfl⟩
abbrev main_v56 : Ref sig .tc := ⟨.hbm, 172, rfl⟩
abbrev main_v57 : Ref sig .tc := ⟨.hbm, 173, rfl⟩
abbrev main_c_18 : Ref sig .tc := ⟨.hbm, 174, rfl⟩
abbrev main_v58 : Ref sig .tc := ⟨.hbm, 175, rfl⟩
abbrev main_v59 : Ref sig .tc := ⟨.hbm, 176, rfl⟩
abbrev main_v60 : Ref sig .tc := ⟨.hbm, 177, rfl⟩
abbrev main_v61 : Ref sig .tc := ⟨.hbm, 178, rfl⟩
abbrev main_v62 : Ref sig .tc := ⟨.hbm, 179, rfl⟩
abbrev main_cst_19 : Ref sig .tc := ⟨.hbm, 180, rfl⟩
abbrev main_v63 : Ref sig .tc := ⟨.hbm, 181, rfl⟩
abbrev main_v64 : Ref sig .tc := ⟨.hbm, 182, rfl⟩
abbrev main_v65 : Ref sig .tc := ⟨.hbm, 183, rfl⟩
abbrev main_v66 : Ref sig .tc := ⟨.hbm, 184, rfl⟩
abbrev main_v67 : Ref sig .tc := ⟨.hbm, 185, rfl⟩
abbrev main_v68 : Ref sig .tc := ⟨.hbm, 186, rfl⟩
abbrev main_v69 : Ref sig .tc := ⟨.hbm, 187, rfl⟩
abbrev main_v70 : Ref sig .tc := ⟨.hbm, 188, rfl⟩
abbrev main_v71 : Ref sig .tc := ⟨.hbm, 189, rfl⟩
abbrev main_v72 : Ref sig .tc := ⟨.hbm, 190, rfl⟩
abbrev main_v73 : Ref sig .tc := ⟨.hbm, 191, rfl⟩
abbrev main_call11_cst : Ref sig .tc := ⟨.hbm, 192, rfl⟩
abbrev main_call11_v0 : Ref sig .tc := ⟨.hbm, 193, rfl⟩
abbrev main_call11_cst_0 : Ref sig .tc := ⟨.hbm, 194, rfl⟩
abbrev main_call11_v1 : Ref sig .tc := ⟨.hbm, 195, rfl⟩
abbrev main_call11_v2 : Ref sig .tc := ⟨.hbm, 196, rfl⟩
abbrev main_call11_v3 : Ref sig .tc := ⟨.hbm, 197, rfl⟩
abbrev main_call11_v4 : Ref sig .tc := ⟨.hbm, 198, rfl⟩
abbrev main_call11_v5 : Ref sig .tc := ⟨.hbm, 199, rfl⟩
abbrev main_call11_v6 : Ref sig .tc := ⟨.hbm, 200, rfl⟩
abbrev main_call11_cst_1 : Ref sig .tc := ⟨.hbm, 201, rfl⟩
abbrev main_call11_v7 : Ref sig .tc := ⟨.hbm, 202, rfl⟩
abbrev main_call11_v8 : Ref sig .tc := ⟨.hbm, 203, rfl⟩
abbrev main_call11_v9 : Ref sig .tc := ⟨.hbm, 204, rfl⟩
abbrev main_call11_v10 : Ref sig .tc := ⟨.hbm, 205, rfl⟩
abbrev main_v74 : Ref sig .tc := ⟨.hbm, 206, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  shapeCasts_S4096x4096_S16777216 : S4096x4096.ShapeCasts S16777216
  natLt_1_32 : 1 < 32
  bcast_S_S_ : S_.BroadcastsInDim S_ (![] : Fin 0 → Fin S_.rank)
  reduceWindows_S16777216_S16777216_w16777216s1p16777215_0 : S16777216.ReduceWindows (![16777216] : Fin 1 → Nat) ![1] ![16777215] ![0] S16777216
  h_S_ : 0 < S_.numel
  bcast_S_S131072 : S_.BroadcastsInDim S131072 (![] : Fin 0 → Fin S131072.rank)
  bcast_S_S16777216 : S_.BroadcastsInDim S16777216 (![] : Fin 0 → Fin S16777216.rank)
  bcast_S16777216_S16777216x1_0 : S16777216.BroadcastsInDim S16777216x1 (![0] : Fin 1 → Fin S16777216x1.rank)
  reduceWindows_S131072_S131072_w131072s1p131071_0 : S131072.ReduceWindows (![131072] : Fin 1 → Nat) ![1] ![131071] ![0] S131072
  reducesTo_S4096x4096_S_d0_1 : S4096x4096.ReducesTo [0, 1] S_
  bcast_S131072_S131072x1_0 : S131072.BroadcastsInDim S131072x1 (![0] : Fin 1 → Fin S131072x1.rank)
  bcast_S_S4096x64 : S_.BroadcastsInDim S4096x64 (![] : Fin 0 → Fin S4096x64.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  concatenates_S4096x64_S4096x64_S4096x64_S4096x192_d1 : Shape.Concatenates [S4096x64, S4096x64, S4096x64] S4096x192 1
  bcast_S10_S1x10_1 : S10.BroadcastsInDim S1x10 (![1] : Fin 1 → Fin S1x10.rank)
  bcast_S1x10_S4096x10_0_1 : S1x10.BroadcastsInDim S4096x10 (![0, 1] : Fin 2 → Fin S4096x10.rank)
  reducesTo_S4096x10_S4096_d1 : S4096x10.ReducesTo [1] S4096
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x10_0_1 : S4096x1.BroadcastsInDim S4096x10 (![0, 1] : Fin 2 → Fin S4096x10.rank)
  scatter_S131072_S16777216x1_S16777216_n_0_0_1_wf : ScatterDims.WF S131072 S16777216x1 S16777216 [] [0] [0] 1
  dot_S4096x256_S256x64_S4096x64_1_0_0_1_n_n_wf : DotDims.WF S4096x256 S256x64 S4096x64 [1] [0] [0] [1] [] []
  gather_S4096x64_S131072x1_S131072x64_1_0_n_n_0_1_164_wf : GatherDims.WF S4096x64 S131072x1 S131072x64 [1] [0] [] [0] [] 1 ![1, 64]
  scatter_S4096x64_S131072x1_S131072x64_1_0_0_1_wf : ScatterDims.WF S4096x64 S131072x1 S131072x64 [1] [0] [0] 1
  dot_S4096x64_S64x64_S4096x64_1_0_0_1_n_n_wf : DotDims.WF S4096x64 S64x64 S4096x64 [1] [0] [0] [1] [] []
  dot_S4096x192_S192x10_S4096x10_1_0_0_1_n_n_wf : DotDims.WF S4096x192 S192x10 S4096x10 [1] [0] [0] [1] [] []

variable [Facts₀]

def scatter_S131072_S16777216x1_S16777216_n_0_0_1 : ScatterDims S131072 S16777216x1 S16777216 where
  updateWindowDims := []
  insertedWindowDims := [0]
  scatterDimsToOperandDims := [0]
  indexVectorDim := 1
  wf := scatter_S131072_S16777216x1_S16777216_n_0_0_1_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf
def gather_S4096x64_S131072x1_S131072x64_1_0_n_n_0_1_164 : GatherDims S4096x64 S131072x1 S131072x64 where
  offsetDims := [1]
  collapsedSliceDims := [0]
  operandBatchingDims := []
  startIndicesBatchingDims := []
  startIndexMap := [0]
  indexVectorDim := 1
  sliceSizes := ![1, 64]
  wf := gather_S4096x64_S131072x1_S131072x64_1_0_n_n_0_1_164_wf
def scatter_S4096x64_S131072x1_S131072x64_1_0_0_1 : ScatterDims S4096x64 S131072x1 S131072x64 where
  updateWindowDims := [1]
  insertedWindowDims := [0]
  scatterDimsToOperandDims := [0]
  indexVectorDim := 1
  wf := scatter_S4096x64_S131072x1_S131072x64_1_0_0_1_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x192_S192x10_S4096x10_1_0_0_1_n_n : DotDims S4096x192 S192x10 S4096x10 where
  lhsContracting := [1]
  rhsContracting := [0]
  lhsNonContracting := [0]
  rhsNonContracting := [1]
  lhsBatch := []
  rhsBatch := []
  wf := dot_S4096x192_S192x10_S4096x10_1_0_0_1_n_n_wf

class Facts : Prop extends Facts₀ where

variable [Facts]
-- ==== Proof.PreFacts.lean ====
import proofs.«113402_g36472862278100_cont_sun_c4_736_16_alg».proof.Pre_finite_inputs
import Idealize.ShloMosaic.Lib.ReduceAll
import Idealize.ShloMosaic.Lib.IdealHost
import Idealize.ShloMosaic.Lib.StableHlo.Predicate

noncomputable section

namespace Cert.PreFacts

open Idealize.ShloMosaic Idealize.ShloMosaic.ValueIdx Cert.Pre_finite_inputs
open Idealize.ShloMosaic.StableHlo.Predicate

instance : Subsingleton S_.Idx := ⟨fun a b => funext fun d => d.elim0⟩

theorem real_of_abs_lt_top (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop, Ideal.cmp, ofBool_eq_one_iff, decide_eq_true_eq] at h
  induction x using EReal.rec with
  | bot => simp at h
  | coe r => exact ⟨r, rfl⟩
  | top => simp at h

theorem zero_or_one_of_bits (x : Ideal .f32)
    (h : IntOp.ori (FloatOps.cmpf .oeq x (FloatOps.ofBits (F := Ideal) .f32 0x00000000#32))
      (FloatOps.cmpf .oeq x (FloatOps.ofBits (F := Ideal) .f32 0x3F800000#32)) = 1#1) : x = 0 ∨ x = 1 := by
  change IntOp.ori (Ideal.cmp .oeq (x : EReal) (Ideal.ofBits .f32 0x00000000#32))
    (Ideal.cmp .oeq (x : EReal) (Ideal.ofBits .f32 0x3F800000#32)) = 1#1 at h
  rw [Ideal.ofBits_zero_f32, Ideal.ofBits_one_f32, IntOp.ori_eq_one] at h
  simpa only [Ideal.cmp, ofBool_eq_one_iff, decide_eq_true_eq] using h

theorem une_zero_eq_one_iff (x : Ideal .f32) :
    FloatOps.cmpf .une x (FloatOps.ofBits (F := Ideal) .f32 0x00000000#32) = 1#1 ↔ x ≠ 0 := by
  change Ideal.cmp .une (x : EReal) (Ideal.ofBits .f32 0x00000000#32) = 1#1 ↔ x ≠ 0
  rw [Ideal.ofBits_zero_f32, Ideal.cmp, ofBool_eq_one_iff, decide_eq_true_eq]

-- The word sum of a widened mask over every axis counts its set bits: below 2³² entries the sum does not wrap.
theorem toNat_reduce_count_all {s : Shape} {axes : List (Fin s.rank)} (hs : s.numel < 2 ^ 32) (mask : IVec s 1) (hw : 1 < 32) (hr : s.ReducesTo axes S_)
    {u : Shape} (hu : 0 < u.numel) (j : S_.Idx) :
    (Host.reduce IntOp.addi (extui 32 mask hw) (constantI u 32 0#32) hr hu j).toNat
      = (Finset.univ.filter (fun i : s.Idx => mask i = 1#1)).card := by
  classical
  have hsum : ∑ i : s.Idx, (extui 32 mask hw i).toNat = (Finset.univ.filter (fun i : s.Idx => mask i = 1#1)).card := by
    rw [Finset.card_filter]
    exact Finset.sum_congr rfl (fun i _ => toNat_setWidth_bit (mask i))
  rw [Host.reduce_eq_fold, Finset.filter_true_of_mem (fun i _ => Subsingleton.elim _ _)]
  show (Finset.fold IntOp.addi 0#32 (extui 32 mask hw) Finset.univ).toNat = _
  rw [toNat_fold_addi _ _ (by
    rw [hsum]
    exact lt_of_le_of_lt (Finset.card_le_univ _) (by rwa [Shape.card_idx])), hsum]

section
variable {s : Shape} {axes : List (Fin s.rank)} (a : FVec Ideal s .f32)
  (hb : S_.BroadcastsInDim s (![] : Fin 0 → Fin s.rank)) (hr : s.ReducesTo axes S_) (h0 : 0 < S_.numel)

theorem finite_of_all
    (h : Host.reduce IntOp.andi (cmpf .olt (Host.absf a) (broadcastInDim s ![] hb (constant S_ .f32 0x7F800000#32)))
      (constantI S_ 1 1#1) hr h0 ix0 = 1#1) (i : s.Idx) : ∃ r : ℝ, a i = (r : EReal) :=
  real_of_abs_lt_top (a i) (Host.reduce_andi_all _ _ hr h0 ix0 h i)

theorem binary_of_all
    (h : Host.reduce IntOp.andi
      (ori (cmpf .oeq a (broadcastInDim s ![] hb (constant S_ .f32 0x00000000#32)))
        (cmpf .oeq a (broadcastInDim s ![] hb (constant S_ .f32 0x3F800000#32))))
      (constantI S_ 1 1#1) hr h0 ix0 = 1#1) (i : s.Idx) : a i = 0 ∨ a i = 1 :=
  zero_or_one_of_bits (a i) (Host.reduce_andi_all _ _ hr h0 ix0 h i)

-- With fewer than 2³¹ entries neither the word sum nor the signed comparison with n wraps.
theorem count_of_sle (hs : s.numel < 2 ^ 31) (hw : 1 < 32) (n : ℕ) (hn : n < 2 ^ 31)
    (h : IntOp.cmpi .sle
      (Host.reduce IntOp.addi
        (extui 32 (cmpf .une a (broadcastInDim s ![] hb (constant S_ .f32 0x00000000#32))) hw)
        (constantI S_ 32 0#32) hr h0 ix0) (BitVec.ofNat 32 n) = 1#1) :
    (Finset.univ.filter (fun i : s.Idx => a i ≠ 0)).card ≤ n := by
  classical
  have hcount : _ = (Finset.univ.filter (fun i : s.Idx => a i ≠ 0)).card :=
    (toNat_reduce_count_all (by omega : s.numel < 2 ^ 32)
      (cmpf .une a (broadcastInDim s ![] hb (constant S_ .f32 0x00000000#32))) hw hr h0 ix0).trans
      (congrArg _ (Finset.filter_congr fun i _ => une_zero_eq_one_iff (a i)))
  have hle : (Finset.univ.filter (fun i : s.Idx => a i ≠ 0)).card ≤ s.numel :=
    le_trans (Finset.card_le_univ _) (by rw [Shape.card_idx])
  have hb' : (BitVec.ofNat 32 n).toNat = n := by
    rw [BitVec.toNat_ofNat]; exact Nat.mod_eq_of_lt (by omega)
  rw [sle_iff_toNat (by rw [hcount]; omega) (by rw [hb']; exact hn), hcount, hb'] at h
  convert h

end

variable [Facts]

-- The printed precondition is a conjunction of twelve bits: ten "all finite", "all 0 or 1", and the count bound.
theorem of_pre (a0 : FVec Ideal S4096x256 .f32) (a1 : FVec Ideal S4096x4096 .f32) (a2 : FVec Ideal S256x64 .f32)
    (a3 : FVec Ideal S64x64 .f32) (a4 : FVec Ideal S64x64 .f32) (a5 : FVec Ideal S64 .f32) (a6 : FVec Ideal S64 .f32)
    (a7 : FVec Ideal S64 .f32) (a8 : FVec Ideal S192x10 .f32) (a9 : FVec Ideal S10 .f32)
    (h : Cert.Pre_finite_inputs.fn (F := Ideal) a0 a1 a2 a3 a4 a5 a6 a7 a8 a9 = fun _ => 1#1) :
    (∀ i, ∃ r : ℝ, a0 i = (r : EReal)) ∧
    (∀ i, ∃ r : ℝ, a1 i = (r : EReal)) ∧
    (∀ i, ∃ r : ℝ, a2 i = (r : EReal)) ∧
    (∀ i, ∃ r : ℝ, a3 i = (r : EReal)) ∧
    (∀ i, ∃ r : ℝ, a4 i = (r : EReal)) ∧
    (∀ i, ∃ r : ℝ, a5 i = (r : EReal)) ∧
    (∀ i, ∃ r : ℝ, a6 i = (r : EReal)) ∧
    (∀ i, ∃ r : ℝ, a7 i = (r : EReal)) ∧
    (∀ i, ∃ r : ℝ, a8 i = (r : EReal)) ∧
    (∀ i, ∃ r : ℝ, a9 i = (r : EReal)) ∧
    (∀ i, a1 i = 0 ∨ a1 i = 1) ∧
    ((Finset.univ.filter (fun i : Cert.Pre_finite_inputs.S4096x4096.Idx => a1 i ≠ 0)).card ≤ 131072) := by
  have e := congrFun h ix0
  dsimp only [fn, fn_part1, fn_part2, fn_part3] at e
  simp only [andi, IntOp.andi_eq_one] at e
  obtain ⟨⟨⟨⟨⟨⟨⟨⟨⟨⟨⟨e0, e1⟩, e2⟩, e3⟩, e4⟩, e5⟩, e6⟩, e7⟩, e8⟩, e9⟩, eb⟩, ec⟩ := e
  exact ⟨finite_of_all a0 _ _ _ e0, finite_of_all a1 _ _ _ e1, finite_of_all a2 _ _ _ e2, finite_of_all a3 _ _ _ e3,
    finite_of_all a4 _ _ _ e4, finite_of_all a5 _ _ _ e5, finite_of_all a6 _ _ _ e6, finite_of_all a7 _ _ _ e7,
    finite_of_all a8 _ _ _ e8, finite_of_all a9 _ _ _ e9, binary_of_all a1 _ _ _ eb,
    count_of_sle a1 _ _ _ (by decide) _ 131072 (by decide) ec⟩

end Cert.PreFacts

end
-- ==== Proof.Spec.lean ====
import Idealize.ShloMosaic.PureOps.Ideal
import Idealize.ShloMosaic.Lib.ValueIdx

noncomputable section

namespace Cert.Spec

open Idealize.ShloMosaic Idealize.ShloMosaic.ValueIdx
open scoped BigOperators

abbrev Arr2 (n m : Nat) : Type := (⟨2, ![n, m]⟩ : Shape).Idx → EReal
abbrev Arr1 (n : Nat) : Type := (⟨1, ![n]⟩ : Shape).Idx → EReal

def agg (A : Arr2 4096 4096) (H : Fin 4096 → Fin 64 → EReal) (j : Fin 4096) (f : Fin 64) : EReal :=
  ∑ i : Fin 4096, H i f * A (ix2 i j)

def lin1 (x : Arr2 4096 256) (W1 : Arr2 256 64) (i : Fin 4096) (f : Fin 64) : EReal :=
  ∑ k : Fin 256, x (ix2 i k) * W1 (ix2 k f)

def lin (H : Fin 4096 → Fin 64 → EReal) (W : Arr2 64 64) (i : Fin 4096) (f : Fin 64) : EReal :=
  ∑ k : Fin 64, H i k * W (ix2 k f)

def X1 (A : Arr2 4096 4096) (x : Arr2 4096 256) (W1 : Arr2 256 64) (b1 : Arr1 64) (j : Fin 4096) (f : Fin 64) : EReal :=
  max (agg A (lin1 x W1) j f + b1 (ix1 f)) 0

def X2 (A : Arr2 4096 4096) (x : Arr2 4096 256) (W1 : Arr2 256 64) (W2 : Arr2 64 64) (b1 b2 : Arr1 64)
    (j : Fin 4096) (f : Fin 64) : EReal :=
  max (agg A (lin (X1 A x W1 b1) W2) j f + b2 (ix1 f)) 0

def X3 (A : Arr2 4096 4096) (x : Arr2 4096 256) (W1 : Arr2 256 64) (W2 W3 : Arr2 64 64) (b1 b2 b3 : Arr1 64)
    (j : Fin 4096) (f : Fin 64) : EReal :=
  agg A (lin (X2 A x W1 W2 b1 b2) W3) j f + b3 (ix1 f)

def logits (A : Arr2 4096 4096) (x : Arr2 4096 256) (W1 : Arr2 256 64) (W2 W3 : Arr2 64 64) (b1 b2 b3 : Arr1 64)
    (LW : Arr2 192 10) (lb : Arr1 10) (j : Fin 4096) (c : Fin 10) : EReal :=
  ((∑ f : Fin 64, X1 A x W1 b1 j f * LW (ix2 ⟨f.val, by omega⟩ c))
    + (∑ f : Fin 64, X2 A x W1 W2 b1 b2 j f * LW (ix2 ⟨64 + f.val, by omega⟩ c))
    + (∑ f : Fin 64, X3 A x W1 W2 W3 b1 b2 b3 j f * LW (ix2 ⟨128 + f.val, by omega⟩ c)))
    + lb (ix1 c)

def logSoftmaxRow (l : Fin 10 → EReal) (c : Fin 10) : EReal :=
  (l c - Finset.univ.sup l) - Ideal.log (∑ c' : Fin 10, Ideal.exp (l c' - Finset.univ.sup l))

def out (A : Arr2 4096 4096) (x : Arr2 4096 256) (W1 : Arr2 256 64) (W2 W3 : Arr2 64 64) (b1 b2 b3 : Arr1 64)
    (LW : Arr2 192 10) (lb : Arr1 10) : Arr2 4096 10 :=
  fun i => logSoftmaxRow (logits A x W1 W2 W3 b1 b2 b3 LW lb (i 0)) (i 1)

end Cert.Spec

end
-- ==== Proof.KShared.lean ====
import proofs.«113402_g36472862278100_cont_sun_c4_736_16_alg».proof.Proof.Gen.KernelIdeal.Launch
import proofs.«113402_g36472862278100_cont_sun_c4_736_16_alg».proof.Proof.Gen.KernelIdeal.Skeleton
import proofs.«113402_g36472862278100_cont_sun_c4_736_16_alg».proof.Proof.Gen.KernelIdeal.Points
import proofs.«113402_g36472862278100_cont_sun_c4_736_16_alg».proof.Proof.Gen.KernelIdeal.Frame
import Idealize.ShloMosaic.Lib.Pipeline.FrameBody
import Idealize.ShloMosaic.Lib.Ring
import Idealize.ShloMosaic.Lib.Tactic

noncomputable section

namespace Cert.KernelIdeal.Hand

open Cert.KernelIdeal.Gen
open Idealize.ShloMosaic Idealize.ShloMosaic.TcCoe
open Idealize.SL.RA Idealize.SL.BI
open Idealize.SL.BI.BIBase Idealize.SL.Sem

variable {F : FTy → Type} [FloatOps F]

local notation "𝕄" => MT nD τ sig Unit (Elt F) ℕ (UR sig nD τ) ℕ

abbrev cond0_1 (i : grid0.Coords) : Prop :=
  let arg0 : BitVec 32 := BitVec.ofNat 32 (i 0).val
  let v0 : BitVec 1 := Scalar.cmpi .eq arg0 0#32
  let v1 : BitVec 32 := Scalar.extui v0
  let v2 : BitVec 1 := Scalar.cmpi .ne v1 0#32
  v2 = 1#1
abbrev cond0_2 (i : grid0.Coords) : Prop := k0_cond2 i = 1#1
abbrev cond0_3 (i : grid0.Coords) : Prop :=
  let arg0 : BitVec 32 := BitVec.ofNat 32 (i 0).val
  let v6 : BitVec 1 := Scalar.cmpi .eq arg0 7#32
  let v7 : BitVec 32 := Scalar.extui v6
  let v8 : BitVec 1 := Scalar.cmpi .ne v7 0#32
  v8 = 1#1
abbrev cond0_4 (i : grid0.Coords) : Prop := k0_cond4 i = 1#1
abbrev cond0_5 (i : grid0.Coords) : Prop :=
  let arg0 : BitVec 32 := BitVec.ofNat 32 (i 0).val
  let v14 : BitVec 1 := Scalar.cmpi .eq arg0 11#32
  let v15 : BitVec 32 := Scalar.extui v14
  let v16 : BitVec 1 := Scalar.cmpi .ne v15 0#32
  v16 = 1#1
abbrev cond0_6 (i : grid0.Coords) : Prop := k0_cond6 i = 1#1

theorem hcond0_1 : ∀ t : Fin cfg0.N, cond0_1 (grid0.coords t) ↔ t.val = 0 := by decide +kernel
theorem hcond0_2 : ∀ t : Fin cfg0.N, cond0_2 (grid0.coords t) ↔ t.val < 8 := by decide +kernel
theorem hcond0_3 : ∀ t : Fin cfg0.N, cond0_3 (grid0.coords t) ↔ t.val = 7 := by decide +kernel
theorem hcond0_4 : ∀ t : Fin cfg0.N, cond0_4 (grid0.coords t) ↔ (8 ≤ t.val ∧ t.val < 12) := by decide +kernel
theorem hcond0_5 : ∀ t : Fin cfg0.N, cond0_5 (grid0.coords t) ↔ t.val = 11 := by decide +kernel
theorem hcond0_6 : ∀ t : Fin cfg0.N, cond0_6 (grid0.coords t) ↔ 12 ≤ t.val := by decide +kernel

theorem k0_off3_eq : ∀ i : grid0.Coords, cond0_4 i → k0_off3 i = ![0, 1024 * ((i 0).val - 8)] := by decide +kernel
theorem k0_off4_eq : ∀ i : grid0.Coords, cond0_4 i → k0_off4 i = ![0, 1024 * ((i 0).val - 8)] := by decide +kernel
theorem k0_off5_eq : ∀ i : grid0.Coords, cond0_6 i → k0_off5 i = ![0, 1024 * ((i 0).val - 12)] := by decide +kernel
theorem k0_off6_eq : ∀ i : grid0.Coords, cond0_6 i → k0_off6 i = ![0, 1024 * ((i 0).val - 12)] := by decide +kernel

theorem hoff1 : ∀ t : Fin cfg0.N, k0_off1 (grid0.coords t) = ![0, 512 * t.val] := by decide +kernel
theorem hoff2 : ∀ t : Fin cfg0.N, k0_off2 (grid0.coords t) = ![0, 512 * t.val] := by decide +kernel
theorem hoff3 : ∀ t : Fin cfg0.N, 8 ≤ t.val → t.val < 12 → k0_off3 (grid0.coords t) = ![0, 1024 * (t.val - 8)] := by decide +kernel
theorem hoff4 : ∀ t : Fin cfg0.N, 8 ≤ t.val → t.val < 12 → k0_off4 (grid0.coords t) = ![0, 1024 * (t.val - 8)] := by decide +kernel
theorem hoff5 : ∀ t : Fin cfg0.N, 12 ≤ t.val → k0_off5 (grid0.coords t) = ![0, 1024 * (t.val - 12)] := by decide +kernel
theorem hoff6 : ∀ t : Fin cfg0.N, 12 ≤ t.val → k0_off6 (grid0.coords t) = ![0, 1024 * (t.val - 12)] := by decide +kernel

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem idleAt0_10 : ∀ t : Fin cfg0.N, ¬cond0_6 (grid0.coords t) → cfg0.idle 10 (grid0.coords t) = true := by decide +kernel
theorem noFlush0_10 : ∀ t : Fin cfg0.N, ¬cond0_6 (grid0.coords t) → (cfg0.win 10).flush t = false := by decide +kernel
theorem liveAt0_10 : ∀ t : Fin cfg0.N, cond0_6 (grid0.coords t) → cfg0.idle 10 (grid0.coords t) = false := by decide +kernel

abbrev ms0_0 (t : Fin cfg0.N) : Memref sig .tc .vmem S4096x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S10x192 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S10 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S10x1024 .f32 := win0_10.stage (cfg0.slots t 10)
abbrev hs0_10 (t : Fin cfg0.N) : (ms0_10 t).IsWhole := hstage0_10 ((cfg0.slots t 10).cast nbuf0_10)
abbrev scM12 : Memref sig .tc .vmem S4096x4096 .bf16 := Memref.whole cc0_scratch0
abbrev scM13 : Memref sig .tc .vmem S64x4096 .bf16 := Memref.whole cc0_scratch1
abbrev scM14 : Memref sig .tc .vmem S64x4096 .bf16 := Memref.whole cc0_scratch2
abbrev scM15 : Memref sig .tc .vmem S64x4096 .f32 := Memref.whole cc0_scratch3
abbrev scM16 : Memref sig .tc .vmem S64x4096 .f32 := Memref.whole cc0_scratch4

theorem bodyAt0_eq (t : Fin cfg0.N) : bodyAt0 (F := F) t = cc0__gcn_kernel (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM12 (Memref.isWhole_whole _) scM13 (Memref.isWhole_whole _) scM14 (Memref.isWhole_whole _) scM15 (Memref.isWhole_whole _) scM16 (Memref.isWhole_whole _) := rfl

theorem PhiA0_eq (c : Dev nD) :
    (Pipeline.ΦA spec0 c : sProp 𝕄)
      = iprop(iprop((∃ d, owns (c : Thread nD τ) scM12 fullShare d) ∗ (∃ d, owns (c : Thread nD τ) scM13 fullShare d) ∗ (∃ d, owns (c : Thread nD τ) scM14 fullShare d) ∗ (∃ d, owns (c : Thread nD τ) scM15 fullShare d) ∗ (∃ d, owns (c : Thread nD τ) scM16 fullShare d)) ∗ (∃ r, prngReg c r)) := by
  unfold Pipeline.ΦA; rw [scopedRest0_eq]; simp only [scM12, scM13, scM14, scM15, scM16, owns_whole]; try rfl

/-- The sixteen buffers the body works on. -/
structure Bufs where
  (a1 : Memref sig .tc .vmem S4096x512 .f32) (h1 : a1.IsWhole)
  (a2 : Memref sig .tc .vmem S4096x256 .f32) (h2 : a2.IsWhole)
  (a3 : Memref sig .tc .vmem S64x256 .f32) (h3 : a3.IsWhole)
  (a4 : Memref sig .tc .vmem S64x64 .f32) (h4 : a4.IsWhole)
  (a5 : Memref sig .tc .vmem S64x64 .f32) (h5 : a5.IsWhole)
  (a6 : Memref sig .tc .vmem S64 .f32) (h6 : a6.IsWhole)
  (a7 : Memref sig .tc .vmem S64 .f32) (h7 : a7.IsWhole)
  (a8 : Memref sig .tc .vmem S64 .f32) (h8 : a8.IsWhole)
  (a9 : Memref sig .tc .vmem S10x192 .f32) (h9 : a9.IsWhole)
  (a10 : Memref sig .tc .vmem S10 .f32) (h10 : a10.IsWhole)
  (a11 : Memref sig .tc .vmem S10x1024 .f32) (h11 : a11.IsWhole)
  (a12 : Memref sig .tc .vmem S4096x4096 .bf16) (h12 : a12.IsWhole)
  (a13 : Memref sig .tc .vmem S64x4096 .bf16) (h13 : a13.IsWhole)
  (a14 : Memref sig .tc .vmem S64x4096 .bf16) (h14 : a14.IsWhole)
  (a15 : Memref sig .tc .vmem S64x4096 .f32) (h15 : a15.IsWhole)
  (a16 : Memref sig .tc .vmem S64x4096 .f32) (h16 : a16.IsWhole)

/-- What the sixteen buffers hold. -/
structure Vals (F : FTy → Type) where
  (x1 : Vec F S4096x512 .f32) (x2 : Vec F S4096x256 .f32) (x3 : Vec F S64x256 .f32) (x4 x5 : Vec F S64x64 .f32)
  (x6 x7 x8 : Vec F S64 .f32) (x9 : Vec F S10x192 .f32) (x10 : Vec F S10 .f32) (x11 : Vec F S10x1024 .f32)
  (x12 : Vec F S4096x4096 .bf16) (x13 x14 : Vec F S64x4096 .bf16) (x15 x16 : Vec F S64x4096 .f32)

/-- The pieces a run writes into each of the six buffers it may store into. -/
structure Pieces (F : FTy → Type) where
  (L11 : List (View.Piece (Elt F) S10x1024 .f32)) (L12 : List (View.Piece (Elt F) S4096x4096 .bf16))
  (L13 L14 : List (View.Piece (Elt F) S64x4096 .bf16)) (L15 L16 : List (View.Piece (Elt F) S64x4096 .f32))

variable (c : Dev nD) (i : grid0.Coords) (b : Bufs) (x : Vals F)

def wholeAt {s : Shape} {e : EltTy} (a : Memref sig .tc .vmem s e) (f : a.view.ty.Contents (Elt F)) : sProp 𝕄 :=
  a.view.loc (c : Thread nD τ) ↦[a.view.set]{fullShare} f

def Ins : sProp 𝕄 :=
  iprop(wholeAt c b.a1 (b.h1.unread x.x1) ∗ wholeAt c b.a2 (b.h2.unread x.x2) ∗ wholeAt c b.a3 (b.h3.unread x.x3) ∗ wholeAt c b.a4 (b.h4.unread x.x4) ∗ wholeAt c b.a5 (b.h5.unread x.x5) ∗ wholeAt c b.a6 (b.h6.unread x.x6) ∗ wholeAt c b.a7 (b.h7.unread x.x7) ∗ wholeAt c b.a8 (b.h8.unread x.x8) ∗ wholeAt c b.a9 (b.h9.unread x.x9) ∗ wholeAt c b.a10 (b.h10.unread x.x10))

/-- From every buffer at its contents the body runs to the inputs unchanged and each other buffer with its pieces written over what it held. -/
def Runs (L : Pieces F) : Prop := ∀ (E : Set ℕ) (K : PUnit → sProp 𝕄),
  iprop(Ins c b x ∗ wholeAt c b.a11 (b.h11.unread x.x11) ∗ wholeAt c b.a12 (b.h12.unread x.x12) ∗ wholeAt c b.a13 (b.h13.unread x.x13) ∗ wholeAt c b.a14 (b.h14.unread x.x14) ∗ wholeAt c b.a15 (b.h15.unread x.x15) ∗ wholeAt c b.a16 (b.h16.unread x.x16)
      ∗ (iprop(Ins c b x ∗ wholeAt c b.a11 (b.a11.view.writes (Elt F) (b.h11.unread x.x11) L.L11) ∗ wholeAt c b.a12 (b.a12.view.writes (Elt F) (b.h12.unread x.x12) L.L12) ∗ wholeAt c b.a13 (b.a13.view.writes (Elt F) (b.h13.unread x.x13) L.L13) ∗ wholeAt c b.a14 (b.a14.view.writes (Elt F) (b.h14.unread x.x14) L.L14) ∗ wholeAt c b.a15 (b.a15.view.writes (Elt F) (b.h15.unread x.x15) L.L15) ∗ wholeAt c b.a16 (b.a16.view.writes (Elt F) (b.h16.unread x.x16) L.L16)) -∗ K ⟨⟩))
    ⊢ wp frame (wpE (defs₀ (F := F)) Variants.none c none) E (cc0__gcn_kernel i b.a1 b.h1 b.a2 b.h2 b.a3 b.h3 b.a4 b.h4 b.a5 b.h5 b.a6 b.h6 b.a7 b.h7 b.a8 b.h8 b.a9 b.h9 b.a10 b.h10 b.a11 b.h11 b.a12 b.h12 b.a13 b.h13 b.a14 b.h14 b.a15 b.h15 b.a16 b.h16) K

/-- The buffers the body is given at point `t`. -/
abbrev bufs (t : Fin cfg0.N) : Bufs :=
  ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, scM12, Memref.isWhole_whole _, scM13, Memref.isWhole_whole _, scM14, Memref.isWhole_whole _, scM15, Memref.isWhole_whole _, scM16, Memref.isWhole_whole _⟩

end Cert.KernelIdeal.Hand

end
-- ==== Proof.KSpec.lean ====
import proofs.«113402_g36472862278100_cont_sun_c4_736_16_alg».proof.Proof.Gen.KernelIdeal.Frame
import proofs.«113402_g36472862278100_cont_sun_c4_736_16_alg».proof.Proof.Gen.KernelIdeal.Skeleton
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]

variable (m : (ℓ : Loc nD τ sig) → Buf (Elt F) ℓ)

def pt (n : ℕ) (h : n < 16) : Fin cfg0.N := ⟨n, lt_of_lt_of_eq h (show cfg0.N = 16 from N_0).symm⟩

@[simp] theorem pt_val (n : ℕ) (h : n < 16) : (pt n h).val = n := rfl

theorem pt_eq (t : Fin cfg0.N) (h : t.val < 16) : pt t.val h = t := Fin.ext rfl

theorem lt16 (t : Fin cfg0.N) : t.val < 16 := lt_of_lt_of_eq t.isLt (show cfg0.N = 16 from N_0)

/-- Column block `k mod 4` (1024 columns) of a 4096-column array. -/
def cols4096 {e : EltTy} (X : Vec F S4096x4096 e) (k : ℕ) : Vec F S4096x1024 e :=
  fun j => X (ix2 (j 0) ⟨1024 * (k % 4) + (j 1).val, by have := idx2_lt1 j; omega⟩)

def cols64 {e : EltTy} (X : Vec F S64x4096 e) (k : ℕ) : Vec F S64x1024 e :=
  fun j => X (ix2 (j 0) ⟨1024 * (k % 4) + (j 1).val, by have := idx2_lt1 j; omega⟩)

/-- The first layer's projected features (X·W1)ᵀ, computed once at point 0. -/
def b1t (c : Dev nD) : Vec F S64x4096 .bf16 :=
  k0_pay1 (iblk m c 2 (pt 0 (by decide))) (iblk m c 1 (pt 0 (by decide)))

/-- The adjacency's column block at point `t`, rounded. -/
def ablk (c : Dev nD) (t : Fin cfg0.N) : Vec F S4096x512 .bf16 :=
  k0_pay3 (iblk m c 0 t)

/-- The first layer on the nodes of point `t`'s block: aggregate over all nodes, add the bias, take the positive part. -/
def x1blk (c : Dev nD) (t : Fin cfg0.N) : Vec F S64x512 .f32 :=
  k0_pay4 (iblk m c 0 t) (b1t m c) (iblk m c 5 t)

/-- The whole rounded adjacency, laid out from its eight column blocks. -/
def abig (c : Dev nD) : Vec F S4096x4096 .bf16 :=
  fun i => ablk m c (pt ((i 1).val / 512) (by have := idx2_lt1 i; omega))
    (ix2 (i 0) ⟨(i 1).val % 512, Nat.mod_lt _ (by decide)⟩)

/-- The whole first layer (features × nodes), from its eight column blocks. -/
def x1t (c : Dev nD) : Vec F S64x4096 .f32 :=
  fun i => x1blk m c (pt ((i 1).val / 512) (by have := idx2_lt1 i; omega))
    (ix2 (i 0) ⟨(i 1).val % 512, Nat.mod_lt _ (by decide)⟩)

def b2t (c : Dev nD) : Vec F S64x4096 .bf16 :=
  k0_pay5 (iblk m c 3 (pt 7 (by decide))) (x1t m c)

def x2blk (c : Dev nD) (t : Fin cfg0.N) : Vec F S64x1024 .f32 :=
  k0_pay6 (b2t m c) (cols4096 (abig m c) (t.val - 8)) (iblk m c 6 t)

/-- The whole second layer, from the four column blocks of points 8..11. -/
def x2t (c : Dev nD) : Vec F S64x4096 .f32 :=
  fun i => x2blk m c (pt (8 + (i 1).val / 1024) (by have := idx2_lt1 i; omega))
    (ix2 (i 0) ⟨(i 1).val % 1024, Nat.mod_lt _ (by decide)⟩)

def b3t (c : Dev nD) : Vec F S64x4096 .bf16 :=
  k0_pay7 (iblk m c 4 (pt 11 (by decide))) (x2t m c)

/-- The log-softmax of the head on the 1024 nodes of point `t` (points 12..15). -/
def outblk (c : Dev nD) (t : Fin cfg0.N) : Vec F S10x1024 .f32 :=
  k0_pay8 (b3t m c) (cols4096 (abig m c) (t.val - 12)) (iblk m c 7 t)
    (cols64 (x1t m c) (t.val - 12)) (cols64 (x2t m c) (t.val - 12)) (iblk m c 8 t) (iblk m c 9 t)

/-- What each carried array holds before point `n`, over contents `d` it held before point 0: columns already written carry the layer's values, the rest `d`. -/
def S12 (c : Dev nD) (n : ℕ) (d : Vec F S4096x4096 .bf16) : Vec F S4096x4096 .bf16 :=
  fun i => if (i 1).val < 512 * min n 8 then abig m c i else d i

def S13 (c : Dev nD) (n : ℕ) (d : Vec F S64x4096 .bf16) : Vec F S64x4096 .bf16 :=
  if n = 0 then d else if n ≤ 11 then b1t m c else b3t m c

def S14 (c : Dev nD) (n : ℕ) (d : Vec F S64x4096 .bf16) : Vec F S64x4096 .bf16 :=
  if n ≤ 7 then d else b2t m c

def S15 (c : Dev nD) (n : ℕ) (d : Vec F S64x4096 .f32) : Vec F S64x4096 .f32 :=
  fun i => if (i 1).val < 512 * min n 8 then x1t m c i else d i

def S16 (c : Dev nD) (n : ℕ) (d : Vec F S64x4096 .f32) : Vec F S64x4096 .f32 :=
  fun i => if (i 1).val < 1024 * (min n 12 - 8) then x2t m c i else d i

end Cert.KernelIdeal.Hand

end
-- ==== Proof.KPure.lean ====
import proofs.«113402_g36472862278100_cont_sun_c4_736_16_alg».proof.Proof.KSpec
import Idealize.ShloMosaic.Lib.WritesUnit
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]

def setCols {R C W : ℕ} {e : EltTy} (X : Vec F (⟨2, ![R, C]⟩ : Shape) e) (o : ℕ) (B : Vec F (⟨2, ![R, W]⟩ : Shape) e) :
    Vec F (⟨2, ![R, C]⟩ : Shape) e :=
  fun y => if h : o ≤ (y 1).val ∧ (y 1).val < o + W then B (ix2 (y 0) ⟨(y 1).val - o, by omega⟩) else X y

theorem read_writes_setCols {R C W : ℕ} {e : EltTy} {M : Memref sig .tc .vmem (⟨2, ![R, C]⟩ : Shape) e} (hM : M.IsWhole)
    (X : Vec F (⟨2, ![R, C]⟩ : Shape) e) {off : Fin 2 → ℕ}
    (inb : ∀ a, off a + (![R, W] : Fin 2 → ℕ) a ≤ (⟨2, ![R, C]⟩ : Shape).size a)
    (B : Vec F (⟨2, ![R, W]⟩ : Shape) e) (o : ℕ) (heq : off = ![0, o]) :
    M.view.read (Elt F) (M.view.writes (Elt F) (hM.unread X)
      [(⟨Rect.unit (s := (⟨2, ![R, C]⟩ : Shape)) off ![R, W] inb, B⟩ : View.Piece (Elt F) (⟨2, ![R, C]⟩ : Shape) e)])
      = setCols X o B := by
  funext y
  unfold setCols
  by_cases h : o ≤ (y 1).val ∧ (y 1).val < o + W
  · rw [dif_pos h]
    exact View.read_writes_cons_unit_of_mem M.view _ inb B [] y (ix2 (y 0) ⟨(y 1).val - o, by omega⟩) heq
      (Fin.forall_fin_two.mpr ⟨(Nat.zero_add _).symm, by show (y 1).val = o + ((y 1).val - o); omega⟩)
  · rw [dif_neg h]
    rw [View.read_writes_cons_unit_of_not_mem M.view _ inb B [] y heq 1
      (by show (y 1).val < o ∨ o + W ≤ (y 1).val; omega), View.writes_nil, hM.read_unread]

/-- Reading the k-th block of 1024 columns out of a whole 4096-column array. -/
theorem readAt_colsOf {R : ℕ} {e : EltTy} {M : Memref sig .tc .vmem (⟨2, ![R, 4096]⟩ : Shape) e} (hM : M.IsWhole)
    (X : Vec F (⟨2, ![R, 4096]⟩ : Shape) e) {off : Fin 2 → ℕ}
    (inb : ∀ a, off a + (![R, 1024] : Fin 2 → ℕ) a ≤ (⟨2, ![R, 4096]⟩ : Shape).size a) (k : ℕ)
    (heq : off = ![0, 1024 * (k % 4)]) :
    M.view.readAt (Elt F) (Rect.unit (s := (⟨2, ![R, 4096]⟩ : Shape)) off ![R, 1024] inb).toLoadRect (hM.unread X)
      = fun j : (⟨2, ![R, 1024]⟩ : Shape).Idx =>
          X (ix2 (j 0) ⟨1024 * (k % 4) + (j 1).val, by have := idx2_lt1 j; omega⟩) := by
  subst heq
  funext x
  rw [View.readAt_apply, hM.read_unread]
  refine congrArg X (funext fun a => Fin.ext ?_)
  revert a
  exact Fin.forall_fin_two.mpr ⟨by show 0 + 1 * (x 0).val = (x 0).val; omega,
    by show 1024 * (k % 4) + 1 * (x 1).val = 1024 * (k % 4) + (x 1).val; omega⟩

theorem readAt_cols4096 {e : EltTy} {M : Memref sig .tc .vmem S4096x4096 e} (hM : M.IsWhole) (X : Vec F S4096x4096 e)
    {off : Fin 2 → ℕ} (inb : ∀ a, off a + S4096x1024.size a ≤ S4096x4096.size a) (k : ℕ)
    (heq : off = ![0, 1024 * (k % 4)]) :
    M.view.readAt (Elt F) (Rect.unit (s := S4096x4096) off S4096x1024.size inb).toLoadRect (hM.unread X)
      = cols4096 X k :=
  readAt_colsOf hM X inb k heq

theorem readAt_cols64 {e : EltTy} {M : Memref sig .tc .vmem S64x4096 e} (hM : M.IsWhole) (X : Vec F S64x4096 e)
    {off : Fin 2 → ℕ} (inb : ∀ a, off a + S64x1024.size a ≤ S64x4096.size a) (k : ℕ)
    (heq : off = ![0, 1024 * (k % 4)]) :
    M.view.readAt (Elt F) (Rect.unit (s := S64x4096) off S64x1024.size inb).toLoadRect (hM.unread X)
      = cols64 X k :=
  readAt_colsOf hM X inb k heq

theorem readAt_whole {s : Shape} {e : EltTy} {M : Memref sig .tc .vmem s e} (hM : M.IsWhole) (X : Vec F s e)
    (inb : ∀ a, (fun _ => 0 : Fin s.rank → ℕ) a + s.size a ≤ s.size a) :
    M.view.readAt (Elt F) (Rect.unit (s := s) (fun _ => 0) s.size inb).toLoadRect (hM.unread X) = X := by
  funext x
  rw [View.readAt_apply, hM.read_unread]
  refine congrArg X (funext fun a => Fin.ext ?_)
  show 0 + 1 * (x a).val = (x a).val
  omega

variable (m : (ℓ : Loc nD τ sig) → Buf (Elt F) ℓ)

/-- An array laid out from column blocks reads, at block tt and column j of it, that block's entry. -/
theorem blk_apply_of {α : Type} {W : ℕ} (f : Fin cfg0.N → Fin W → α) {n r : ℕ} (hn : n < 16) (hr : r < W)
    (tt : Fin cfg0.N) (j : Fin W) (h1 : n = tt.val) (h2 : r = j.val) : f (pt n hn) ⟨r, hr⟩ = f tt j := by
  subst h1 h2; rfl

theorem abig_apply_of (c : Dev nD) (y : S4096x4096.Idx) (tt : Fin cfg0.N) (j : Fin 512)
    (h1 : (y 1).val = 512 * tt.val + j.val) : abig m c y = ablk m c tt (ix2 (y 0) j) := by
  have hy := idx2_lt1 y
  exact blk_apply_of (fun t j => ablk m c t (ix2 (y 0) j)) _ _ tt j (by omega) (by omega)

theorem x1t_apply_of (c : Dev nD) (y : S64x4096.Idx) (tt : Fin cfg0.N) (j : Fin 512)
    (h1 : (y 1).val = 512 * tt.val + j.val) : x1t m c y = x1blk m c tt (ix2 (y 0) j) := by
  have hy := idx2_lt1 y
  exact blk_apply_of (fun t j => x1blk m c t (ix2 (y 0) j)) _ _ tt j (by omega) (by omega)

theorem x2t_apply_of (c : Dev nD) (y : S64x4096.Idx) (tt : Fin cfg0.N) (j : Fin 1024) (h8 : 8 ≤ tt.val)
    (h1 : (y 1).val = 1024 * (tt.val - 8) + j.val) : x2t m c y = x2blk m c tt (ix2 (y 0) j) := by
  have hy := idx2_lt1 y
  exact blk_apply_of (fun t j => x2blk m c t (ix2 (y 0) j)) _ _ tt j (by omega) (by omega)

/-- Writing the next column block B after a prefix of A's columns extends the prefix by B's width. -/
theorem setCols_prefix {R C W : ℕ} {e : EltTy} (A D : Vec F (⟨2, ![R, C]⟩ : Shape) e) (p o p' : ℕ) (hp : p = o)
    (hp' : p' = o + W) (B : Vec F (⟨2, ![R, W]⟩ : Shape) e)
    (hB : ∀ (y : (⟨2, ![R, C]⟩ : Shape).Idx) (j : Fin W), (y 1).val = o + j.val → A y = B (ix2 (y 0) j)) :
    setCols (fun i => if (i 1).val < p then A i else D i) o B = fun i => if (i 1).val < p' then A i else D i := by
  subst hp hp'
  funext y
  unfold setCols
  by_cases h : p ≤ (y 1).val ∧ (y 1).val < p + W
  · rw [dif_pos h, if_pos h.2]
    exact (hB y ⟨(y 1).val - p, by omega⟩ (by show (y 1).val = p + ((y 1).val - p); omega)).symm
  · rw [dif_neg h]
    show (if (y 1).val < p then A y else D y) = _
    by_cases h2 : (y 1).val < p
    · rw [if_pos h2, if_pos (by omega)]
    · rw [if_neg h2, if_neg (by omega)]

theorem S12_step (c : Dev nD) (tt : Fin cfg0.N) (ht : tt.val < 8) (d : Vec F S4096x4096 .bf16) :
    setCols (S12 m c tt.val d) (512 * tt.val) (ablk m c tt) = S12 m c (tt.val + 1) d :=
  setCols_prefix (abig m c) d _ _ _ (by omega) (by omega) _ fun y j => abig_apply_of m c y tt j

theorem S15_step (c : Dev nD) (tt : Fin cfg0.N) (ht : tt.val < 8) (d : Vec F S64x4096 .f32) :
    setCols (S15 m c tt.val d) (512 * tt.val) (x1blk m c tt) = S15 m c (tt.val + 1) d :=
  setCols_prefix (x1t m c) d _ _ _ (by omega) (by omega) _ fun y j => x1t_apply_of m c y tt j

theorem S16_step (c : Dev nD) (tt : Fin cfg0.N) (h8 : 8 ≤ tt.val) (ht : tt.val < 12) (d : Vec F S64x4096 .f32) :
    setCols (S16 m c tt.val d) (1024 * (tt.val - 8)) (x2blk m c tt) = S16 m c (tt.val + 1) d :=
  setCols_prefix (x2t m c) d _ _ _ (by omega) (by omega) _ fun y j => x2t_apply_of m c y tt j h8

theorem S12_full (c : Dev nD) (n : ℕ) (hn : 8 ≤ n) (d : Vec F S4096x4096 .bf16) : S12 m c n d = abig m c :=
  funext fun y => if_pos (by have := idx2_lt1 y; omega)

theorem S15_full (c : Dev nD) (n : ℕ) (hn : 8 ≤ n) (d : Vec F S64x4096 .f32) : S15 m c n d = x1t m c :=
  funext fun y => if_pos (by have := idx2_lt1 y; omega)

theorem S16_full (c : Dev nD) (n : ℕ) (hn : 12 ≤ n) (d : Vec F S64x4096 .f32) : S16 m c n d = x2t m c :=
  funext fun y => if_pos (by have := idx2_lt1 y; omega)

theorem S16_none (c : Dev nD) (n : ℕ) (hn : n ≤ 8) (d : Vec F S64x4096 .f32) : S16 m c n d = d :=
  funext fun y => if_neg (by omega)

theorem S13_zero (c : Dev nD) (d : Vec F S64x4096 .bf16) : S13 m c 0 d = d := if_pos rfl
theorem S13_mid (c : Dev nD) (n : ℕ) (h1 : 1 ≤ n) (h2 : n ≤ 11) (d : Vec F S64x4096 .bf16) : S13 m c n d = b1t m c :=
  (if_neg (by omega)).trans (if_pos h2)
theorem S13_late (c : Dev nD) (n : ℕ) (h : 12 ≤ n) (d : Vec F S64x4096 .bf16) : S13 m c n d = b3t m c :=
  (if_neg (by omega)).trans (if_neg (by omega))
theorem S14_early (c : Dev nD) (n : ℕ) (h : n ≤ 7) (d : Vec F S64x4096 .bf16) : S14 m c n d = d := if_pos h
theorem S14_late (c : Dev nD) (n : ℕ) (h : 8 ≤ n) (d : Vec F S64x4096 .bf16) : S14 m c n d = b2t m c :=
  if_neg (by omega)

end Cert.KernelIdeal.Hand

end
-- ==== Proof.KDat.lean ====
import proofs.«113402_g36472862278100_cont_sun_c4_736_16_alg».proof.Proof.KShared
import proofs.«113402_g36472862278100_cont_sun_c4_736_16_alg».proof.Proof.KPure
import Idealize.ShloMosaic.Lib.Pipeline.FrameBody

set_option maxRecDepth 16384
set_option synthInstance.maxSize 4096

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The invariant before point `n`: the five carried arrays at `S12 … S16` over some initial contents. -/
def PhiS (c : Dev nD) (n : ℕ) : sProp 𝕄 :=
  iprop(∃ d12, ∃ d13, ∃ d14, ∃ d15, ∃ d16,
    iprop(owns (c : Thread nD τ) scM12 fullShare (S12 m c n d12) ∗ owns (c : Thread nD τ) scM13 fullShare (S13 m c n d13)
      ∗ owns (c : Thread nD τ) scM14 fullShare (S14 m c n d14) ∗ owns (c : Thread nD τ) scM15 fullShare (S15 m c n d15)
      ∗ owns (c : Thread nD τ) scM16 fullShare (S16 m c n d16)) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outblk m c t
  Φ t := PhiS m c t.val
  q _ := fullShare
  owed _ := 0

theorem A_eq (c : Dev nD) (w : Fin cfg0.W) : (dats m 0 c).A w = V m c (Pipeline.arrRef spec0 w) := rfl

theorem Phi_castSucc (c : Dev nD) (t : Fin cfg0.N) : (dats m 0 c).Φ t.castSucc = PhiS m c t.val := by
  dsimp only [dats]; simp only [Fin.coe_castSucc]

theorem Phi_succ (c : Dev nD) (t : Fin cfg0.N) : (dats m 0 c).Φ t.succ = PhiS m c (t.val + 1) := by
  dsimp only [dats]; simp only [Fin.val_succ]

theorem after0_0 (c : Dev nD) (t : Fin cfg0.N) : (dats m 0 c).after 0 t = iblk m c 0 t := rfl
theorem after0_1 (c : Dev nD) (t : Fin cfg0.N) : (dats m 0 c).after 1 t = iblk m c 1 t := rfl
theorem after0_2 (c : Dev nD) (t : Fin cfg0.N) : (dats m 0 c).after 2 t = iblk m c 2 t := rfl
theorem after0_3 (c : Dev nD) (t : Fin cfg0.N) : (dats m 0 c).after 3 t = iblk m c 3 t := rfl
theorem after0_4 (c : Dev nD) (t : Fin cfg0.N) : (dats m 0 c).after 4 t = iblk m c 4 t := rfl
theorem after0_5 (c : Dev nD) (t : Fin cfg0.N) : (dats m 0 c).after 5 t = iblk m c 5 t := rfl
theorem after0_6 (c : Dev nD) (t : Fin cfg0.N) : (dats m 0 c).after 6 t = iblk m c 6 t := rfl
theorem after0_7 (c : Dev nD) (t : Fin cfg0.N) : (dats m 0 c).after 7 t = iblk m c 7 t := rfl
theorem after0_8 (c : Dev nD) (t : Fin cfg0.N) : (dats m 0 c).after 8 t = iblk m c 8 t := rfl
theorem after0_9 (c : Dev nD) (t : Fin cfg0.N) : (dats m 0 c).after 9 t = iblk m c 9 t := rfl
theorem after0_10 (c : Dev nD) (t : Fin cfg0.N) : (dats m 0 c).after 10 t = outblk m c t := rfl

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem S12_zero (c : Dev nD) (d : Vec F S4096x4096 .bf16) : S12 m c 0 d = d :=
  funext fun y => if_neg (by omega)
theorem S15_zero (c : Dev nD) (d : Vec F S64x4096 .f32) : S15 m c 0 d = d :=
  funext fun y => if_neg (by omega)

theorem hin (c : Dev nD) : Pipeline.ΦA spec0 c ⊢ (dats m 0 c).Φ 0 := by
  rw [show (dats m 0 c).Φ 0 = PhiS m c 0 from rfl, PhiA0_eq]
  unfold PhiS
  iintro ⟨⟨⟨%d12, H12⟩, ⟨%d13, H13⟩, ⟨%d14, H14⟩, ⟨%d15, H15⟩, ⟨%d16, H16⟩⟩, Hg⟩
  iexists d12; iexists d13; iexists d14; iexists d15; iexists d16
  rw [S12_zero, S13_zero, S14_early m c 0 (by omega), S15_zero, S16_none m c 0 (by omega)]
  iframe

theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨%d12, %d13, %d14, %d15, %d16, ⟨H12, H13, H14, H15, H16⟩, Hg⟩
  isplitl [H12 H13 H14 H15 H16]
  · isplitl [H12]; · iexists _; iexact H12
    isplitl [H13]; · iexists _; iexact H13
    isplitl [H14]; · iexists _; iexact H14
    isplitl [H15]; · iexists _; iexact H15
    iexists _; iexact H16
  iexact Hg

/-- The 10 × 4096 result: column block `k` is what point `12 + k` writes. -/
def finalArr (c : Dev nD) : Vec F S10x4096 .f32 :=
  fun i => outblk m c (pt (12 + (i 1).val / 1024) (by have := idx2_lt1 i; omega))
    (ix2 (i 0) ⟨(i 1).val % 1024, Nat.mod_lt _ (by decide)⟩)

def kerOut (c : Dev nD) : Vec F S4096x10 .f32 :=
  transpose S4096x10 [1, 0] (finalArr m c) transposes_S10x4096_S4096x10_1_0

end Cert.KernelIdeal.Hand

end
-- ==== Proof.KTail.lean ====
import proofs.«113402_g36472862278100_cont_sun_c4_736_16_alg».proof.Proof.KDat
import Idealize.ShloMosaic.Lib.Pipeline.Value
import Idealize.ShloMosaic.Lib.Pipeline.FrameSuffix
import Idealize.ShloMosaic.Lib.Tactic

set_option maxRecDepth 16384
set_option synthInstance.maxSize 4096

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem idx10 : ∀ t : Fin cfg0.N, win0_10.index t (0 : Fin 2) = 0 ∧ win0_10.index t (1 : Fin 2) = t.val - 12 :=
  (by decide +kernel : ∀ t : Fin grid0.N, win0_10.index t (0 : Fin 2) = 0 ∧ win0_10.index t (1 : Fin 2) = t.val - 12)

theorem flush10 : ∀ t : Fin cfg0.N, (cfg0.win 10).flush t = true ↔ 12 ≤ t.val :=
  (by decide +kernel : ∀ t : Fin grid0.N, win0_10.flush t = true ↔ 12 ≤ t.val)

theorem finalArr_apply_of (c : Dev nD) (i : S10x4096.Idx) (tt : Fin cfg0.N) (j : S10x1024.Idx) (h12 : 12 ≤ tt.val)
    (h0 : (i 0).val = (j 0).val) (h1 : (i 1).val = 1024 * (tt.val - 12) + (j 1).val) :
    finalArr m c i = outblk m c tt j := by
  have hi := idx2_lt1 i
  have hj := idx2_lt1 j
  rw [eq_ix2 j, ← (Fin.ext h0 : i 0 = j 0)]
  exact blk_apply_of (fun t jj => outblk m c t (ix2 (i 0) jj)) _ _ tt (j 1) (by omega) (by omega)

theorem flushed10_eq (c : Dev nD) (t : Fin cfg0.N) (hf : (cfg0.win 10).flush t = true) :
    (dats m 0 c).flushed 10 t = ((cfg0.win 10).blk t).view.read (Elt F) (finalArr m c) := by
  show (cfg0.win 10).cut (grid0.coords t) ((dats m 0 c).after 10 t) = _
  rw [after0_10]
  have h12 := (flush10 t).mp hf
  obtain ⟨e0, e1⟩ := idx10 t
  funext j
  show outblk m c t j = finalArr m c (((cfg0.win 10).blk t).view.emb j)
  refine (finalArr_apply_of m c _ t j h12 ?_ ?_).symm
  · show win0_10.index t (0 : Fin 2) * 10 + 1 * (j 0).val = (j 0).val
    rw [e0]; omega
  · show win0_10.index t (1 : Fin 2) * 1024 + 1 * (j 1).val = 1024 * (t.val - 12) + (j 1).val
    rw [e1]; omega

theorem mem_blk10 (t : Fin cfg0.N) (i : S10x4096.Idx) :
    i ∈ ((cfg0.win 10).blk t).view.set ↔ ∀ a : Fin 2, win0_10.index t a * S10x1024.size a ≤ (i a).val ∧ (i a).val < win0_10.index t a * S10x1024.size a + S10x1024.size a := by
  show i ∈ ((View.whole main_v2).slice (win0_10.rect t)).set ↔ _
  rw [View.set_slice_whole, Rect.mem_set_unit]
  exact Iff.rfl

theorem final_out (c : Dev nD) : (dats m 0 c).arrAt 10 cfg0.N = finalArr m c :=
  (dats m 0 c).arrAt_eq_of_cover 10 (finalArr m c) (flushed10_eq m c) fun i => by
    have hi0 := idx2_lt0 i
    have hi1 := idx2_lt1 i
    refine ⟨pt (12 + (i 1).val / 1024) (by omega), (flush10 _).mpr (by show 12 ≤ 12 + (i 1).val / 1024; omega), ?_⟩
    rw [mem_blk10]
    obtain ⟨e0, e1⟩ := idx10 (pt (12 + (i 1).val / 1024) (by omega))
    intro a
    match a with
    | ⟨0, _⟩ =>
      show win0_10.index _ (0 : Fin 2) * 10 ≤ (i 0).val ∧ (i 0).val < win0_10.index _ (0 : Fin 2) * 10 + 10
      rw [e0]; omega
    | ⟨1, _⟩ =>
      show win0_10.index _ (1 : Fin 2) * 1024 ≤ (i 1).val ∧ (i 1).val < win0_10.index _ (1 : Fin 2) * 1024 + 1024
      rw [e1]; show (12 + (i 1).val / 1024 - 12) * 1024 ≤ (i 1).val ∧ (i 1).val < (12 + (i 1).val / 1024 - 12) * 1024 + 1024
      omega

theorem tail_v3 (c : Dev nD) :
    Pipeline.afterTail₀ cfgs (dats m) 0 (V0 m) [hostOps1] c main_v3 = kerOut m c := by
  unfold Pipeline.afterTail₀
  show StableHlo.after hostOps1 _ (Proc.devRef .tc main_v3) = _
  after_results
  unfold kerOut
  exact congrArg (fun X => transpose S4096x10 [1, 0] X transposes_S10x4096_S4096x10_1_0)
    ((Pipeline.withArrays_arr spec0 launch0.win.arr_inj c _ _ 10).trans (final_out m c))

end Cert.KernelIdeal.Hand

end
-- ==== Proof.KRunD.lean ====
import proofs.«113402_g36472862278100_cont_sun_c4_736_16_alg».proof.Proof.KShared

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

local notation "𝕄" => MT nD τ sig Unit (Elt F) ℕ (UR sig nD τ) ℕ

variable (c : Dev nD) (i : grid0.Coords) (b : Bufs) (x : Vals F) (hc1 : ¬cond0_1 i) (hc2 : ¬cond0_2 i) (hc3 : ¬cond0_3 i) (hc4 : cond0_4 i) (hc5 : ¬cond0_5 i) (hc6 : ¬cond0_6 i)
include hc1 hc2 hc3 hc4 hc5 hc6

set_option maxHeartbeats 1000000 in
/-- The body's run where only the fourth condition holds; its pieces are whatever the run writes. -/
def kernelRun0_D : { L : Pieces F // Runs c i b x L } := by
  refine ⟨⟨[], [], [], [], [], ?_⟩, fun E K => ?run⟩
  case run =>
    letI : ClosedOff (k0_off3 i) := ⟨![0, 1024 * ((i 0).val - 8)], k0_off3_eq i hc4⟩
    letI : ClosedOff (k0_off4 i) := ⟨![0, 1024 * ((i 0).val - 8)], k0_off4_eq i hc4⟩
    simp only [cc0__gcn_kernel_eq_skeleton, View.writes_nil]; unfold cc0__gcn_kernel_skel Ins wholeAt
    iintro ⟨⟨H1, H2, H3, H4, H5, H6, H7, H8, H9, H10⟩, H11, H12, H13, H14, H15, H16, Hk⟩
    sl_exec (disch := first | exact hc1 | exact hc2 | exact hc3 | exact hc4 | exact hc5 | exact hc6)
    sl_step
    iapply Hk
    iframe

theorem kernelRun0_D_pieces : (kernelRun0_D (F := F) c i b x hc1 hc2 hc3 hc4 hc5 hc6).1
    = ⟨[], [], [], [], [],
      [⟨Rect.unit (s := S64x4096) (k0_off4 i) S64x1024.size (k0_off4_inb i hc4), k0_pay6 (View.readAt (Elt F) b.a14.view (Rect.unit (s := S64x4096) ![0, 0] S64x4096.size inb_S64x4096_S64x4096_0_0).toLoadRect (b.h14.unread x.x14)) (View.readAt (Elt F) b.a12.view (Rect.unit (s := S4096x4096) (k0_off3 i) S4096x1024.size (k0_off3_inb i hc4)).toLoadRect (b.h12.unread x.x12)) (View.readAt (Elt F) b.a7.view (Rect.unit (s := S64) ![0] S64.size inb_S64_S64_0).toLoadRect (b.h7.unread x.x7))⟩]⟩ := rfl

end Cert.KernelIdeal.Hand

end
-- ==== Proof.KRunSpec.lean ====
import proofs.«113402_g36472862278100_cont_sun_c4_736_16_alg».proof.Proof.KShared
import proofs.«113402_g36472862278100_cont_sun_c4_736_16_alg».proof.Proof.KRunD
import proofs.«113402_g36472862278100_cont_sun_c4_736_16_alg».proof.Proof.KPure

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ)
variable (xi : Vec F S10x1024 .f32)
    (xs12 : Vec F S4096x4096 .bf16) (xs13 xs14 : Vec F S64x4096 .bf16) (xs15 xs16 : Vec F S64x4096 .f32)

/-- Loading a buffer's whole extent reads it. -/
theorem readAt_all_of {s : Shape} {e : EltTy} {M : Memref sig .tc .vmem s e} (f : M.view.ty.Contents (Elt F))
    {off : Fin s.rank → ℕ} (inb : ∀ a, off a + s.size a ≤ s.size a) (h0 : ∀ a, off a = 0) :
    M.view.readAt (Elt F) (Rect.unit (s := s) off s.size inb).toLoadRect f = M.view.read (Elt F) f := by
  funext x
  rw [View.readAt_apply]
  refine congrArg (M.view.read (Elt F) f) (funext fun a => Fin.ext ?_)
  show off a + 1 * (x a).val = (x a).val
  rw [h0 a]; omega

theorem readAt_all {s : Shape} {e : EltTy} {M : Memref sig .tc .vmem s e} (hM : M.IsWhole) (X : Vec F s e)
    {off : Fin s.rank → ℕ} (inb : ∀ a, off a + s.size a ≤ s.size a) (h0 : ∀ a, off a = 0) :
    M.view.readAt (Elt F) (Rect.unit (s := s) off s.size inb).toLoadRect (hM.unread X) = X :=
  (readAt_all_of _ inb h0).trans (hM.read_unread X)

/-- One store of a buffer's whole extent reads back as what was stored. -/
theorem read_writes_all {s : Shape} {e : EltTy} {κ : Kind} {sp : Space} (v : View sig κ sp s e) (f : v.ty.Contents (Elt F))
    {off : Fin s.rank → ℕ} (inb : ∀ a, off a + s.size a ≤ s.size a)
    (w : (Rect.unit (s := s) off s.size inb).shape.Idx → Elt F e) (h0 : ∀ a, off a = 0) :
    v.read (Elt F) (v.writes (Elt F) f [(⟨Rect.unit (s := s) off s.size inb, w⟩ : View.Piece (Elt F) s e)]) = w := by
  funext y
  exact View.read_writes_cons_unit_of_mem v f inb w [] y y rfl (fun a => by rw [h0 a, Nat.zero_add])

def insAt (c : Dev nD) (t : Fin cfg0.N) : sProp 𝕄 :=
  iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t))

def RunSpec (c : Dev nD) (t : Fin cfg0.N) (xi : Vec F S10x1024 .f32)
    (xs12 : Vec F S4096x4096 .bf16) (xs13 xs14 : Vec F S64x4096 .bf16) (xs15 xs16 : Vec F S64x4096 .f32)
    (o11 : Vec F S10x1024 .f32)
    (n12 : Vec F S4096x4096 .bf16) (n13 n14 : Vec F S64x4096 .bf16) (n15 n16 : Vec F S64x4096 .f32) : Prop :=
  ∀ K : PUnit → sProp 𝕄,
  iprop(insAt m c t ∗ owns (c : Thread nD τ) (ms0_10 t) fullShare xi
      ∗ owns (c : Thread nD τ) scM12 fullShare xs12 ∗ owns (c : Thread nD τ) scM13 fullShare xs13
      ∗ owns (c : Thread nD τ) scM14 fullShare xs14 ∗ owns (c : Thread nD τ) scM15 fullShare xs15
      ∗ owns (c : Thread nD τ) scM16 fullShare xs16
      ∗ (iprop(insAt m c t ∗ owns (c : Thread nD τ) (ms0_10 t) fullShare o11
          ∗ owns (c : Thread nD τ) scM12 fullShare n12 ∗ owns (c : Thread nD τ) scM13 fullShare n13
          ∗ owns (c : Thread nD τ) scM14 fullShare n14 ∗ owns (c : Thread nD τ) scM15 fullShare n15
          ∗ owns (c : Thread nD τ) scM16 fullShare n16) -∗ K ⟨⟩))
    ⊢ wp frame (wpE (defs₀ (F := F)) Variants.none c none) Set.univ (bodyAt0 t) K

section Spec

variable (c : Dev nD) {s : Shape} {e : EltTy} {M : Memref sig .tc .vmem s e} (h : M.IsWhole) (X : Vec F s e)

/-- What a buffer holding `X` reads once the pieces `L` are written. -/
def readBack (L : List (View.Piece (Elt F) s e)) : Vec F s e := M.view.read (Elt F) (M.view.writes (Elt F) (h.unread X) L)

theorem readBack_nil : readBack h X [] = X := h.read_unread X

/-- Owning a whole buffer at `X` is holding it at the raw contents that read `X`: each determines the other. -/
theorem owns_unread : (owns (c : Thread nD τ) M fullShare X : sProp 𝕄) = wholeAt c M (h.unread X) := by
  have h₁ : (owns (c : Thread nD τ) M fullShare X : sProp 𝕄) ⊢ wholeAt c M (h.unread X) := by
    unfold owns wholeAt; iintro ⟨%f, %hf, H⟩; obtain rfl := h.eq_unread hf; iexact H
  have h₂ : wholeAt c M (h.unread X) ⊢ (owns (c : Thread nD τ) M fullShare X : sProp 𝕄) := by
    unfold owns wholeAt; iintro H; iexists h.unread X; isplitr; · ipureintro; exact h.read_unread X
    iexact H
  exact BI.equiv_iff.mp ⟨h₁, h₂⟩

theorem owns_readBack (L : List (View.Piece (Elt F) s e)) :
    (owns (c : Thread nD τ) M fullShare (readBack h X L) : sProp 𝕄) = wholeAt c M (M.view.writes (Elt F) (h.unread X) L) := by
  rw [owns_unread c h, readBack, h.unread_read]

end Spec

abbrev vals (c : Dev nD) (t : Fin cfg0.N) : Vals F :=
  ⟨iblk m c 0 t, iblk m c 1 t, iblk m c 2 t, iblk m c 3 t, iblk m c 4 t, iblk m c 5 t, iblk m c 6 t, iblk m c 7 t, iblk m c 8 t, iblk m c 9 t, xi, xs12, xs13, xs14, xs15, xs16⟩

/-- A run on the point's own buffers, each result read back through its buffer, is the run the frame asks for. -/
theorem RunSpec.of_runs (c : Dev nD) (t : Fin cfg0.N) (L : Pieces F)
    (h : Runs c (grid0.coords t) (bufs t) (vals m xi xs12 xs13 xs14 xs15 xs16 c t) L)
    {o11 : Vec F S10x1024 .f32} {n12 : Vec F S4096x4096 .bf16} {n13 n14 : Vec F S64x4096 .bf16} {n15 n16 : Vec F S64x4096 .f32}
    (e11 : readBack (bufs t).h11 xi L.L11 = o11) (e12 : readBack (bufs t).h12 xs12 L.L12 = n12) (e13 : readBack (bufs t).h13 xs13 L.L13 = n13)
    (e14 : readBack (bufs t).h14 xs14 L.L14 = n14) (e15 : readBack (bufs t).h15 xs15 L.L15 = n15) (e16 : readBack (bufs t).h16 xs16 L.L16 = n16) :
    RunSpec m c t xi xs12 xs13 xs14 xs15 xs16 o11 n12 n13 n14 n15 n16 := by
  subst e11 e12 e13 e14 e15 e16
  intro K
  simp only [insAt, bodyAt0_eq, owns_readBack]
  simpa only [Ins, bufs, vals, owns_unread c (hs0_0 t), owns_unread c (hs0_1 t), owns_unread c (hs0_2 t), owns_unread c (hs0_3 t), owns_unread c (hs0_4 t), owns_unread c (hs0_5 t), owns_unread c (hs0_6 t), owns_unread c (hs0_7 t), owns_unread c (hs0_8 t), owns_unread c (hs0_9 t), owns_unread c (hs0_10 t), owns_unread c (M := scM12) (Memref.isWhole_whole _), owns_unread c (M := scM13) (Memref.isWhole_whole _), owns_unread c (M := scM14) (Memref.isWhole_whole _), owns_unread c (M := scM15) (Memref.isWhole_whole _), owns_unread c (M := scM16) (Memref.isWhole_whole _)] using h Set.univ K

/-- At points 8 to 10 the run rewrites the point's 1024 columns of buffer 16. -/
theorem runD_spec (c : Dev nD) (t : Fin cfg0.N) (h8 : 8 ≤ t.val) (h10 : t.val ≤ 10) :
    RunSpec m c t xi xs12 xs13 xs14 xs15 xs16 xi xs12 xs13 xs14 xs15
      (setCols xs16 (1024 * (t.val - 8)) (k0_pay6 xs14 (cols4096 xs12 (t.val - 8)) (iblk m c 6 t))) := by
  have hc4 : cond0_4 (grid0.coords t) := by rw [hcond0_4]; omega
  refine RunSpec.of_runs m xi xs12 xs13 xs14 xs15 xs16 c t _ (kernelRun0_D (F := F) c (grid0.coords t) (bufs t) (vals m xi xs12 xs13 xs14 xs15 xs16 c t) (by rw [hcond0_1]; omega) (by rw [hcond0_2]; omega) (by rw [hcond0_3]; omega) (by rw [hcond0_4]; omega) (by rw [hcond0_5]; omega) (by rw [hcond0_6]; omega)).2
    (readBack_nil _ _) (readBack_nil _ _) (readBack_nil _ _) (readBack_nil _ _) (readBack_nil _ _) ?_
  rw [kernelRun0_D_pieces, readBack, readAt_all (bufs t).h14 _ inb_S64x4096_S64x4096_0_0 (by decide), readAt_cols4096 (bufs t).h12 _ (k0_off3_inb _ hc4) (t.val - 8) ((hoff3 t h8 (by omega)).trans (by rw [Nat.mod_eq_of_lt (by omega)])), readAt_all (bufs t).h7 _ inb_S64_S64_0 (by decide)]
  exact read_writes_setCols (bufs t).h16 xs16 _ _ _ (hoff4 t h8 (by omega))

end Cert.KernelIdeal.Hand

end
-- ==== Proof.KRunA.lean ====
import proofs.«113402_g36472862278100_cont_sun_c4_736_16_alg».proof.Proof.KShared

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

local notation "𝕄" => MT nD τ sig Unit (Elt F) ℕ (UR sig nD τ) ℕ

variable (c : Dev nD) (i : grid0.Coords) (b : Bufs) (x : Vals F) (hc1 : cond0_1 i) (hc2 : cond0_2 i) (hc3 : ¬cond0_3 i) (hc4 : ¬cond0_4 i) (hc5 : ¬cond0_5 i) (hc6 : ¬cond0_6 i)
include hc1 hc2 hc3 hc4 hc5 hc6

set_option maxHeartbeats 1000000 in
/-- The body's run where the first two conditions hold and the rest fail; its pieces are whatever the run writes. -/
def kernelRun0_A : { L : Pieces F // Runs c i b x L } := by
  refine ⟨⟨[], ?_, ?_, [], ?_, []⟩, fun E K => ?run⟩
  case run =>
    simp only [cc0__gcn_kernel_eq_skeleton, View.writes_nil]; unfold cc0__gcn_kernel_skel Ins wholeAt
    iintro ⟨⟨H1, H2, H3, H4, H5, H6, H7, H8, H9, H10⟩, H11, H12, H13, H14, H15, H16, Hk⟩
    sl_exec (disch := first | exact hc1 | exact hc2 | exact hc3 | exact hc4 | exact hc5 | exact hc6)
    sl_step
    iapply Hk
    iframe

theorem kernelRun0_A_pieces : (kernelRun0_A (F := F) c i b x hc1 hc2 hc3 hc4 hc5 hc6).1
    = ⟨[],
      [⟨Rect.unit (s := S4096x4096) (k0_off1 i) S4096x512.size (k0_off1_inb i hc2), k0_pay3 (View.readAt (Elt F) b.a1.view (Rect.unit (s := S4096x512) ![0, 0] S4096x512.size inb_S4096x512_S4096x512_0_0).toLoadRect (b.h1.unread x.x1))⟩],
      [⟨Rect.unit (s := S64x4096) ![0, 0] S64x4096.size inb_S64x4096_S64x4096_0_0, k0_pay1 (View.readAt (Elt F) b.a3.view (Rect.unit (s := S64x256) ![0, 0] S64x256.size inb_S64x256_S64x256_0_0).toLoadRect (b.h3.unread x.x3)) (View.readAt (Elt F) b.a2.view (Rect.unit (s := S4096x256) ![0, 0] S4096x256.size inb_S4096x256_S4096x256_0_0).toLoadRect (b.h2.unread x.x2))⟩], [],
      [⟨Rect.unit (s := S64x4096) (k0_off2 i) S64x512.size (k0_off2_inb i hc2), k0_pay4 (View.readAt (Elt F) b.a1.view (Rect.unit (s := S4096x512) ![0, 0] S4096x512.size inb_S4096x512_S4096x512_0_0).toLoadRect (b.h1.unread x.x1)) (b.a13.view.readCov [(⟨Rect.unit (s := S64x4096) ![0, 0] S64x4096.size inb_S64x4096_S64x4096_0_0, k0_pay1 (View.readAt (Elt F) b.a3.view (Rect.unit (s := S64x256) ![0, 0] S64x256.size inb_S64x256_S64x256_0_0).toLoadRect (b.h3.unread x.x3)) (View.readAt (Elt F) b.a2.view (Rect.unit (s := S4096x256) ![0, 0] S4096x256.size inb_S4096x256_S4096x256_0_0).toLoadRect (b.h2.unread x.x2))⟩ : View.Piece (Elt F) S64x4096 .bf16)] (Rect.unit (s := S64x4096) ![0, 0] S64x4096.size inb_S64x4096_S64x4096_0_0).toLoadRect) (View.readAt (Elt F) b.a6.view (Rect.unit (s := S64) ![0] S64.size inb_S64_S64_0).toLoadRect (b.h6.unread x.x6))⟩], []⟩ := rfl

end Cert.KernelIdeal.Hand

end
-- ==== Proof.KRunSpecA.lean ====
import proofs.«113402_g36472862278100_cont_sun_c4_736_16_alg».proof.Proof.KRunSpec
import proofs.«113402_g36472862278100_cont_sun_c4_736_16_alg».proof.Proof.KRunA

noncomputable section

namespace Cert.KernelIdeal.Hand

open Cert.KernelIdeal Cert.KernelIdeal.Gen
open Idealize.ShloMosaic Idealize.ShloMosaic.TcCoe Idealize.ShloMosaic.Tactic Idealize.ShloMosaic.ValueIdx

variable {F : FTy → Type} [FloatOps F]

local notation "𝕄" => MT nD τ sig Unit (Elt F) ℕ (UR sig nD τ) ℕ

variable (m : (ℓ : Loc nD τ sig) → Buf (Elt F) ℓ)
variable (xi : Vec F S10x1024 .f32)
    (xs12 : Vec F S4096x4096 .bf16) (xs13 xs14 : Vec F S64x4096 .bf16) (xs15 xs16 : Vec F S64x4096 .f32)

/-- At point 0 the run rewrites columns 0 to 511 of buffers 12 and 15 and stores buffer 13 whole. -/
theorem runA_spec (c : Dev nD) (t : Fin cfg0.N) (h0 : t.val = 0) :
    RunSpec m c t xi xs12 xs13 xs14 xs15 xs16 xi
      (setCols xs12 (512 * t.val) (k0_pay3 (iblk m c 0 t))) (k0_pay1 (iblk m c 2 t) (iblk m c 1 t)) xs14
      (setCols xs15 (512 * t.val) (k0_pay4 (iblk m c 0 t) (k0_pay1 (iblk m c 2 t) (iblk m c 1 t)) (iblk m c 5 t))) xs16 := by
  refine RunSpec.of_runs m xi xs12 xs13 xs14 xs15 xs16 c t _ (kernelRun0_A (F := F) c (grid0.coords t) (bufs t) (vals m xi xs12 xs13 xs14 xs15 xs16 c t) (by rw [hcond0_1]; omega) (by rw [hcond0_2]; omega) (by rw [hcond0_3]; omega) (by rw [hcond0_4]; omega) (by rw [hcond0_5]; omega) (by rw [hcond0_6]; omega)).2
    (readBack_nil _ _) ?_ ?_ (readBack_nil _ _) ?_ (readBack_nil _ _)
  · rw [kernelRun0_A_pieces, readBack, readAt_all (bufs t).h1 _ inb_S4096x512_S4096x512_0_0 (by decide)]
    exact read_writes_setCols (bufs t).h12 xs12 _ _ _ (hoff1 t)
  · rw [kernelRun0_A_pieces, readBack, readAt_all (bufs t).h3 _ inb_S64x256_S64x256_0_0 (by decide), readAt_all (bufs t).h2 _ inb_S4096x256_S4096x256_0_0 (by decide)]
    exact read_writes_all scM13.view _ inb_S64x4096_S64x4096_0_0 _ (by decide)
  · rw [kernelRun0_A_pieces, readBack, View.readCov_cons_toLoadRect, readAt_all (bufs t).h1 _ inb_S4096x512_S4096x512_0_0 (by decide), readAt_all (bufs t).h3 _ inb_S64x256_S64x256_0_0 (by decide), readAt_all (bufs t).h2 _ inb_S4096x256_S4096x256_0_0 (by decide), readAt_all (bufs t).h6 _ inb_S64_S64_0 (by decide)]
    exact read_writes_setCols (bufs t).h15 xs15 _ _ _ (hoff2 t)

end Cert.KernelIdeal.Hand

end
-- ==== Proof.KRunB.lean ====
import proofs.«113402_g36472862278100_cont_sun_c4_736_16_alg».proof.Proof.KShared

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

local notation "𝕄" => MT nD τ sig Unit (Elt F) ℕ (UR sig nD τ) ℕ

variable (c : Dev nD) (i : grid0.Coords) (b : Bufs) (x : Vals F) (hc1 : ¬cond0_1 i) (hc2 : cond0_2 i) (hc3 : ¬cond0_3 i) (hc4 : ¬cond0_4 i) (hc5 : ¬cond0_5 i) (hc6 : ¬cond0_6 i)
include hc1 hc2 hc3 hc4 hc5 hc6

set_option maxHeartbeats 1000000 in
/-- The body's run where only the second condition holds; its pieces are whatever the run writes. -/
def kernelRun0_B : { L : Pieces F // Runs c i b x L } := by
  refine ⟨⟨[], ?_, [], [], ?_, []⟩, fun E K => ?run⟩
  case run =>
    simp only [cc0__gcn_kernel_eq_skeleton, View.writes_nil]; unfold cc0__gcn_kernel_skel Ins wholeAt
    iintro ⟨⟨H1, H2, H3, H4, H5, H6, H7, H8, H9, H10⟩, H11, H12, H13, H14, H15, H16, Hk⟩
    sl_exec (disch := first | exact hc1 | exact hc2 | exact hc3 | exact hc4 | exact hc5 | exact hc6)
    sl_step
    iapply Hk
    iframe

theorem kernelRun0_B_pieces : (kernelRun0_B (F := F) c i b x hc1 hc2 hc3 hc4 hc5 hc6).1
    = ⟨[],
      [⟨Rect.unit (s := S4096x4096) (k0_off1 i) S4096x512.size (k0_off1_inb i hc2), k0_pay3 (View.readAt (Elt F) b.a1.view (Rect.unit (s := S4096x512) ![0, 0] S4096x512.size inb_S4096x512_S4096x512_0_0).toLoadRect (b.h1.unread x.x1))⟩], [], [],
      [⟨Rect.unit (s := S64x4096) (k0_off2 i) S64x512.size (k0_off2_inb i hc2), k0_pay4 (View.readAt (Elt F) b.a1.view (Rect.unit (s := S4096x512) ![0, 0] S4096x512.size inb_S4096x512_S4096x512_0_0).toLoadRect (b.h1.unread x.x1)) (View.readAt (Elt F) b.a13.view (Rect.unit (s := S64x4096) ![0, 0] S64x4096.size inb_S64x4096_S64x4096_0_0).toLoadRect (b.h13.unread x.x13)) (View.readAt (Elt F) b.a6.view (Rect.unit (s := S64) ![0] S64.size inb_S64_S64_0).toLoadRect (b.h6.unread x.x6))⟩], []⟩ := rfl

end Cert.KernelIdeal.Hand

end
-- ==== Proof.KRunSpecB.lean ====
import proofs.«113402_g36472862278100_cont_sun_c4_736_16_alg».proof.Proof.KRunSpec
import proofs.«113402_g36472862278100_cont_sun_c4_736_16_alg».proof.Proof.KRunB

noncomputable section

namespace Cert.KernelIdeal.Hand

open Cert.KernelIdeal Cert.KernelIdeal.Gen
open Idealize.ShloMosaic Idealize.ShloMosaic.TcCoe Idealize.ShloMosaic.Tactic Idealize.ShloMosaic.ValueIdx

variable {F : FTy → Type} [FloatOps F]

local notation "𝕄" => MT nD τ sig Unit (Elt F) ℕ (UR sig nD τ) ℕ

variable (m : (ℓ : Loc nD τ sig) → Buf (Elt F) ℓ)
variable (xi : Vec F S10x1024 .f32)
    (xs12 : Vec F S4096x4096 .bf16) (xs13 xs14 : Vec F S64x4096 .bf16) (xs15 xs16 : Vec F S64x4096 .f32)

/-- At points 1 to 6 the run rewrites the point's 512 columns of buffers 12 and 15. -/
theorem runB_spec (c : Dev nD) (t : Fin cfg0.N) (h1 : 1 ≤ t.val) (h6 : t.val ≤ 6) :
    RunSpec m c t xi xs12 xs13 xs14 xs15 xs16 xi
      (setCols xs12 (512 * t.val) (k0_pay3 (iblk m c 0 t))) xs13 xs14
      (setCols xs15 (512 * t.val) (k0_pay4 (iblk m c 0 t) xs13 (iblk m c 5 t))) xs16 := by
  refine RunSpec.of_runs m xi xs12 xs13 xs14 xs15 xs16 c t _ (kernelRun0_B (F := F) c (grid0.coords t) (bufs t) (vals m xi xs12 xs13 xs14 xs15 xs16 c t) (by rw [hcond0_1]; omega) (by rw [hcond0_2]; omega) (by rw [hcond0_3]; omega) (by rw [hcond0_4]; omega) (by rw [hcond0_5]; omega) (by rw [hcond0_6]; omega)).2
    (readBack_nil _ _) ?_ (readBack_nil _ _) (readBack_nil _ _) ?_ (readBack_nil _ _)
  · rw [kernelRun0_B_pieces, readBack, readAt_all (bufs t).h1 _ inb_S4096x512_S4096x512_0_0 (by decide)]
    exact read_writes_setCols (bufs t).h12 xs12 _ _ _ (hoff1 t)
  · rw [kernelRun0_B_pieces, readBack, readAt_all (bufs t).h1 _ inb_S4096x512_S4096x512_0_0 (by decide), readAt_all (bufs t).h13 _ inb_S64x4096_S64x4096_0_0 (by decide), readAt_all (bufs t).h6 _ inb_S64_S64_0 (by decide)]
    exact read_writes_setCols (bufs t).h15 xs15 _ _ _ (hoff2 t)

end Cert.KernelIdeal.Hand

end
-- ==== Proof.KRunC.lean ====
import proofs.«113402_g36472862278100_cont_sun_c4_736_16_alg».proof.Proof.KShared

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

local notation "𝕄" => MT nD τ sig Unit (Elt F) ℕ (UR sig nD τ) ℕ

variable (c : Dev nD) (i : grid0.Coords) (b : Bufs) (x : Vals F) (hc1 : ¬cond0_1 i) (hc2 : cond0_2 i) (hc3 : cond0_3 i) (hc4 : ¬cond0_4 i) (hc5 : ¬cond0_5 i) (hc6 : ¬cond0_6 i)
include hc1 hc2 hc3 hc4 hc5 hc6

set_option maxHeartbeats 1000000 in
/-- The body's run where the second and third conditions hold; its pieces are whatever the run writes. -/
def kernelRun0_C : { L : Pieces F // Runs c i b x L } := by
  refine ⟨⟨[], ?_, [], ?_, ?_, []⟩, fun E K => ?run⟩
  case run =>
    simp only [cc0__gcn_kernel_eq_skeleton, View.writes_nil]; unfold cc0__gcn_kernel_skel Ins wholeAt
    iintro ⟨⟨H1, H2, H3, H4, H5, H6, H7, H8, H9, H10⟩, H11, H12, H13, H14, H15, H16, Hk⟩
    sl_exec (disch := first | exact hc1 | exact hc2 | exact hc3 | exact hc4 | exact hc5 | exact hc6)
    sl_step
    iapply Hk
    iframe

theorem kernelRun0_C_pieces : (kernelRun0_C (F := F) c i b x hc1 hc2 hc3 hc4 hc5 hc6).1
    = ⟨[],
      [⟨Rect.unit (s := S4096x4096) (k0_off1 i) S4096x512.size (k0_off1_inb i hc2), k0_pay3 (View.readAt (Elt F) b.a1.view (Rect.unit (s := S4096x512) ![0, 0] S4096x512.size inb_S4096x512_S4096x512_0_0).toLoadRect (b.h1.unread x.x1))⟩], [],
      [⟨Rect.unit (s := S64x4096) ![0, 0] S64x4096.size inb_S64x4096_S64x4096_0_0, k0_pay5 (View.readAt (Elt F) b.a4.view (Rect.unit (s := S64x64) ![0, 0] S64x64.size inb_S64x64_S64x64_0_0).toLoadRect (b.h4.unread x.x4)) (View.readAt (Elt F) b.a15.view (Rect.unit (s := S64x4096) ![0, 0] S64x4096.size inb_S64x4096_S64x4096_0_0).toLoadRect (b.a15.view.writes (Elt F) (b.h15.unread x.x15) [(⟨Rect.unit (s := S64x4096) (k0_off2 i) S64x512.size (k0_off2_inb i hc2), k0_pay4 (View.readAt (Elt F) b.a1.view (Rect.unit (s := S4096x512) ![0, 0] S4096x512.size inb_S4096x512_S4096x512_0_0).toLoadRect (b.h1.unread x.x1)) (View.readAt (Elt F) b.a13.view (Rect.unit (s := S64x4096) ![0, 0] S64x4096.size inb_S64x4096_S64x4096_0_0).toLoadRect (b.h13.unread x.x13)) (View.readAt (Elt F) b.a6.view (Rect.unit (s := S64) ![0] S64.size inb_S64_S64_0).toLoadRect (b.h6.unread x.x6))⟩ : View.Piece (Elt F) S64x4096 .f32)]))⟩],
      [⟨Rect.unit (s := S64x4096) (k0_off2 i) S64x512.size (k0_off2_inb i hc2), k0_pay4 (View.readAt (Elt F) b.a1.view (Rect.unit (s := S4096x512) ![0, 0] S4096x512.size inb_S4096x512_S4096x512_0_0).toLoadRect (b.h1.unread x.x1)) (View.readAt (Elt F) b.a13.view (Rect.unit (s := S64x4096) ![0, 0] S64x4096.size inb_S64x4096_S64x4096_0_0).toLoadRect (b.h13.unread x.x13)) (View.readAt (Elt F) b.a6.view (Rect.unit (s := S64) ![0] S64.size inb_S64_S64_0).toLoadRect (b.h6.unread x.x6))⟩], []⟩ := rfl

end Cert.KernelIdeal.Hand

end
-- ==== Proof.KRunSpecC.lean ====
import proofs.«113402_g36472862278100_cont_sun_c4_736_16_alg».proof.Proof.KRunSpec
import proofs.«113402_g36472862278100_cont_sun_c4_736_16_alg».proof.Proof.KRunC

noncomputable section

namespace Cert.KernelIdeal.Hand

open Cert.KernelIdeal Cert.KernelIdeal.Gen
open Idealize.ShloMosaic Idealize.ShloMosaic.TcCoe Idealize.ShloMosaic.Tactic Idealize.ShloMosaic.ValueIdx

variable {F : FTy → Type} [FloatOps F]

local notation "𝕄" => MT nD τ sig Unit (Elt F) ℕ (UR sig nD τ) ℕ

variable (m : (ℓ : Loc nD τ sig) → Buf (Elt F) ℓ)
variable (xi : Vec F S10x1024 .f32)
    (xs12 : Vec F S4096x4096 .bf16) (xs13 xs14 : Vec F S64x4096 .bf16) (xs15 xs16 : Vec F S64x4096 .f32)

/-- At point 7 the run also stores buffer 14 whole, computed from buffer 15 as just completed. -/
theorem runC_spec (c : Dev nD) (t : Fin cfg0.N) (h7 : t.val = 7) :
    RunSpec m c t xi xs12 xs13 xs14 xs15 xs16 xi
      (setCols xs12 (512 * t.val) (k0_pay3 (iblk m c 0 t))) xs13
      (k0_pay5 (iblk m c 3 t) (setCols xs15 (512 * t.val) (k0_pay4 (iblk m c 0 t) xs13 (iblk m c 5 t))))
      (setCols xs15 (512 * t.val) (k0_pay4 (iblk m c 0 t) xs13 (iblk m c 5 t))) xs16 := by
  refine RunSpec.of_runs m xi xs12 xs13 xs14 xs15 xs16 c t _ (kernelRun0_C (F := F) c (grid0.coords t) (bufs t) (vals m xi xs12 xs13 xs14 xs15 xs16 c t) (by rw [hcond0_1]; omega) (by rw [hcond0_2]; omega) (by rw [hcond0_3]; omega) (by rw [hcond0_4]; omega) (by rw [hcond0_5]; omega) (by rw [hcond0_6]; omega)).2
    (readBack_nil _ _) ?_ (readBack_nil _ _) ?_ ?_ (readBack_nil _ _)
  · rw [kernelRun0_C_pieces, readBack, readAt_all (bufs t).h1 _ inb_S4096x512_S4096x512_0_0 (by decide)]
    exact read_writes_setCols (bufs t).h12 xs12 _ _ _ (hoff1 t)
  · rw [kernelRun0_C_pieces, readBack, readAt_all (bufs t).h4 _ inb_S64x64_S64x64_0_0 (by decide), readAt_all (bufs t).h1 _ inb_S4096x512_S4096x512_0_0 (by decide), readAt_all (bufs t).h13 _ inb_S64x4096_S64x4096_0_0 (by decide), readAt_all (bufs t).h6 _ inb_S64_S64_0 (by decide)]
    refine (read_writes_all scM14.view _ inb_S64x4096_S64x4096_0_0 _ (by decide)).trans ?_
    exact congrArg (k0_pay5 (iblk m c 3 t)) ((readAt_all_of (M := scM15) _ inb_S64x4096_S64x4096_0_0 (by decide)).trans
      (read_writes_setCols (bufs t).h15 xs15 _ _ _ (hoff2 t)))
  · rw [kernelRun0_C_pieces, readBack, readAt_all (bufs t).h1 _ inb_S4096x512_S4096x512_0_0 (by decide), readAt_all (bufs t).h13 _ inb_S64x4096_S64x4096_0_0 (by decide), readAt_all (bufs t).h6 _ inb_S64_S64_0 (by decide)]
    exact read_writes_setCols (bufs t).h15 xs15 _ _ _ (hoff2 t)

end Cert.KernelIdeal.Hand

end
-- ==== Proof.KRunE.lean ====
import proofs.«113402_g36472862278100_cont_sun_c4_736_16_alg».proof.Proof.KShared

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

local notation "𝕄" => MT nD τ sig Unit (Elt F) ℕ (UR sig nD τ) ℕ

variable (c : Dev nD) (i : grid0.Coords) (b : Bufs) (x : Vals F) (hc1 : ¬cond0_1 i) (hc2 : ¬cond0_2 i) (hc3 : ¬cond0_3 i) (hc4 : cond0_4 i) (hc5 : cond0_5 i) (hc6 : ¬cond0_6 i)
include hc1 hc2 hc3 hc4 hc5 hc6

set_option maxHeartbeats 1000000 in
/-- The body's run where the fourth and fifth conditions hold; its pieces are whatever the run writes. -/
def kernelRun0_E : { L : Pieces F // Runs c i b x L } := by
  refine ⟨⟨[], [], ?_, [], [], ?_⟩, fun E K => ?run⟩
  case run =>
    letI : ClosedOff (k0_off3 i) := ⟨![0, 1024 * ((i 0).val - 8)], k0_off3_eq i hc4⟩
    letI : ClosedOff (k0_off4 i) := ⟨![0, 1024 * ((i 0).val - 8)], k0_off4_eq i hc4⟩
    simp only [cc0__gcn_kernel_eq_skeleton, View.writes_nil]; unfold cc0__gcn_kernel_skel Ins wholeAt
    iintro ⟨⟨H1, H2, H3, H4, H5, H6, H7, H8, H9, H10⟩, H11, H12, H13, H14, H15, H16, Hk⟩
    sl_exec (disch := first | exact hc1 | exact hc2 | exact hc3 | exact hc4 | exact hc5 | exact hc6)
    sl_step
    iapply Hk
    iframe

theorem kernelRun0_E_pieces : (kernelRun0_E (F := F) c i b x hc1 hc2 hc3 hc4 hc5 hc6).1
    = ⟨[], [],
      [⟨Rect.unit (s := S64x4096) ![0, 0] S64x4096.size inb_S64x4096_S64x4096_0_0, k0_pay7 (View.readAt (Elt F) b.a5.view (Rect.unit (s := S64x64) ![0, 0] S64x64.size inb_S64x64_S64x64_0_0).toLoadRect (b.h5.unread x.x5)) (View.readAt (Elt F) b.a16.view (Rect.unit (s := S64x4096) ![0, 0] S64x4096.size inb_S64x4096_S64x4096_0_0).toLoadRect (b.a16.view.writes (Elt F) (b.h16.unread x.x16) [⟨Rect.unit (s := S64x4096) (k0_off4 i) S64x1024.size (k0_off4_inb i hc4), k0_pay6 (View.readAt (Elt F) b.a14.view (Rect.unit (s := S64x4096) ![0, 0] S64x4096.size inb_S64x4096_S64x4096_0_0).toLoadRect (b.h14.unread x.x14)) (View.readAt (Elt F) b.a12.view (Rect.unit (s := S4096x4096) (k0_off3 i) S4096x1024.size (k0_off3_inb i hc4)).toLoadRect (b.h12.unread x.x12)) (View.readAt (Elt F) b.a7.view (Rect.unit (s := S64) ![0] S64.size inb_S64_S64_0).toLoadRect (b.h7.unread x.x7))⟩]))⟩], [], [],
      [⟨Rect.unit (s := S64x4096) (k0_off4 i) S64x1024.size (k0_off4_inb i hc4), k0_pay6 (View.readAt (Elt F) b.a14.view (Rect.unit (s := S64x4096) ![0, 0] S64x4096.size inb_S64x4096_S64x4096_0_0).toLoadRect (b.h14.unread x.x14)) (View.readAt (Elt F) b.a12.view (Rect.unit (s := S4096x4096) (k0_off3 i) S4096x1024.size (k0_off3_inb i hc4)).toLoadRect (b.h12.unread x.x12)) (View.readAt (Elt F) b.a7.view (Rect.unit (s := S64) ![0] S64.size inb_S64_S64_0).toLoadRect (b.h7.unread x.x7))⟩]⟩ := rfl

end Cert.KernelIdeal.Hand

end
-- ==== Proof.KRunSpecE.lean ====
import proofs.«113402_g36472862278100_cont_sun_c4_736_16_alg».proof.Proof.KRunSpec
import proofs.«113402_g36472862278100_cont_sun_c4_736_16_alg».proof.Proof.KRunE

noncomputable section

namespace Cert.KernelIdeal.Hand

open Cert.KernelIdeal Cert.KernelIdeal.Gen
open Idealize.ShloMosaic Idealize.ShloMosaic.TcCoe Idealize.ShloMosaic.Tactic Idealize.ShloMosaic.ValueIdx

variable {F : FTy → Type} [FloatOps F]

local notation "𝕄" => MT nD τ sig Unit (Elt F) ℕ (UR sig nD τ) ℕ

variable (m : (ℓ : Loc nD τ sig) → Buf (Elt F) ℓ)
variable (xi : Vec F S10x1024 .f32)
    (xs12 : Vec F S4096x4096 .bf16) (xs13 xs14 : Vec F S64x4096 .bf16) (xs15 xs16 : Vec F S64x4096 .f32)

/-- At point 11 the run also stores buffer 13 whole, computed from buffer 16 as just completed. -/
theorem runE_spec (c : Dev nD) (t : Fin cfg0.N) (h11 : t.val = 11) :
    RunSpec m c t xi xs12 xs13 xs14 xs15 xs16 xi xs12
      (k0_pay7 (iblk m c 4 t) (setCols xs16 (1024 * (t.val - 8)) (k0_pay6 xs14 (cols4096 xs12 (t.val - 8)) (iblk m c 6 t)))) xs14 xs15
      (setCols xs16 (1024 * (t.val - 8)) (k0_pay6 xs14 (cols4096 xs12 (t.val - 8)) (iblk m c 6 t))) := by
  have hc4 : cond0_4 (grid0.coords t) := by rw [hcond0_4]; omega
  refine RunSpec.of_runs m xi xs12 xs13 xs14 xs15 xs16 c t _ (kernelRun0_E (F := F) c (grid0.coords t) (bufs t) (vals m xi xs12 xs13 xs14 xs15 xs16 c t) (by rw [hcond0_1]; omega) (by rw [hcond0_2]; omega) (by rw [hcond0_3]; omega) (by rw [hcond0_4]; omega) (by rw [hcond0_5]; omega) (by rw [hcond0_6]; omega)).2
    (readBack_nil _ _) (readBack_nil _ _) ?_ (readBack_nil _ _) (readBack_nil _ _) ?_
  · rw [kernelRun0_E_pieces, readBack, readAt_all (bufs t).h5 _ inb_S64x64_S64x64_0_0 (by decide), readAt_all (bufs t).h14 _ inb_S64x4096_S64x4096_0_0 (by decide), readAt_cols4096 (bufs t).h12 _ (k0_off3_inb _ hc4) (t.val - 8) ((hoff3 t (by omega) (by omega)).trans (by rw [Nat.mod_eq_of_lt (by omega)])), readAt_all (bufs t).h7 _ inb_S64_S64_0 (by decide),
      readAt_all_of (M := (bufs t).a16) _ inb_S64x4096_S64x4096_0_0 (by decide),
      read_writes_setCols (bufs t).h16 _ (k0_off4_inb _ hc4) _ (1024 * (t.val - 8)) (hoff4 t (by omega) (by omega))]
    exact read_writes_all scM13.view _ inb_S64x4096_S64x4096_0_0 _ (by decide)
  · rw [kernelRun0_E_pieces, readBack, readAt_all (bufs t).h14 _ inb_S64x4096_S64x4096_0_0 (by decide), readAt_cols4096 (bufs t).h12 _ (k0_off3_inb _ hc4) (t.val - 8) ((hoff3 t (by omega) (by omega)).trans (by rw [Nat.mod_eq_of_lt (by omega)])), readAt_all (bufs t).h7 _ inb_S64_S64_0 (by decide)]
    exact read_writes_setCols (bufs t).h16 xs16 _ _ _ (hoff4 t (by omega) (by omega))

end Cert.KernelIdeal.Hand

end
-- ==== Proof.KRunG.lean ====
import proofs.«113402_g36472862278100_cont_sun_c4_736_16_alg».proof.Proof.KShared

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

local notation "𝕄" => MT nD τ sig Unit (Elt F) ℕ (UR sig nD τ) ℕ

variable (c : Dev nD) (i : grid0.Coords) (b : Bufs) (x : Vals F) (hc1 : ¬cond0_1 i) (hc2 : ¬cond0_2 i) (hc3 : ¬cond0_3 i) (hc4 : ¬cond0_4 i) (hc5 : ¬cond0_5 i) (hc6 : cond0_6 i)
include hc1 hc2 hc3 hc4 hc5 hc6

set_option maxHeartbeats 1000000 in
/-- The body's run where only the sixth condition holds; its pieces are whatever the run writes. -/
def kernelRun0_G : { L : Pieces F // Runs c i b x L } := by
  refine ⟨⟨?_, [], [], [], [], []⟩, fun E K => ?run⟩
  case run =>
    letI : ClosedOff (k0_off5 i) := ⟨![0, 1024 * ((i 0).val - 12)], k0_off5_eq i hc6⟩
    letI : ClosedOff (k0_off6 i) := ⟨![0, 1024 * ((i 0).val - 12)], k0_off6_eq i hc6⟩
    simp only [cc0__gcn_kernel_eq_skeleton, View.writes_nil]; unfold cc0__gcn_kernel_skel Ins wholeAt
    simp only [k0_part1_eq_skeleton]
    iintro ⟨⟨H1, H2, H3, H4, H5, H6, H7, H8, H9, H10⟩, H11, H12, H13, H14, H15, H16, Hk⟩
    sl_exec (disch := first | exact hc1 | exact hc2 | exact hc3 | exact hc4 | exact hc5 | exact hc6)
    sl_step
    iapply Hk
    iframe

theorem kernelRun0_G_pieces : (kernelRun0_G (F := F) c i b x hc1 hc2 hc3 hc4 hc5 hc6).1
    = ⟨
      [⟨Rect.unit (s := S10x1024) ![0, 0] S10x1024.size inb_S10x1024_S10x1024_0_0, k0_pay8 (View.readAt (Elt F) b.a13.view (Rect.unit (s := S64x4096) ![0, 0] S64x4096.size inb_S64x4096_S64x4096_0_0).toLoadRect (b.h13.unread x.x13)) (View.readAt (Elt F) b.a12.view (Rect.unit (s := S4096x4096) (k0_off5 i) S4096x1024.size (k0_off5_inb i hc6)).toLoadRect (b.h12.unread x.x12)) (View.readAt (Elt F) b.a8.view (Rect.unit (s := S64) ![0] S64.size inb_S64_S64_0).toLoadRect (b.h8.unread x.x8)) (View.readAt (Elt F) b.a15.view (Rect.unit (s := S64x4096) (k0_off6 i) S64x1024.size (k0_off6_inb i hc6)).toLoadRect (b.h15.unread x.x15)) (View.readAt (Elt F) b.a16.view (Rect.unit (s := S64x4096) (k0_off6 i) S64x1024.size (k0_off6_inb i hc6)).toLoadRect (b.h16.unread x.x16)) (View.readAt (Elt F) b.a9.view (Rect.unit (s := S10x192) ![0, 0] S10x192.size inb_S10x192_S10x192_0_0).toLoadRect (b.h9.unread x.x9)) (View.readAt (Elt F) b.a10.view (Rect.unit (s := S10) ![0] S10.size inb_S10_S10_0).toLoadRect (b.h10.unread x.x10))⟩], [], [], [], [], []⟩ := rfl

end Cert.KernelIdeal.Hand

end
-- ==== Proof.KRunSpecG.lean ====
import proofs.«113402_g36472862278100_cont_sun_c4_736_16_alg».proof.Proof.KRunSpec
import proofs.«113402_g36472862278100_cont_sun_c4_736_16_alg».proof.Proof.KRunG

noncomputable section

namespace Cert.KernelIdeal.Hand

open Cert.KernelIdeal Cert.KernelIdeal.Gen
open Idealize.ShloMosaic Idealize.ShloMosaic.TcCoe Idealize.ShloMosaic.Tactic Idealize.ShloMosaic.ValueIdx

variable {F : FTy → Type} [FloatOps F]

local notation "𝕄" => MT nD τ sig Unit (Elt F) ℕ (UR sig nD τ) ℕ

variable (m : (ℓ : Loc nD τ sig) → Buf (Elt F) ℓ)
variable (xi : Vec F S10x1024 .f32)
    (xs12 : Vec F S4096x4096 .bf16) (xs13 xs14 : Vec F S64x4096 .bf16) (xs15 xs16 : Vec F S64x4096 .f32)

/-- From point 12 on the run stores buffer 11 whole and leaves the five carried buffers as they were. -/
theorem runG_spec (c : Dev nD) (t : Fin cfg0.N) (h12 : 12 ≤ t.val) :
    RunSpec m c t xi xs12 xs13 xs14 xs15 xs16
      (k0_pay8 xs13 (cols4096 xs12 (t.val - 12)) (iblk m c 7 t) (cols64 xs15 (t.val - 12)) (cols64 xs16 (t.val - 12)) (iblk m c 8 t) (iblk m c 9 t))
      xs12 xs13 xs14 xs15 xs16 := by
  have hN := lt16 t
  have hc6 : cond0_6 (grid0.coords t) := by rw [hcond0_6]; omega
  refine RunSpec.of_runs m xi xs12 xs13 xs14 xs15 xs16 c t _ (kernelRun0_G (F := F) c (grid0.coords t) (bufs t) (vals m xi xs12 xs13 xs14 xs15 xs16 c t) (by rw [hcond0_1]; omega) (by rw [hcond0_2]; omega) (by rw [hcond0_3]; omega) (by rw [hcond0_4]; omega) (by rw [hcond0_5]; omega) (by rw [hcond0_6]; omega)).2
    ?_ (readBack_nil _ _) (readBack_nil _ _) (readBack_nil _ _) (readBack_nil _ _) (readBack_nil _ _)
  rw [kernelRun0_G_pieces, readBack, readAt_all (bufs t).h13 _ inb_S64x4096_S64x4096_0_0 (by decide), readAt_cols4096 (bufs t).h12 _ (k0_off5_inb _ hc6) (t.val - 12) ((hoff5 t h12).trans (by rw [Nat.mod_eq_of_lt (by omega)])), readAt_all (bufs t).h8 _ inb_S64_S64_0 (by decide),
    readAt_cols64 (bufs t).h15 _ (k0_off6_inb _ hc6) (t.val - 12) ((hoff6 t h12).trans (by rw [Nat.mod_eq_of_lt (by omega)])),
    readAt_cols64 (bufs t).h16 _ (k0_off6_inb _ hc6) (t.val - 12) ((hoff6 t h12).trans (by rw [Nat.mod_eq_of_lt (by omega)])),
    readAt_all (bufs t).h9 _ inb_S10x192_S10x192_0_0 (by decide), readAt_all (bufs t).h10 _ inb_S10_S10_0 (by decide)]
  exact read_writes_all (ms0_10 t).view _ inb_S10x1024_S10x1024_0_0 _ (by decide)

end Cert.KernelIdeal.Hand

end
-- ==== Proof.KFrame.lean ====
import proofs.«113402_g36472862278100_cont_sun_c4_736_16_alg».proof.Proof.KDat
import proofs.«113402_g36472862278100_cont_sun_c4_736_16_alg».proof.Proof.KTail
import proofs.«113402_g36472862278100_cont_sun_c4_736_16_alg».proof.Proof.KRunSpec
import proofs.«113402_g36472862278100_cont_sun_c4_736_16_alg».proof.Proof.KRunSpecA
import proofs.«113402_g36472862278100_cont_sun_c4_736_16_alg».proof.Proof.KRunSpecB
import proofs.«113402_g36472862278100_cont_sun_c4_736_16_alg».proof.Proof.KRunSpecC
import proofs.«113402_g36472862278100_cont_sun_c4_736_16_alg».proof.Proof.KRunSpecE
import proofs.«113402_g36472862278100_cont_sun_c4_736_16_alg».proof.Proof.KRunSpecG
import Idealize.ShloMosaic.Lib.Pipeline.FrameBody
import Idealize.ShloMosaic.Lib.Pipeline.FrameSuffix
import Idealize.ShloMosaic.Lib.Ring
import Idealize.ShloMosaic.Lib.Tactic

set_option maxRecDepth 16384
set_option synthInstance.maxSize 4096

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One point of the grid: a run of the body whose new carried contents are the invariant's at the next point re-establishes the invariant. -/
theorem step_of_run (c : Dev nD) (t : Fin cfg0.N)
    (h : ∀ e10 d12 d13 d14 d15 d16, ∃ o11 n12 n13 n14 n15 n16,
      RunSpec m c t ((dats m 0 c).before 10 t e10) (S12 m c t.val d12) (S13 m c t.val d13) (S14 m c t.val d14) (S15 m c t.val d15) (S16 m c t.val d16) o11 n12 n13 n14 n15 n16
      ∧ S12 m c (t.val + 1) d12 = n12 ∧ S13 m c (t.val + 1) d13 = n13 ∧ S14 m c (t.val + 1) d14 = n14 ∧ S15 m c (t.val + 1) d15 = n15 ∧ S16 m c (t.val + 1) d16 = n16
      ∧ (owns (c : Thread nD τ) (ms0_10 t) fullShare o11 ⊢ (dats m 0 c).leavesExact 10 t)) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8, before0_9]
  rw [show (dats m 0 c).owesAt () t.succ = (dats m 0 c).owesAt () t.castSucc from rfl]
  rw [Phi_succ, Phi_castSucc]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  unfold PhiS
  iintro ⟨⟨%d12, %d13, %d14, %d15, %d16, ⟨HS12, HS13, HS14, HS15, HS16⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩⟩
  obtain ⟨o11, n12, n13, n14, n15, n16, hrun, e12, e13, e14, e15, e16, hQ⟩ := h e10 d12 d13 d14 d15 d16
  iapply (hrun _)
  unfold insAt
  iframe
  iintro ⟨⟨H0, H1, H2, H3, H4, H5, H6, H7, H8, H9⟩, H10, HS12, HS13, HS14, HS15, HS16⟩
  isplitl [HS12 HS13 HS14 HS15 HS16 Hg]
  · iexists d12; iexists d13; iexists d14; iexists d15; iexists d16
    rw [e12, e13, e14, e15, e16]
    iframe
  iframe
  iapply hQ; iexact H10

/-- The six control cases by the point's number: 0, 1..6, 7, 8..10, 11, 12..15. -/
theorem sound_body (c : Dev nD) (t : Fin cfg0.N) :
    bodyPre m c t ⊢ wp frame (wpE (defs₀ (F := F)) Variants.none c none) Set.univ (bodyAt0 t) (fun _ => bodyPost m c t) := by
  have hN := lt16 t
  refine step_of_run m c t fun e10 d12 d13 d14 d15 d16 => ?_
  by_cases h12 : 12 ≤ t.val
  · refine ⟨_, _, _, _, _, _, runG_spec m _ _ _ _ _ _ c t h12, (S12_full m c _ (by omega) d12).trans (S12_full m c _ (by omega) d12).symm, (S13_late m c _ (by omega) d13).trans (S13_late m c _ (by omega) d13).symm,
      (S14_late m c _ (by omega) d14).trans (S14_late m c _ (by omega) d14).symm, (S15_full m c _ (by omega) d15).trans (S15_full m c _ (by omega) d15).symm, (S16_full m c _ (by omega) d16).trans (S16_full m c _ (by omega) d16).symm, ?_⟩
    rw [show (dats m 0 c).leavesExact 10 t = owns (c : Thread nD τ) (ms0_10 t) fullShare ((dats m 0 c).after 10 t) from by
      unfold Dat.leavesExact; rw [liveAt0_10 t ((hcond0_6 t).mpr h12)], after0_10,
      S13_late m c _ h12 d13, S12_full m c _ (by omega) d12, S15_full m c _ (by omega) d15, S16_full m c _ h12 d16]
    exact .rfl
  have hidle : owns (c : Thread nD τ) (ms0_10 t) fullShare ((dats m 0 c).before 10 t e10) ⊢ (dats m 0 c).leavesExact 10 t := by
    rw [Dat.leavesExact_idle (dats m 0 c) 10 t (idleAt0_10 t (fun h => h12 ((hcond0_6 t).mp h))) (noFlush0_10 t (fun h => h12 ((hcond0_6 t).mp h)))]
    iintro H; iexists e10; iexact H
  by_cases h8 : 8 ≤ t.val
  · have e16 : S16 m c (t.val + 1) d16 = setCols (S16 m c t.val d16) (1024 * (t.val - 8)) (k0_pay6 (S14 m c t.val d14) (cols4096 (S12 m c t.val d12) (t.val - 8)) (iblk m c 6 t)) := by
      rw [← S16_step m c t (by omega) (by omega) d16, S14_late m c _ (by omega) d14, S12_full m c _ (by omega) d12]; rfl
    by_cases h11 : t.val = 11
    · exact ⟨_, _, _, _, _, _, runE_spec m _ _ _ _ _ _ c t h11, (S12_full m c _ (by omega) d12).trans (S12_full m c _ (by omega) d12).symm,
        by rw [← e16, S13_late m c _ (by omega) d13, S16_full m c _ (by omega) d16]; unfold b3t; rw [show pt 11 (by decide) = t from Fin.ext h11.symm],
        (S14_late m c _ (by omega) d14).trans (S14_late m c _ (by omega) d14).symm, (S15_full m c _ (by omega) d15).trans (S15_full m c _ (by omega) d15).symm, e16, hidle⟩
    · exact ⟨_, _, _, _, _, _, runD_spec m _ _ _ _ _ _ c t h8 (by omega), (S12_full m c _ (by omega) d12).trans (S12_full m c _ (by omega) d12).symm, (S13_mid m c _ (by omega) (by omega) d13).trans (S13_mid m c _ (by omega) (by omega) d13).symm,
        (S14_late m c _ (by omega) d14).trans (S14_late m c _ (by omega) d14).symm, (S15_full m c _ (by omega) d15).trans (S15_full m c _ (by omega) d15).symm, e16, hidle⟩
  have e12 := (S12_step m c t (by omega) d12).symm
  have e16 := (S16_none m c (t.val + 1) (by omega) d16).trans (S16_none m c t.val (by omega) d16).symm
  by_cases h0 : t.val = 0
  · have ht0 : pt 0 (by decide) = t := Fin.ext h0.symm
    exact ⟨_, _, _, _, _, _, runA_spec m _ _ _ _ _ _ c t h0, e12,
      by rw [S13_mid m c _ (by omega) (by omega) d13]; unfold b1t; rw [ht0],
      (S14_early m c _ (by omega) d14).trans (S14_early m c _ (by omega) d14).symm,
      by rw [← S15_step m c t (by omega) d15]; unfold x1blk b1t; rw [ht0], e16, hidle⟩
  have e13 := (S13_mid m c (t.val + 1) (by omega) (by omega) d13).trans (S13_mid m c t.val (by omega) (by omega) d13).symm
  have e15 : S15 m c (t.val + 1) d15 = setCols (S15 m c t.val d15) (512 * t.val) (k0_pay4 (iblk m c 0 t) (S13 m c t.val d13) (iblk m c 5 t)) := by
    rw [← S15_step m c t (by omega) d15, S13_mid m c t.val (by omega) (by omega) d13]; rfl
  by_cases h7 : t.val = 7
  · exact ⟨_, _, _, _, _, _, runC_spec m _ _ _ _ _ _ c t h7, e12, e13,
      by rw [← e15, S14_late m c _ (by omega) d14, S15_full m c _ (by omega) d15]; unfold b2t; rw [show pt 7 (by decide) = t from Fin.ext h7.symm],
      e15, e16, hidle⟩
  · exact ⟨_, _, _, _, _, _, runB_spec m _ _ _ _ _ _ c t (by omega) (by omega), e12, e13, (S14_early m c _ (by omega) d14).trans (S14_early m c _ (by omega) d14).symm, e15, e16, hidle⟩

theorem body_obligation (c : Dev nD) : BodyObligation (dats (F := F) m 0 c) (defs₀ (F := F)) Variants.none () Set.univ := fun t => by
  rw [bigSep_W0, bigSep_W0]
  exact sound_body m c t

set_option backward.isDefEq.respectTransparency.types false in
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The same run with the result named: the transposed array of the four output blocks. -/
theorem run_values : θ_run defs (onTc (τ := τ) (main (F := F))) ⟨m, fun _ => 0, ρ⟩ (fun r => ∀ c : Dev nD,
      r.2.mem ((c.tc : Thread nD τ).loc main_v3) = kerOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨((h c).2 main_v3 (Pipeline.mem_restRefs_of main_v3 (by decide) (by decide))).trans (tail_v3 m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      (((h c).2 main_arg8 (Pipeline.mem_restRefs_of main_arg8 (by decide) (by decide))).trans (W_main_arg8 m (dats m) c)),
      ((h c).1 9).trans (((dats m 0 c).arrAt_in 9 rfl _).trans ((A_eq m c 9).trans (V_main_arg9 m c)))⟩) (run_main m ρ)

end Cert.KernelIdeal.Hand

end
-- ==== Proof.KValueA.lean ====
import proofs.«113402_g36472862278100_cont_sun_c4_736_16_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KValue

open Idealize.ShloMosaic Idealize.ShloMosaic.ValueIdx Cert.KernelIdeal Cert.KernelIdeal.Gen
open scoped BigOperators

-- A product with one contracted axis, accumulated into zero, is the sum over that axis of the products of the two operands' entries.
theorem matmul_at {sl sr so : Shape} {φ₁ φ₂ : FTy} {n : ℕ} (d : DotDims sl sr so) (hr : d.contr.rank = 1)
    (hs : d.contr.size ⟨0, by omega⟩ = n) (l : FVec Ideal sl φ₁) (r : FVec Ideal sr φ₂) (j : so.Idx)
    (li : Fin n → sl.Idx) (ri : Fin n → sr.Idx)
    (hl : ∀ k, d.lhsIdx j ((contrEquiv1 d n hr hs).symm k) = li k)
    (hri : ∀ k, d.rhsIdx j ((contrEquiv1 d n hr hs).symm k) = ri k) :
    matmul d none l r (constant (F := Ideal) so .f32 0x00000000#32) j = ∑ k : Fin n, l (li k) * r (ri k) := by
  show FloatOps.matmul _ none l r _ j = _
  rw [Ideal.matmul_constant_zero_apply, ← Equiv.sum_comp (contrEquiv1 d n hr hs).symm]
  exact Finset.sum_congr rfl fun k _ => by rw [hl, hri]

theorem matmul_plain {m k n : ℕ} {φ₁ φ₂ : FTy} (l : FVec Ideal ⟨2, ![m, k]⟩ φ₁) (r : FVec Ideal ⟨2, ![k, n]⟩ φ₂)
    (p : Fin m) (q : Fin n) :
    matmul (DotDims.plain m k n) none l r (constant (F := Ideal) ⟨2, ![m, n]⟩ .f32 0x00000000#32) (ix2 p q)
      = ∑ i : Fin k, l (ix2 p i) * r (ix2 i q) := by
  refine matmul_at _ rfl rfl l r _ _ _ (fun i => ?_) (fun i => ?_) <;>
    have ci := contrEquiv1_symm_val (DotDims.plain m k n) k rfl rfl i <;> funext ax <;> apply Fin.ext
  · match ax with
    | ⟨0, _⟩ => simp [DotDims.lhsIdx, DotDims.plain]; rfl
    | ⟨1, _⟩ => simp [DotDims.lhsIdx, DotDims.plain]; exact ci
  · match ax with
    | ⟨0, _⟩ => simp [DotDims.rhsIdx, DotDims.plain]; exact ci
    | ⟨1, _⟩ => simp [DotDims.rhsIdx, DotDims.plain]; rfl

theorem matmul_agg512 {φ₁ φ₂ : FTy} (l : FVec Ideal S64x4096 φ₁) (r : FVec Ideal S4096x512 φ₂) (p : Fin 64) (q : Fin 512) :
    matmul dot_S64x4096_S4096x512_S64x512_1_0_0_1_n_n none l r (constant (F := Ideal) S64x512 .f32 0x00000000#32) (ix2 p q)
      = ∑ k : Fin 4096, l (ix2 p k) * r (ix2 k q) := matmul_plain l r p q

theorem matmul_agg1024 {φ₁ φ₂ : FTy} (l : FVec Ideal S64x4096 φ₁) (r : FVec Ideal S4096x1024 φ₂) (p : Fin 64) (q : Fin 1024) :
    matmul dot_S64x4096_S4096x1024_S64x1024_1_0_0_1_n_n none l r (constant (F := Ideal) S64x1024 .f32 0x00000000#32) (ix2 p q)
      = ∑ k : Fin 4096, l (ix2 p k) * r (ix2 k q) := matmul_plain l r p q

theorem matmul_head {φ₁ φ₂ : FTy} (l : FVec Ideal S10x64 φ₁) (r : FVec Ideal S64x1024 φ₂) (p : Fin 10) (q : Fin 1024) :
    matmul dot_S10x64_S64x1024_S10x1024_1_0_0_1_n_n none l r (constant (F := Ideal) S10x1024 .f32 0x00000000#32) (ix2 p q)
      = ∑ k : Fin 64, l (ix2 p k) * r (ix2 k q) := matmul_plain l r p q

theorem matmul_rows_rows {φ₁ φ₂ : FTy} (l : FVec Ideal S64x256 φ₁) (r : FVec Ideal S4096x256 φ₂) (p : Fin 64) (q : Fin 4096) :
    matmul dot_S64x256_S4096x256_S64x4096_1_1_0_0_n_n none l r (constant (F := Ideal) S64x4096 .f32 0x00000000#32) (ix2 p q)
      = ∑ k : Fin 256, l (ix2 p k) * r (ix2 q k) := by
  refine matmul_at _ rfl rfl l r _ _ _ (fun k => ?_) (fun k => ?_) <;>
    have ck := contrEquiv1_symm_val dot_S64x256_S4096x256_S64x4096_1_1_0_0_n_n 256 rfl rfl k <;> funext ax <;> apply Fin.ext
  · match ax with
    | ⟨0, _⟩ => simp [DotDims.lhsIdx, dot_S64x256_S4096x256_S64x4096_1_1_0_0_n_n]; rfl
    | ⟨1, _⟩ => simp [DotDims.lhsIdx, dot_S64x256_S4096x256_S64x4096_1_1_0_0_n_n]; exact ck
  · match ax with
    | ⟨0, _⟩ => simp [DotDims.rhsIdx, dot_S64x256_S4096x256_S64x4096_1_1_0_0_n_n]; rfl
    | ⟨1, _⟩ => simp [DotDims.rhsIdx, dot_S64x256_S4096x256_S64x4096_1_1_0_0_n_n]; exact ck

theorem matmul_cols_cols {φ₁ φ₂ : FTy} (l : FVec Ideal S64x64 φ₁) (r : FVec Ideal S64x4096 φ₂) (p : Fin 64) (q : Fin 4096) :
    matmul dot_S64x64_S64x4096_S64x4096_0_0_1_1_n_n none l r (constant (F := Ideal) S64x4096 .f32 0x00000000#32) (ix2 p q)
      = ∑ k : Fin 64, l (ix2 k p) * r (ix2 k q) := by
  refine matmul_at _ rfl rfl l r _ _ _ (fun k => ?_) (fun k => ?_) <;>
    have ck := contrEquiv1_symm_val dot_S64x64_S64x4096_S64x4096_0_0_1_1_n_n 64 rfl rfl k <;> funext ax <;> apply Fin.ext
  · match ax with
    | ⟨0, _⟩ => simp [DotDims.lhsIdx, dot_S64x64_S64x4096_S64x4096_0_0_1_1_n_n]; exact ck
    | ⟨1, _⟩ => simp [DotDims.lhsIdx, dot_S64x64_S64x4096_S64x4096_0_0_1_1_n_n]; rfl
  · match ax with
    | ⟨0, _⟩ => simp [DotDims.rhsIdx, dot_S64x64_S64x4096_S64x4096_0_0_1_1_n_n]; exact ck
    | ⟨1, _⟩ => simp [DotDims.rhsIdx, dot_S64x64_S64x4096_S64x4096_0_0_1_1_n_n]; rfl

theorem colBroadcast_apply {α : Type} {a b : ℕ} (v : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (q : Fin b) :
    broadcastTo ⟨2, ![a, b]⟩ (shapeCast ⟨2, ![a, 1]⟩ v h1) h2 (ix2 p q) = v (ix1 p) := by
  refine (broadcastTo_apply _ h2 (ix2 p q) (ix2 p (0 : Fin 1)) fun ax => ?_).trans ?_
  · match ax with
    | ⟨0, _⟩ =>
      show p.val = if a = 1 then 0 else p.val
      split
      · have := p.isLt; omega
      · rfl
    | ⟨1, _⟩ => rfl
  · refine shapeCast_apply v h1 _ _ ?_
    rw [Shape.rowMajor_val_two, Shape.rowMajor_val_one]
    show p.val = p.val * 1 + 0
    omega

theorem rowBroadcast_apply {α : Type} {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ v h1) h2 (ix2 p q) = v (ix1 q) := by
  rw [broadcastTo_1b_ab_apply, shapeCast_a_1a_apply]

theorem lift_rows (q : Fin 1024) (c' : Fin 10) :
    reduces_S10x1024_S1024.lift (ix1 q) c' = ix2 c' q := by
  funext ax; apply Fin.ext
  match ax with
  | ⟨0, _⟩ => rfl
  | ⟨1, _⟩ => rfl

theorem ofBits_neg_inf_f32 : Ideal.ofBits .f32 0xFF800000#32 = ⊥ := by
  simp [Ideal.ofBits, Ideal.ieee]

theorem colMax_apply (l : FVec Ideal S10x1024 .f32) (q : Fin 1024) :
    multiReduction .maximumf [0] S1024 l 0xFF800000#32 reduces_S10x1024_S1024 (.inl rfl) rfl (ix1 q)
      = Finset.univ.sup fun c' : Fin 10 => l (ix2 c' q) := by
  refine (Ideal.multiReduction_maximumf_single l 0xFF800000#32 reduces_S10x1024_S1024 (.inl rfl) rfl (ix1 q)).trans ?_
  show (Finset.univ : Finset (Fin 10)).fold max (Ideal.ofBits .f32 0xFF800000#32) (l ∘ reduces_S10x1024_S1024.lift (ix1 q)) = _
  rw [ofBits_neg_inf_f32]
  have e : (l ∘ reduces_S10x1024_S1024.lift (ix1 q)) = fun c' : Fin 10 => l (ix2 c' q) :=
    funext fun c' => congrArg l (lift_rows q c')
  rw [e]
  rfl

theorem colSum_apply (e : FVec Ideal S10x1024 .f32) (q : Fin 1024) :
    multiReduction .add [0] S1024 e 0x00000000#32 reduces_S10x1024_S1024 (.inl rfl) rfl (ix1 q)
      = ∑ c' : Fin 10, e (ix2 c' q) := by
  refine (Ideal.multiReduction_add_single e 0x00000000#32 reduces_S10x1024_S1024 (.inl rfl) rfl (ix1 q)).trans ?_
  exact Finset.sum_congr rfl fun c' _ => congrArg e (lift_rows q c')

end Cert.KValue

end
-- ==== Proof.KValueB.lean ====
import proofs.«113402_g36472862278100_cont_sun_c4_736_16_alg».proof.Proof.KValueA

noncomputable section

namespace Cert.KValue

open Idealize.ShloMosaic Idealize.ShloMosaic.ValueIdx Cert.KernelIdeal Cert.KernelIdeal.Gen
open scoped BigOperators

theorem relu_zero : (Scalar.ofBits (F := Ideal) .f32 0x00000000#32 : Ideal .f32) = 0 :=
  Ideal.ofBits_zero_f32

theorem pay1_apply (w : FVec Ideal S64x256 .f32) (x : FVec Ideal S4096x256 .f32) (f : Fin 64) (i : Fin 4096) :
    k0_pay1 (F := Ideal) w x (ix2 f i) = ∑ k : Fin 256, w (ix2 f k) * x (ix2 i k) := by
  unfold k0_pay1
  simp only [shapeCast_self]
  exact matmul_rows_rows w x f i

theorem pay3_apply (a : FVec Ideal S4096x512 .f32) (j : S4096x512.Idx) : k0_pay3 (F := Ideal) a j = a j := by
  unfold k0_pay3 k0_pay2
  simp only [shapeCast_self]
  rfl

theorem pay4_apply (a : FVec Ideal S4096x512 .f32) (bt : FVec Ideal S64x4096 .bf16) (b : FVec Ideal S64 .f32)
    (f : Fin 64) (q : Fin 512) :
    k0_pay4 (F := Ideal) a bt b (ix2 f q) = max ((∑ i : Fin 4096, bt (ix2 f i) * a (ix2 i q)) + b (ix1 f)) 0 := by
  unfold k0_pay4 k0_pay2
  simp only [shapeCast_self]
  show max (matmul dot_S64x4096_S4096x512_S64x512_1_0_0_1_n_n none bt (truncf .bf16 a bitsLt_bf16_f32)
      (constant (F := Ideal) S64x512 .f32 0x00000000#32) (ix2 f q)
      + broadcastTo S64x512 (shapeCast S64x1 b shapeCasts_S64_S64x1) broadcasts_S64x1_S64x512 (ix2 f q))
      (Scalar.ofBits (F := Ideal) .f32 0x00000000#32) = _
  rw [matmul_agg512, colBroadcast_apply, relu_zero]
  rfl

theorem pay5_apply (w : FVec Ideal S64x64 .f32) (x : FVec Ideal S64x4096 .f32) (g : Fin 64) (j : Fin 4096) :
    k0_pay5 (F := Ideal) w x (ix2 g j) = ∑ k : Fin 64, w (ix2 k g) * x (ix2 k j) := by
  unfold k0_pay5
  simp only [shapeCast_self]
  exact matmul_cols_cols w x g j

theorem pay7_apply (w : FVec Ideal S64x64 .f32) (x : FVec Ideal S64x4096 .f32) (g : Fin 64) (j : Fin 4096) :
    k0_pay7 (F := Ideal) w x (ix2 g j) = ∑ k : Fin 64, w (ix2 k g) * x (ix2 k j) := by
  unfold k0_pay7
  simp only [shapeCast_self]
  exact matmul_cols_cols w x g j

theorem pay6_apply (bt : FVec Ideal S64x4096 .bf16) (a : FVec Ideal S4096x1024 .bf16) (b : FVec Ideal S64 .f32)
    (f : Fin 64) (q : Fin 1024) :
    k0_pay6 (F := Ideal) bt a b (ix2 f q) = max ((∑ i : Fin 4096, bt (ix2 f i) * a (ix2 i q)) + b (ix1 f)) 0 := by
  unfold k0_pay6
  simp only [shapeCast_self]
  show max (matmul dot_S64x4096_S4096x1024_S64x1024_1_0_0_1_n_n none bt a
      (constant (F := Ideal) S64x1024 .f32 0x00000000#32) (ix2 f q)
      + broadcastTo S64x1024 (shapeCast S64x1 b shapeCasts_S64_S64x1) broadcasts_S64x1_S64x1024 (ix2 f q))
      (Scalar.ofBits (F := Ideal) .f32 0x00000000#32) = _
  rw [matmul_agg1024, colBroadcast_apply, relu_zero]

end Cert.KValue

end
-- ==== Proof.KValueC.lean ====
import proofs.«113402_g36472862278100_cont_sun_c4_736_16_alg».proof.Proof.KPure
import proofs.«113402_g36472862278100_cont_sun_c4_736_16_alg».proof.Proof.KValueB
import proofs.«113402_g36472862278100_cont_sun_c4_736_16_alg».proof.Proof.Spec
import Idealize.ShloMosaic.Lib.Tactic

set_option maxRecDepth 16384

noncomputable section

namespace Cert.KValue

open Cert.KernelIdeal Cert.KernelIdeal.Gen Cert.KernelIdeal.Hand
open Idealize.ShloMosaic Idealize.ShloMosaic.TcCoe Idealize.ShloMosaic.ValueIdx Idealize.SL.Sem
open scoped BigOperators

variable (m : (ℓ : Loc nD τ sig) → Buf (Elt Ideal) ℓ)

abbrev argA (c : Dev nD) : Spec.Arr2 4096 4096 := m ((c : Thread nD τ).loc main_arg1)
abbrev argX (c : Dev nD) : Spec.Arr2 4096 256 := m ((c : Thread nD τ).loc main_arg0)
abbrev argW1 (c : Dev nD) : Spec.Arr2 256 64 := m ((c : Thread nD τ).loc main_arg2)
abbrev argW2 (c : Dev nD) : Spec.Arr2 64 64 := m ((c : Thread nD τ).loc main_arg3)
abbrev argW3 (c : Dev nD) : Spec.Arr2 64 64 := m ((c : Thread nD τ).loc main_arg4)
abbrev argB1 (c : Dev nD) : Spec.Arr1 64 := m ((c : Thread nD τ).loc main_arg5)
abbrev argB2 (c : Dev nD) : Spec.Arr1 64 := m ((c : Thread nD τ).loc main_arg6)
abbrev argB3 (c : Dev nD) : Spec.Arr1 64 := m ((c : Thread nD τ).loc main_arg7)
abbrev argLW (c : Dev nD) : Spec.Arr2 192 10 := m ((c : Thread nD τ).loc main_arg8)
abbrev argLb (c : Dev nD) : Spec.Arr1 10 := m ((c : Thread nD τ).loc main_arg9)

theorem index0 : ∀ t : Fin cfg0.N, win0_0.index t 0 = 0 ∧ win0_0.index t 1 = min t.val 7 :=
  (by decide +kernel : ∀ t : Fin grid0.N, _)

theorem iblk0_apply (c : Dev nD) (t : Fin cfg0.N) (i : Fin 4096) (q : Fin 512) (k : Fin 4096)
    (hk : k.val = 512 * min t.val 7 + q.val) :
    (iblk m c 0 t : Vec Ideal S4096x512 .f32) (ix2 i q) = argA m c (ix2 i k) := by
  have hi := index0 t
  unfold iblk
  rw [View.read_apply]
  show V m c main_arg1 _ = _
  rw [V_main_arg1 m c]
  congr 1
  funext a
  apply Fin.ext
  match a with
  | ⟨0, _⟩ => show win0_0.index t 0 * 4096 + 1 * i.val = i.val; rw [hi.1]; omega
  | ⟨1, _⟩ => show win0_0.index t 1 * 512 + 1 * q.val = k.val; rw [hi.2, hk]; omega

theorem index1 : ∀ t : Fin cfg0.N, win0_1.index t 0 = 0 ∧ win0_1.index t 1 = 0 :=
  (by decide +kernel : ∀ t : Fin grid0.N, _)

theorem iblk1_apply (c : Dev nD) (t : Fin cfg0.N) (i : Fin 4096) (k : Fin 256) :
    (iblk m c 1 t : Vec Ideal S4096x256 .f32) (ix2 i k) = argX m c (ix2 i k) := by
  have hi := index1 t
  unfold iblk
  rw [View.read_apply]
  show V m c main_arg0 _ = _
  rw [V_main_arg0 m c]
  congr 1
  funext a
  apply Fin.ext
  match a with
  | ⟨0, _⟩ => show win0_1.index t 0 * 4096 + 1 * i.val = i.val; rw [hi.1]; omega
  | ⟨1, _⟩ => show win0_1.index t 1 * 256 + 1 * k.val = k.val; rw [hi.2]; omega

theorem index2 : ∀ t : Fin cfg0.N, win0_2.index t 0 = 0 ∧ win0_2.index t 1 = 0 :=
  (by decide +kernel : ∀ t : Fin grid0.N, _)

theorem V_main_v0 (c : Dev nD) :
    (V m c main_v0 : S64x256.Idx → EReal) = transpose S64x256 [1, 0] (argW1 m c) transposes_S256x64_S64x256_1_0 := by
  dsimp only [Gen.V, Gen.V0]
  simp only [Gen.hostOps0, List.flatten_cons, List.flatten_nil, List.append_nil, List.cons_append, List.nil_append]
  after_results

theorem iblk2_apply (c : Dev nD) (t : Fin cfg0.N) (f : Fin 64) (k : Fin 256) :
    (iblk m c 2 t : Vec Ideal S64x256 .f32) (ix2 f k) = argW1 m c (ix2 k f) := by
  have hi := index2 t
  unfold iblk
  rw [View.read_apply]
  show (V m c main_v0 : S64x256.Idx → EReal) _ = _
  rw [V_main_v0 m c]
  refine Eq.trans (congrArg _ ?_) (transpose_ix2_apply (argW1 m c) transposes_S256x64_S64x256_1_0 f k)
  funext a
  apply Fin.ext
  match a with
  | ⟨0, _⟩ => show win0_2.index t 0 * 64 + 1 * f.val = f.val; rw [hi.1]; omega
  | ⟨1, _⟩ => show win0_2.index t 1 * 256 + 1 * k.val = k.val; rw [hi.2]; omega

theorem index3 : ∀ t : Fin cfg0.N, win0_3.index t 0 = 0 ∧ win0_3.index t 1 = 0 :=
  (by decide +kernel : ∀ t : Fin grid0.N, _)

theorem iblk3_apply (c : Dev nD) (t : Fin cfg0.N) (k g : Fin 64) :
    (iblk m c 3 t : Vec Ideal S64x64 .f32) (ix2 k g) = argW2 m c (ix2 k g) := by
  have hi := index3 t
  unfold iblk
  rw [View.read_apply]
  show V m c main_arg3 _ = _
  rw [V_main_arg3 m c]
  congr 1
  funext a
  apply Fin.ext
  match a with
  | ⟨0, _⟩ => show win0_3.index t 0 * 64 + 1 * k.val = k.val; rw [hi.1]; omega
  | ⟨1, _⟩ => show win0_3.index t 1 * 64 + 1 * g.val = g.val; rw [hi.2]; omega

theorem index4 : ∀ t : Fin cfg0.N, win0_4.index t 0 = 0 ∧ win0_4.index t 1 = 0 :=
  (by decide +kernel : ∀ t : Fin grid0.N, _)

theorem iblk4_apply (c : Dev nD) (t : Fin cfg0.N) (k g : Fin 64) :
    (iblk m c 4 t : Vec Ideal S64x64 .f32) (ix2 k g) = argW3 m c (ix2 k g) := by
  have hi := index4 t
  unfold iblk
  rw [View.read_apply]
  show V m c main_arg4 _ = _
  rw [V_main_arg4 m c]
  congr 1
  funext a
  apply Fin.ext
  match a with
  | ⟨0, _⟩ => show win0_4.index t 0 * 64 + 1 * k.val = k.val; rw [hi.1]; omega
  | ⟨1, _⟩ => show win0_4.index t 1 * 64 + 1 * g.val = g.val; rw [hi.2]; omega

theorem index5 : ∀ t : Fin cfg0.N, win0_5.index t 0 = 0 :=
  (by decide +kernel : ∀ t : Fin grid0.N, _)

theorem iblk5_apply (c : Dev nD) (t : Fin cfg0.N) (f : Fin 64) :
    (iblk m c 5 t : Vec Ideal S64 .f32) (ix1 f) = argB1 m c (ix1 f) := by
  have hi := index5 t
  unfold iblk
  rw [View.read_apply]
  show V m c main_arg5 _ = _
  rw [V_main_arg5 m c]
  congr 1
  funext a
  apply Fin.ext
  match a with
  | ⟨0, _⟩ => show win0_5.index t 0 * 64 + 1 * f.val = f.val; rw [hi]; omega

theorem index6 : ∀ t : Fin cfg0.N, win0_6.index t 0 = 0 :=
  (by decide +kernel : ∀ t : Fin grid0.N, _)

theorem iblk6_apply (c : Dev nD) (t : Fin cfg0.N) (f : Fin 64) :
    (iblk m c 6 t : Vec Ideal S64 .f32) (ix1 f) = argB2 m c (ix1 f) := by
  have hi := index6 t
  unfold iblk
  rw [View.read_apply]
  show V m c main_arg6 _ = _
  rw [V_main_arg6 m c]
  congr 1
  funext a
  apply Fin.ext
  match a with
  | ⟨0, _⟩ => show win0_6.index t 0 * 64 + 1 * f.val = f.val; rw [hi]; omega

theorem index7 : ∀ t : Fin cfg0.N, win0_7.index t 0 = 0 :=
  (by decide +kernel : ∀ t : Fin grid0.N, _)

theorem iblk7_apply (c : Dev nD) (t : Fin cfg0.N) (f : Fin 64) :
    (iblk m c 7 t : Vec Ideal S64 .f32) (ix1 f) = argB3 m c (ix1 f) := by
  have hi := index7 t
  unfold iblk
  rw [View.read_apply]
  show V m c main_arg7 _ = _
  rw [V_main_arg7 m c]
  congr 1
  funext a
  apply Fin.ext
  match a with
  | ⟨0, _⟩ => show win0_7.index t 0 * 64 + 1 * f.val = f.val; rw [hi]; omega

theorem index8 : ∀ t : Fin cfg0.N, win0_8.index t 0 = 0 ∧ win0_8.index t 1 = 0 :=
  (by decide +kernel : ∀ t : Fin grid0.N, _)

theorem V_main_v1 (c : Dev nD) :
    (V m c main_v1 : S10x192.Idx → EReal) = transpose S10x192 [1, 0] (argLW m c) transposes_S192x10_S10x192_1_0 := by
  dsimp only [Gen.V, Gen.V0]
  simp only [Gen.hostOps0, List.flatten_cons, List.flatten_nil, List.append_nil, List.cons_append, List.nil_append]
  after_results

theorem iblk8_apply (c : Dev nD) (t : Fin cfg0.N) (cls : Fin 10) (r : Fin 192) :
    (iblk m c 8 t : Vec Ideal S10x192 .f32) (ix2 cls r) = argLW m c (ix2 r cls) := by
  have hi := index8 t
  unfold iblk
  rw [View.read_apply]
  show (V m c main_v1 : S10x192.Idx → EReal) _ = _
  rw [V_main_v1 m c]
  refine Eq.trans (congrArg _ ?_) (transpose_ix2_apply (argLW m c) transposes_S192x10_S10x192_1_0 cls r)
  funext a
  apply Fin.ext
  match a with
  | ⟨0, _⟩ => show win0_8.index t 0 * 10 + 1 * cls.val = cls.val; rw [hi.1]; omega
  | ⟨1, _⟩ => show win0_8.index t 1 * 192 + 1 * r.val = r.val; rw [hi.2]; omega

theorem index9 : ∀ t : Fin cfg0.N, win0_9.index t 0 = 0 :=
  (by decide +kernel : ∀ t : Fin grid0.N, _)

theorem iblk9_apply (c : Dev nD) (t : Fin cfg0.N) (cls : Fin 10) :
    (iblk m c 9 t : Vec Ideal S10 .f32) (ix1 cls) = argLb m c (ix1 cls) := by
  have hi := index9 t
  unfold iblk
  rw [View.read_apply]
  show V m c main_arg9 _ = _
  rw [V_main_arg9 m c]
  congr 1
  funext a
  apply Fin.ext
  match a with
  | ⟨0, _⟩ => show win0_9.index t 0 * 10 + 1 * cls.val = cls.val; rw [hi]; omega

end Cert.KValue

end
-- ==== Proof.KValueD.lean ====
import proofs.«113402_g36472862278100_cont_sun_c4_736_16_alg».proof.Proof.KValueC

set_option maxRecDepth 16384

noncomputable section

namespace Cert.KValue

open Cert.KernelIdeal Cert.KernelIdeal.Gen Cert.KernelIdeal.Hand
open Idealize.ShloMosaic Idealize.ShloMosaic.TcCoe Idealize.ShloMosaic.ValueIdx Idealize.SL.Sem
open scoped BigOperators

variable (m : (ℓ : Loc nD τ sig) → Buf (Elt Ideal) ℓ)

theorem b1t_apply (c : Dev nD) (f : Fin 64) (i : Fin 4096) :
    b1t m c (ix2 f i) = Spec.lin1 (argX m c) (argW1 m c) i f := by
  unfold b1t Spec.lin1
  refine (pay1_apply (iblk m c 2 (pt 0 (by decide)) : Vec Ideal S64x256 .f32)
    (iblk m c 1 (pt 0 (by decide)) : Vec Ideal S4096x256 .f32) f i).trans ?_
  refine Finset.sum_congr rfl fun k _ => ?_
  rw [iblk2_apply, iblk1_apply, mul_comm]

theorem abig_apply (c : Dev nD) (i j : Fin 4096) : abig m c (ix2 i j) = argA m c (ix2 i j) := by
  have hj := j.isLt
  have hlt : j.val / 512 < 16 := by omega
  have hm : j.val % 512 < 512 := Nat.mod_lt _ (by decide)
  rw [abig_apply_of m c (ix2 i j) (pt (j.val / 512) hlt) ⟨j.val % 512, hm⟩
    (by show j.val = 512 * (j.val / 512) + j.val % 512; omega)]
  unfold ablk
  refine (pay3_apply (iblk m c 0 _ : Vec Ideal S4096x512 .f32) _).trans ?_
  exact iblk0_apply m c _ i _ j (by show j.val = 512 * min (j.val / 512) 7 + j.val % 512; omega)

theorem cols4096_abig (c : Dev nD) (n : ℕ) (hn : n < 4) (i : Fin 4096) (q : Fin 1024) (j : Fin 4096)
    (hj : j.val = 1024 * n + q.val) : cols4096 (abig m c) n (ix2 i q) = argA m c (ix2 i j) := by
  unfold cols4096
  refine (abig_apply m c _ _).trans ?_
  refine congrArg (argA m c) (funext fun a => Fin.ext ?_)
  match a with
  | ⟨0, _⟩ => rfl
  | ⟨1, _⟩ => show 1024 * (n % 4) + q.val = j.val; omega

theorem x1t_apply (c : Dev nD) (f : Fin 64) (j : Fin 4096) :
    x1t m c (ix2 f j) = Spec.X1 (argA m c) (argX m c) (argW1 m c) (argB1 m c) j f := by
  have hj := j.isLt
  have hlt : j.val / 512 < 16 := by omega
  have hm : j.val % 512 < 512 := Nat.mod_lt _ (by decide)
  rw [x1t_apply_of m c (ix2 f j) (pt (j.val / 512) hlt) ⟨j.val % 512, hm⟩
    (by show j.val = 512 * (j.val / 512) + j.val % 512; omega)]
  unfold x1blk
  refine (pay4_apply (iblk m c 0 _ : Vec Ideal S4096x512 .f32) (b1t m c) (iblk m c 5 _ : Vec Ideal S64 .f32) f _).trans ?_
  unfold Spec.X1 Spec.agg
  rw [iblk5_apply]
  refine congrArg (fun s => max (s + argB1 m c (ix1 f)) 0) ?_
  refine Finset.sum_congr rfl fun i _ => ?_
  rw [b1t_apply, iblk0_apply m c _ i _ j (by show j.val = 512 * min (j.val / 512) 7 + j.val % 512; omega)]

theorem b2t_apply (c : Dev nD) (g : Fin 64) (i : Fin 4096) :
    b2t m c (ix2 g i) = Spec.lin (Spec.X1 (argA m c) (argX m c) (argW1 m c) (argB1 m c)) (argW2 m c) i g := by
  unfold b2t Spec.lin
  refine (pay5_apply (iblk m c 3 (pt 7 (by decide)) : Vec Ideal S64x64 .f32) (x1t m c) g i).trans ?_
  refine Finset.sum_congr rfl fun k _ => ?_
  rw [iblk3_apply, x1t_apply, mul_comm]

theorem x2t_apply (c : Dev nD) (f : Fin 64) (j : Fin 4096) :
    x2t m c (ix2 f j)
      = Spec.X2 (argA m c) (argX m c) (argW1 m c) (argW2 m c) (argB1 m c) (argB2 m c) j f := by
  have hj := j.isLt
  have hlt : 8 + j.val / 1024 < 16 := by omega
  have hm : j.val % 1024 < 1024 := Nat.mod_lt _ (by decide)
  rw [x2t_apply_of m c (ix2 f j) (pt (8 + j.val / 1024) hlt) ⟨j.val % 1024, hm⟩
    (by show 8 ≤ 8 + j.val / 1024; omega)
    (by show j.val = 1024 * (8 + j.val / 1024 - 8) + j.val % 1024; omega)]
  unfold x2blk
  refine (pay6_apply (b2t m c) (cols4096 (abig m c) _) (iblk m c 6 _ : Vec Ideal S64 .f32) f _).trans ?_
  unfold Spec.X2 Spec.agg
  rw [iblk6_apply]
  refine congrArg (fun s => max (s + argB2 m c (ix1 f)) 0) ?_
  refine Finset.sum_congr rfl fun i _ => ?_
  rw [b2t_apply, cols4096_abig m c _ (by show 8 + j.val / 1024 - 8 < 4; omega) i _ j
    (by show j.val = 1024 * (8 + j.val / 1024 - 8) + j.val % 1024; omega)]

theorem b3t_apply (c : Dev nD) (g : Fin 64) (i : Fin 4096) :
    b3t m c (ix2 g i)
      = Spec.lin (Spec.X2 (argA m c) (argX m c) (argW1 m c) (argW2 m c) (argB1 m c) (argB2 m c)) (argW3 m c) i g := by
  unfold b3t Spec.lin
  refine (pay7_apply (iblk m c 4 (pt 11 (by decide)) : Vec Ideal S64x64 .f32) (x2t m c) g i).trans ?_
  refine Finset.sum_congr rfl fun k _ => ?_
  rw [iblk4_apply, x2t_apply, mul_comm]

-- Column block n of a 64 × 4096 array, read at (f, q), is the array at column 1024 · n + q.
theorem cols64_apply (X : Vec Ideal S64x4096 .f32) (S : Fin 4096 → Fin 64 → EReal) (hX : ∀ f j, X (ix2 f j) = S j f)
    (n : ℕ) (hn : n < 4) (f : Fin 64) (q : Fin 1024) (j : Fin 4096) (hj : j.val = 1024 * n + q.val) :
    cols64 X n (ix2 f q) = S j f := by
  unfold cols64
  refine Eq.trans (congrArg X (funext fun a => Fin.ext ?_)) (hX f j)
  match a with
  | ⟨0, _⟩ => rfl
  | ⟨1, _⟩ => show 1024 * (n % 4) + q.val = j.val; omega

end Cert.KValue

end
-- ==== Proof.KSoftmax.lean ====
import proofs.«113402_g36472862278100_cont_sun_c4_736_16_alg».proof.Proof.Gen.KernelIdeal.Skeleton
import proofs.«113402_g36472862278100_cont_sun_c4_736_16_alg».proof.Proof.Spec
import proofs.«113402_g36472862278100_cont_sun_c4_736_16_alg».proof.Proof.KValueA
import Idealize.ShloMosaic.PureOps.Ideal.Laws
import Idealize.ShloMosaic.Lib.ValueLayout

noncomputable section

namespace Cert.KernelIdeal.Hand

open Cert.KernelIdeal Cert.KernelIdeal.Gen
open Idealize.ShloMosaic Idealize.ShloMosaic.ValueIdx
open scoped BigOperators

variable {F : FTy → Type} [FloatOps F]

def headLogits (v23 : Vec F S64x4096 .bf16) (v25 : Vec F S4096x1024 .bf16) (v27 : Vec F S64 .f32) (v32 v34 : Vec F S64x1024 .f32)
    (v35 : Vec F S10x192 .f32) (v45 : Vec F S10 .f32) : FVec F S10x1024 .f32 :=
  addf (addf (addf (matmul dot_S10x64_S64x1024_S10x1024_1_0_0_1_n_n none (extractStridedSlice S10x64 ![0, 0] (shapeCast S10x192 v35 shapeCasts_S10x192_S10x192) slices_S10x192_o0_0_S10x64) v32 (constant S10x1024 .f32 0x00000000#32))
        (matmul dot_S10x64_S64x1024_S10x1024_1_0_0_1_n_n none (extractStridedSlice S10x64 ![0, 64] (shapeCast S10x192 v35 shapeCasts_S10x192_S10x192) slices_S10x192_o0_64_S10x64) v34 (constant S10x1024 .f32 0x00000000#32)))
      (matmul dot_S10x64_S64x1024_S10x1024_1_0_0_1_n_n none (extractStridedSlice S10x64 ![0, 128] (shapeCast S10x192 v35 shapeCasts_S10x192_S10x192) slices_S10x192_o0_128_S10x64)
        (addf (matmul dot_S64x4096_S4096x1024_S64x1024_1_0_0_1_n_n none v23 v25 (constant S64x1024 .f32 0x00000000#32))
          (broadcastTo S64x1024 (shapeCast S64x1 v27 shapeCasts_S64_S64x1) broadcasts_S64x1_S64x1024)) (constant S10x1024 .f32 0x00000000#32)))
    (broadcastTo S10x1024 (shapeCast S10x1 v45 shapeCasts_S10_S10x1) broadcasts_S10x1_S10x1024)

def lsmTail (v48 : FVec F S10x1024 .f32) : FVec F S10x1024 .f32 :=
  have v52 : FVec F S10x1024 .f32 :=
    subf v48 (broadcastTo S10x1024 (shapeCast S1x1024
      (multiReduction .maximumf [0] S1024 v48 0xFF800000#32 reduces_S10x1024_S1024 (.inl rfl) rfl) shapeCasts_S1024_S1x1024)
      broadcasts_S1x1024_S10x1024)
  subf v52 (broadcastTo S10x1024 (log (shapeCast S1x1024
    (multiReduction .add [0] S1024 (exp v52) 0x00000000#32 reduces_S10x1024_S1024 (.inl rfl) rfl) shapeCasts_S1024_S1x1024))
    broadcasts_S1x1024_S10x1024)

theorem k0_pay8_eq_lsmTail (v23 : Vec F S64x4096 .bf16) (v25 : Vec F S4096x1024 .bf16) (v27 : Vec F S64 .f32) (v32 v34 : Vec F S64x1024 .f32) (v35 : Vec F S10x192 .f32) (v45 : Vec F S10 .f32) :
    k0_pay8 v23 v25 v27 v32 v34 v35 v45 = lsmTail (headLogits v23 v25 v27 v32 v34 v35 v45) := rfl

theorem exp_at {s : Shape} (x : FVec Ideal s .f32) (i : s.Idx) : exp x i = Ideal.exp (x i) := rfl

theorem log_at {s : Shape} (x : FVec Ideal s .f32) (i : s.Idx) : log x i = Ideal.log (x i) := rfl

theorem lsmTail_apply (v48 : FVec Ideal S10x1024 .f32) (cls : Fin 10) (q : Fin 1024) :
    lsmTail (F := Ideal) v48 (ix2 cls q) = Cert.Spec.logSoftmaxRow (fun c => v48 (ix2 c q)) cls := by
  unfold lsmTail Cert.Spec.logSoftmaxRow
  simp only [subf_apply, log_at, Cert.KValue.rowBroadcast_apply, broadcastTo_1b_ab_apply, shapeCast_a_1a_apply]
  rw [Cert.KValue.colSum_apply _ q]
  simp only [subf_apply, exp_at, Cert.KValue.rowBroadcast_apply]
  rw [Cert.KValue.colMax_apply v48 q]

end Cert.KernelIdeal.Hand

end
-- ==== Proof.KHead.lean ====
import proofs.«113402_g36472862278100_cont_sun_c4_736_16_alg».proof.Proof.KSoftmax
import proofs.«113402_g36472862278100_cont_sun_c4_736_16_alg».proof.Proof.KValueA
import Idealize.ShloMosaic.Lib.ValueLayout
import Idealize.ShloMosaic.Lib.Pipeline.Value

noncomputable section

namespace Cert.KernelIdeal.Hand

open Cert.KernelIdeal Cert.KernelIdeal.Gen
open Idealize.ShloMosaic Idealize.ShloMosaic.ValueIdx
open scoped BigOperators

theorem headSlice_apply (o : ℕ) (v35 : FVec Ideal S10x192 .f32) (h : S10x192.Slices ![0, o] S10x64) (cls : Fin 10)
    (f : Fin 64) (k : Fin 192) (hk : k.val = o + f.val) :
    extractStridedSlice S10x64 ![0, o] (shapeCast S10x192 v35 shapeCasts_S10x192_S10x192) h (ix2 cls f) = v35 (ix2 cls k) := by
  rw [shapeCast_self]
  exact slice2_axis1_apply o v35 h cls f k hk

theorem headSlice0 (v35 : FVec Ideal S10x192 .f32) (cls : Fin 10) (f : Fin 64) :
    extractStridedSlice S10x64 ![0, 0] (shapeCast S10x192 v35 shapeCasts_S10x192_S10x192) slices_S10x192_o0_0_S10x64 (ix2 cls f)
      = v35 (ix2 cls ⟨f.val, by omega⟩) :=
  headSlice_apply 0 v35 _ cls f _ (Nat.zero_add _).symm

theorem headSlice64 (v35 : FVec Ideal S10x192 .f32) (cls : Fin 10) (f : Fin 64) :
    extractStridedSlice S10x64 ![0, 64] (shapeCast S10x192 v35 shapeCasts_S10x192_S10x192) slices_S10x192_o0_64_S10x64 (ix2 cls f)
      = v35 (ix2 cls ⟨64 + f.val, by omega⟩) :=
  headSlice_apply 64 v35 _ cls f _ rfl

theorem headSlice128 (v35 : FVec Ideal S10x192 .f32) (cls : Fin 10) (f : Fin 64) :
    extractStridedSlice S10x64 ![0, 128] (shapeCast S10x192 v35 shapeCasts_S10x192_S10x192) slices_S10x192_o0_128_S10x64 (ix2 cls f)
      = v35 (ix2 cls ⟨128 + f.val, by omega⟩) :=
  headSlice_apply 128 v35 _ cls f _ rfl

theorem headLogits_apply (v23 : FVec Ideal S64x4096 .bf16) (v25 : FVec Ideal S4096x1024 .bf16) (v27 : FVec Ideal S64 .f32)
    (v32 v34 : FVec Ideal S64x1024 .f32) (v35 : FVec Ideal S10x192 .f32) (v45 : FVec Ideal S10 .f32) (cls : Fin 10) (q : Fin 1024) :
    headLogits (F := Ideal) v23 v25 v27 v32 v34 v35 v45 (ix2 cls q)
      = ((∑ f : Fin 64, v35 (ix2 cls ⟨f.val, by omega⟩) * v32 (ix2 f q))
          + (∑ f : Fin 64, v35 (ix2 cls ⟨64 + f.val, by omega⟩) * v34 (ix2 f q))
          + (∑ f : Fin 64, v35 (ix2 cls ⟨128 + f.val, by omega⟩)
              * ((∑ i : Fin 4096, v23 (ix2 f i) * v25 (ix2 i q)) + v27 (ix1 f))))
        + v45 (ix1 cls) := by
  unfold headLogits
  simp only [addf_apply, Cert.KValue.matmul_head, Cert.KValue.matmul_agg1024, Cert.KValue.colBroadcast_apply,
    headSlice0, headSlice64, headSlice128]

end Cert.KernelIdeal.Hand

end
-- ==== Proof.KValueE.lean ====
import proofs.«113402_g36472862278100_cont_sun_c4_736_16_alg».proof.Proof.KValueD
import proofs.«113402_g36472862278100_cont_sun_c4_736_16_alg».proof.Proof.KHead

set_option maxRecDepth 16384

noncomputable section

namespace Cert.KValue

open Cert.KernelIdeal Cert.KernelIdeal.Gen Cert.KernelIdeal.Hand
open Idealize.ShloMosaic Idealize.ShloMosaic.TcCoe Idealize.ShloMosaic.ValueIdx Idealize.SL.Sem
open scoped BigOperators

variable (m : (ℓ : Loc nD τ sig) → Buf (Elt Ideal) ℓ)

abbrev specOut (c : Dev nD) : Spec.Arr2 4096 10 :=
  Spec.out (argA m c) (argX m c) (argW1 m c) (argW2 m c) (argW3 m c) (argB1 m c) (argB2 m c) (argB3 m c) (argLW m c) (argLb m c)

theorem x3_apply (c : Dev nD) (t : Fin cfg0.N) (ht : 12 ≤ t.val) (f : Fin 64) (q : Fin 1024) (j : Fin 4096)
    (hj : j.val = 1024 * (t.val - 12) + q.val) :
    (∑ i : Fin 4096, b3t m c (ix2 f i) * cols4096 (abig m c) (t.val - 12) (ix2 i q))
        + (iblk m c 7 t : Vec Ideal S64 .f32) (ix1 f)
      = Spec.X3 (argA m c) (argX m c) (argW1 m c) (argW2 m c) (argW3 m c) (argB1 m c) (argB2 m c) (argB3 m c) j f := by
  have ht16 := lt16 t
  unfold Spec.X3 Spec.agg
  rw [iblk7_apply]
  refine congrArg (· + argB3 m c (ix1 f)) ?_
  exact Finset.sum_congr rfl fun i _ => by
    rw [b3t_apply, cols4096_abig m c _ (by omega) i q j hj]

theorem outblk_apply (c : Dev nD) (t : Fin cfg0.N) (ht : 12 ≤ t.val) (cls : Fin 10) (q : Fin 1024) (j : Fin 4096)
    (hj : j.val = 1024 * (t.val - 12) + q.val) :
    outblk m c t (ix2 cls q)
      = Spec.logSoftmaxRow (Spec.logits (argA m c) (argX m c) (argW1 m c) (argW2 m c) (argW3 m c) (argB1 m c)
          (argB2 m c) (argB3 m c) (argLW m c) (argLb m c) j) cls := by
  have ht16 := lt16 t
  have hn : t.val - 12 < 4 := by omega
  unfold outblk
  rw [k0_pay8_eq_lsmTail]
  refine (lsmTail_apply _ cls q).trans ?_
  refine congrArg (fun l => Spec.logSoftmaxRow l cls) (funext fun c' => ?_)
  refine (headLogits_apply (b3t m c) (cols4096 (abig m c) (t.val - 12)) (iblk m c 7 t : Vec Ideal S64 .f32)
    (cols64 (x1t m c) (t.val - 12)) (cols64 (x2t m c) (t.val - 12)) (iblk m c 8 t : Vec Ideal S10x192 .f32)
    (iblk m c 9 t : Vec Ideal S10 .f32) c' q).trans ?_
  unfold Spec.logits
  rw [iblk9_apply]
  refine congrArg (· + argLb m c (ix1 c')) ?_
  refine congrArg₂ (· + ·) (congrArg₂ (· + ·) ?_ ?_) ?_
  · exact Finset.sum_congr rfl fun f _ => by
      rw [iblk8_apply, cols64_apply _ _ (x1t_apply m c) _ hn f q j hj, mul_comm]
  · exact Finset.sum_congr rfl fun f _ => by
      rw [iblk8_apply, cols64_apply _ _ (x2t_apply m c) _ hn f q j hj, mul_comm]
  · exact Finset.sum_congr rfl fun f _ => by
      rw [x3_apply m c t ht f q j hj, iblk8_apply, mul_comm]

theorem kernel_value (c : Dev nD) :
    transpose S4096x10 [1, 0]
        (fun idx : S10x4096.Idx => outblk m c (pt (12 + (idx 1).val / 1024) (by have := idx2_lt1 idx; omega))
          (ix2 (idx 0) ⟨(idx 1).val % 1024, Nat.mod_lt _ (by decide)⟩))
        transposes_S10x4096_S4096x10_1_0
      = specOut m c := by
  funext idx
  obtain ⟨j, cls, rfl⟩ : ∃ (j : Fin 4096) (cls : Fin 10), idx = ix2 j cls := ⟨idx 0, idx 1, eq_ix2 idx⟩
  rw [transpose_ix2_apply]
  have hj := j.isLt
  exact outblk_apply m c (pt (12 + j.val / 1024) (by omega)) (by show 12 ≤ 12 + j.val / 1024; omega) cls
    ⟨j.val % 1024, Nat.mod_lt _ (by decide)⟩ j
    (by show j.val = 1024 * (12 + j.val / 1024 - 12) + j.val % 1024; omega)

end Cert.KValue

end
-- ==== Proof.KValueF.lean ====
import proofs.«113402_g36472862278100_cont_sun_c4_736_16_alg».proof.Proof.KValueE
import proofs.«113402_g36472862278100_cont_sun_c4_736_16_alg».proof.Proof.KDat

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

theorem kernel_eq_spec (c : Dev nD) :
    kerOut (F := Ideal) m c
      = Cert.Spec.out (m ((c.tc : Thread nD τ).loc main_arg1)) (m ((c.tc : Thread nD τ).loc main_arg0))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  unfold kerOut finalArr
  exact Cert.KValue.kernel_value m c

end Cert.KernelIdeal.Hand

end
-- ==== Proof.RefOps.lean ====
import proofs.«113402_g36472862278100_cont_sun_c4_736_16_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev opsFA : List (HloOp τ sig (Elt F)) :=
  [ nullary main_cst (constant S_ .f32 0x00000000#32),
    unary main_cst main_v0 (broadcastInDim S4096x4096 ![] bcast_S_S4096x4096),
    binary main_arg1 main_v0 main_v1 (cmpf .une),
    TRef.reshape (.of main_v1 : TRef sig ⟨S4096x4096, .i1⟩) main_call0.v0 rfl shapeCasts_S4096x4096_S16777216,
    TRef.unary main_call0.v0 main_call0.v1 (extui 32 · natLt_1_32),
    TRef.nullary main_call0.call0.c (constantI S_ 32 0#32),
    TRef.unary main_call0.call0.c main_call0.call0.v0 (broadcastInDim S_ ![] bcast_S_S_),
    TRef.binary main_call0.v1 main_call0.call0.v0 main_call0.call0.v1 (fun x v => Host.reduceWindow IntOp.addi ![16777216] ![1] ![16777215] ![0] x v reduceWindows_S16777216_S16777216_w16777216s1p16777215_0 h_S_) ]

abbrev opsFB : List (HloOp τ sig (Elt F)) :=
  [ nullary main_c (constantI S_ 32 0#32),
    unary main_c main_v3 (broadcastInDim S131072 ![] bcast_S_S131072),
    nullary main_c_0 (constantI S_ 32 0#32),
    TRef.unary (.of main_c_0 : TRef sig ⟨S_, .i32⟩) main_call1.v0 id,
    TRef.unary main_call1.v0 main_call1.v1 (broadcastInDim S16777216 ![] bcast_S_S16777216),
    TRef.binary main_call1.v1 (.of main_v2 : TRef sig ⟨S16777216, .i32⟩) main_call1.v2 maxsi ]

abbrev opsFC : List (HloOp τ sig (Elt F)) :=
  [ nullary main_c_1 (constantI S_ 32 0#32),
    unary main_c_1 main_v5 (broadcastInDim S16777216 ![] bcast_S_S16777216),
    binary main_v4 main_v5 main_v6 (cmpi .slt),
    nullary main_c_2 (constantI S_ 32 131072#32),
    unary main_c_2 main_v7 (broadcastInDim S16777216 ![] bcast_S_S16777216),
    binary main_v4 main_v7 main_v8 addi,
    ternary main_v6 main_v8 main_v4 main_v9 select,
    unary main_v9 main_v10 (broadcastInDim S16777216x1 ![0] bcast_S16777216_S16777216x1_0) ]

abbrev opsFD : List (HloOp τ sig (Elt F)) :=
  [ nullary main_c_3 (constantI S_ 32 1#32),
    unary main_c_3 main_v11 (broadcastInDim S16777216 ![] bcast_S_S16777216),
    ternary main_v3 main_v10 main_v11 main_v12 (fun x i u => Host.scatter scatter_S131072_S16777216x1_S16777216_n_0_0_1 IntOp.addi x i u) ]

abbrev opsFE : List (HloOp τ sig (Elt F)) :=
  [ TRef.nullary main_call2.call0.c (constantI S_ 32 0#32),
    TRef.unary main_call2.call0.c main_call2.call0.v0 (broadcastInDim S_ ![] bcast_S_S_),
    TRef.binary (.of main_v12 : TRef sig ⟨S131072, .i32⟩) main_call2.call0.v0 main_call2.call0.v1 (fun x v => Host.reduceWindow IntOp.addi ![131072] ![1] ![131071] ![0] x v reduceWindows_S131072_S131072_w131072s1p131071_0 h_S_) ]

abbrev opsFlat : List (HloOp τ sig (Elt F)) := opsFA ++ (opsFB ++ (opsFC ++ (opsFD ++ opsFE)))

abbrev opsFloorDiv (x : TRef sig ⟨S131072, .i32⟩) (c : TRef sig ⟨S_, .i32⟩) (k : BitVec 32) (φ : fn_floor_divide.Bufs) : List (HloOp τ sig (Elt F)) :=
  [ TRef.nullary c (constantI S_ 32 k),
    TRef.unary c φ.v0 (broadcastInDim S131072 ![] bcast_S_S131072),
    TRef.binary x φ.v0 φ.v1 Host.divsi,
    TRef.unary x φ.v2 signi,
    TRef.unary c φ.v3 signi,
    TRef.unary φ.v3 φ.v4 (broadcastInDim S131072 ![] bcast_S_S131072),
    TRef.binary φ.v2 φ.v4 φ.v5 (cmpi .ne),
    TRef.unary c φ.v6 (broadcastInDim S131072 ![] bcast_S_S131072),
    TRef.binary x φ.v6 φ.v7 Host.remsi,
    TRef.nullary φ.c (constantI S_ 32 0#32),
    TRef.unary φ.c φ.v8 (broadcastInDim S131072 ![] bcast_S_S131072),
    TRef.binary φ.v7 φ.v8 φ.v9 (cmpi .ne),
    TRef.binary φ.v5 φ.v9 φ.v10 andi,
    TRef.nullary φ.c_0 (constantI S_ 32 1#32),
    TRef.unary φ.c_0 φ.v11 (broadcastInDim S131072 ![] bcast_S_S131072),
    TRef.binary φ.v1 φ.v11 φ.v12 subi,
    TRef.ternary φ.v10 φ.v12 φ.v1 φ.call0.v0 select ]

abbrev opsRow : List (HloOp τ sig (Elt F)) := opsFloorDiv (.of main_v13) (.of main_c_4) 4096#32 main_call3

abbrev opsRem (x : TRef sig ⟨S131072, .i32⟩) (c : TRef sig ⟨S_, .i32⟩) (φ : fn_remainder.Bufs) : List (HloOp τ sig (Elt F)) :=
  [ TRef.nullary c (constantI S_ 32 4096#32),
    TRef.unary c φ.v0 id,
    TRef.nullary φ.c (constantI S_ 32 0#32),
    TRef.binary φ.v0 φ.c φ.v1 (cmpi .eq),
    TRef.nullary φ.c_0 (constantI S_ 32 1#32),
    TRef.ternary φ.v1 φ.c_0 φ.v0 φ.call0.v0 select,
    TRef.unary φ.call0.v0 φ.v3 (broadcastInDim S131072 ![] bcast_S_S131072),
    TRef.binary x φ.v3 φ.v4 Host.remsi,
    TRef.nullary φ.c_1 (constantI S_ 32 0#32),
    TRef.unary φ.c_1 φ.v5 (broadcastInDim S131072 ![] bcast_S_S131072),
    TRef.binary φ.v4 φ.v5 φ.v6 (cmpi .ne),
    TRef.nullary φ.c_2 (constantI S_ 32 0#32),
    TRef.unary φ.c_2 φ.v7 (broadcastInDim S131072 ![] bcast_S_S131072),
    TRef.binary φ.v4 φ.v7 φ.v8 (cmpi .slt),
    TRef.nullary φ.c_3 (constantI S_ 32 0#32),
    TRef.binary φ.call0.v0 φ.c_3 φ.v9 (cmpi .slt),
    TRef.unary φ.v9 φ.v10 (broadcastInDim S131072 ![] bcast_S_S131072),
    TRef.binary φ.v8 φ.v10 φ.v11 (cmpi .ne),
    TRef.binary φ.v11 φ.v6 φ.v12 andi,
    TRef.unary φ.call0.v0 φ.v13 (broadcastInDim S131072 ![] bcast_S_S131072),
    TRef.binary φ.v4 φ.v13 φ.v14 addi,
    TRef.ternary φ.v12 φ.v14 φ.v4 φ.v15 select ]

abbrev opsRowMod : List (HloOp τ sig (Elt F)) := opsRem (.of main_v14) (.of main_c_5) main_call4

abbrev opsCol1 : List (HloOp τ sig (Elt F)) := opsFloorDiv (.of main_v13) (.of main_c_6) 1#32 main_call5

abbrev opsColMod : List (HloOp τ sig (Elt F)) := opsRem (.of main_v16) (.of main_c_7) main_call6

abbrev opsPast : List (HloOp τ sig (Elt F)) :=
  [ nullary main_v18 (iotaInDim S131072 32 0),
    unary main_v1 main_v19 (extui 32 · natLt_1_32),
    nullary main_c_8 (constantI S_ 32 0#32),
    binary main_v19 main_c_8 main_v20 (fun x v => Host.reduce IntOp.addi x v reducesTo_S4096x4096_S_d0_1 h_S_),
    unary main_v20 main_v21 (broadcastInDim S131072 ![] bcast_S_S131072),
    binary main_v18 main_v21 main_v22 (cmpi .sge) ]

abbrev opsFill (c : TRef sig ⟨S_, .i32⟩) (x : TRef sig ⟨S131072, .i32⟩) (φ : fn_where_4.Bufs) : List (HloOp τ sig (Elt F)) :=
  [ TRef.nullary c (constantI S_ 32 4096#32),
    TRef.unary c φ.v0 id,
    TRef.unary φ.v0 φ.v1 (broadcastInDim S131072 ![] bcast_S_S131072),
    TRef.ternary (.of main_v22 : TRef sig ⟨S131072, .i1⟩) φ.v1 x φ.v2 select ]

abbrev opsSrc : List (HloOp τ sig (Elt F)) := opsFill (.of main_c_9) (.of main_v15) main_call7

abbrev opsDst : List (HloOp τ sig (Elt F)) := opsFill (.of main_c_10) (.of main_v17) main_call8

abbrev opsL1 : List (HloOp τ sig (Elt F)) :=
  [ binary main_arg0 main_arg2 main_v25 (fun l r => Host.dotGeneral dot_S4096x256_S256x64_S4096x64_1_0_0_1_n_n none l r),
    nullary main_c_11 (constantI S_ 32 0#32),
    unary main_c_11 main_v26 (broadcastInDim S131072 ![] bcast_S_S131072),
    binary main_v23 main_v26 main_v27 (cmpi .slt),
    nullary main_c_12 (constantI S_ 32 4096#32),
    unary main_c_12 main_v28 (broadcastInDim S131072 ![] bcast_S_S131072),
    binary main_v23 main_v28 main_v29 addi,
    ternary main_v27 main_v29 main_v23 main_v30 select,
    unary main_v30 main_v31 (broadcastInDim S131072x1 ![0] bcast_S131072_S131072x1_0),
    binary main_v25 main_v31 main_v32 (fun x i => Host.gather gather_S4096x64_S131072x1_S131072x64_1_0_n_n_0_1_164 x i),
    nullary main_cst_13 (constant S_ .f32 0x00000000#32),
    unary main_cst_13 main_v33 (broadcastInDim S4096x64 ![] bcast_S_S4096x64),
    unary main_v24 main_v34 (broadcastInDim S131072x1 ![0] bcast_S131072_S131072x1_0),
    ternary main_v33 main_v34 main_v32 main_v35 (fun x i u => Host.scatterAdd scatter_S4096x64_S131072x1_S131072x64_1_0_0_1 x i u),
    unary main_arg5 main_v36 (broadcastInDim S1x64 ![1] bcast_S64_S1x64_1),
    unary main_v36 main_v37 (broadcastInDim S4096x64 ![0, 1] bcast_S1x64_S4096x64_0_1),
    binary main_v35 main_v37 main_v38 addf,
    TRef.nullary main_call9.cst (constant S_ .f32 0x00000000#32),
    TRef.unary main_call9.cst main_call9.v0 (broadcastInDim S4096x64 ![] bcast_S_S4096x64),
    TRef.binary (.of main_v38 : TRef sig ⟨S4096x64, .f32⟩) main_call9.v0 main_call9.v1 maximumf ]

abbrev opsL2a : List (HloOp τ sig (Elt F)) :=
  [ binary main_v39 main_arg3 main_v40 (fun l r => Host.dotGeneral dot_S4096x64_S64x64_S4096x64_1_0_0_1_n_n none l r),
    nullary main_c_14 (constantI S_ 32 0#32),
    unary main_c_14 main_v41 (broadcastInDim S131072 ![] bcast_S_S131072),
    binary main_v23 main_v41 main_v42 (cmpi .slt) ]

abbrev opsL2b : List (HloOp τ sig (Elt F)) :=
  [ nullary main_c_15 (constantI S_ 32 4096#32),
    unary main_c_15 main_v43 (broadcastInDim S131072 ![] bcast_S_S131072),
    binary main_v23 main_v43 main_v44 addi,
    ternary main_v42 main_v44 main_v23 main_v45 select,
    unary main_v45 main_v46 (broadcastInDim S131072x1 ![0] bcast_S131072_S131072x1_0),
    binary main_v40 main_v46 main_v47 (fun x i => Host.gather gather_S4096x64_S131072x1_S131072x64_1_0_n_n_0_1_164 x i),
    nullary main_cst_16 (constant S_ .f32 0x00000000#32),
    unary main_cst_16 main_v48 (broadcastInDim S4096x64 ![] bcast_S_S4096x64),
    unary main_v24 main_v49 (broadcastInDim S131072x1 ![0] bcast_S131072_S131072x1_0),
    ternary main_v48 main_v49 main_v47 main_v50 (fun x i u => Host.scatterAdd scatter_S4096x64_S131072x1_S131072x64_1_0_0_1 x i u),
    unary main_arg6 main_v51 (broadcastInDim S1x64 ![1] bcast_S64_S1x64_1),
    unary main_v51 main_v52 (broadcastInDim S4096x64 ![0, 1] bcast_S1x64_S4096x64_0_1),
    binary main_v50 main_v52 main_v53 addf,
    TRef.nullary main_call10.cst (constant S_ .f32 0x00000000#32),
    TRef.unary main_call10.cst main_call10.v0 (broadcastInDim S4096x64 ![] bcast_S_S4096x64),
    TRef.binary (.of main_v53 : TRef sig ⟨S4096x64, .f32⟩) main_call10.v0 main_call10.v1 maximumf ]

abbrev opsL3 : List (HloOp τ sig (Elt F)) :=
  [ binary main_v54 main_arg4 main_v55 (fun l r => Host.dotGeneral dot_S4096x64_S64x64_S4096x64_1_0_0_1_n_n none l r),
    nullary main_c_17 (constantI S_ 32 0#32),
    unary main_c_17 main_v56 (broadcastInDim S131072 ![] bcast_S_S131072),
    binary main_v23 main_v56 main_v57 (cmpi .slt),
    nullary main_c_18 (constantI S_ 32 4096#32),
    unary main_c_18 main_v58 (broadcastInDim S131072 ![] bcast_S_S131072),
    binary main_v23 main_v58 main_v59 addi,
    ternary main_v57 main_v59 main_v23 main_v60 select,
    unary main_v60 main_v61 (broadcastInDim S131072x1 ![0] bcast_S131072_S131072x1_0),
    binary main_v55 main_v61 main_v62 (fun x i => Host.gather gather_S4096x64_S131072x1_S131072x64_1_0_n_n_0_1_164 x i),
    nullary main_cst_19 (constant S_ .f32 0x00000000#32),
    unary main_cst_19 main_v63 (broadcastInDim S4096x64 ![] bcast_S_S4096x64),
    unary main_v24 main_v64 (broadcastInDim S131072x1 ![0] bcast_S131072_S131072x1_0),
    ternary main_v63 main_v64 main_v62 main_v65 (fun x i u => Host.scatterAdd scatter_S4096x64_S131072x1_S131072x64_1_0_0_1 x i u),
    unary main_arg7 main_v66 (broadcastInDim S1x64 ![1] bcast_S64_S1x64_1),
    unary main_v66 main_v67 (broadcastInDim S4096x64 ![0, 1] bcast_S1x64_S4096x64_0_1),
    binary main_v65 main_v67 main_v68 addf ]

abbrev opsHead : List (HloOp τ sig (Elt F)) :=
  [ nary ![main_v39, main_v54, main_v68] main_v69 (fun u => concatenate S4096x192 1 [⟨S4096x64, u 0⟩, ⟨S4096x64, u 1⟩, ⟨S4096x64, u 2⟩] concatenates_S4096x64_S4096x64_S4096x64_S4096x192_d1),
    binary main_v69 main_arg8 main_v70 (fun l r => Host.dotGeneral dot_S4096x192_S192x10_S4096x10_1_0_0_1_n_n none l r),
    unary main_arg9 main_v71 (broadcastInDim S1x10 ![1] bcast_S10_S1x10_1),
    unary main_v71 main_v72 (broadcastInDim S4096x10 ![0, 1] bcast_S1x10_S4096x10_0_1),
    binary main_v70 main_v72 main_v73 addf,
    TRef.nullary main_call11.cst (constant S_ .f32 0xFF800000#32),
    TRef.binary (.of main_v73 : TRef sig ⟨S4096x10, .f32⟩) main_call11.cst main_call11.v0 (fun x v => Host.reduce FloatOps.maximumf x v reducesTo_S4096x10_S4096_d1 h_S_),
    TRef.nullary main_call11.cst_0 (constant S_ .f32 0xFF800000#32),
    TRef.unary main_call11.cst_0 main_call11.v1 (broadcastInDim S4096 ![] bcast_S_S4096),
    TRef.binary main_call11.v1 main_call11.v0 main_call11.v2 maximumf,
    TRef.unary main_call11.v2 main_call11.v3 (broadcastInDim S4096x1 ![0] bcast_S4096_S4096x1_0),
    TRef.unary main_call11.v3 main_call11.v4 (broadcastInDim S4096x10 ![0, 1] bcast_S4096x1_S4096x10_0_1),
    TRef.binary (.of main_v73 : TRef sig ⟨S4096x10, .f32⟩) main_call11.v4 main_call11.v5 subf,
    TRef.unary main_call11.v5 main_call11.v6 Host.exp,
    TRef.nullary main_call11.cst_1 (constant S_ .f32 0x00000000#32),
    TRef.binary main_call11.v6 main_call11.cst_1 main_call11.v7 (fun x v => Host.reduceAdd x v reducesTo_S4096x10_S4096_d1 h_S_),
    TRef.unary main_call11.v7 main_call11.v8 (broadcastInDim S4096x1 ![0] bcast_S4096_S4096x1_0),
    TRef.unary main_call11.v8 main_call11.v9 Host.log,
    TRef.unary main_call11.v9 main_call11.v10 (broadcastInDim S4096x10 ![0, 1] bcast_S4096x1_S4096x10_0_1),
    TRef.binary main_call11.v5 main_call11.v10 main_call11.v11 subf ]

abbrev ops0 : List (HloOp τ sig (Elt F)) :=
  opsFlat ++ (opsRow ++ (opsRowMod ++ (opsCol1 ++ (opsColMod ++ (opsPast ++ (opsSrc ++ (opsDst ++ (opsL1 ++ opsL2a))))))))

abbrev ops1 : List (HloOp τ sig (Elt F)) := opsL2b ++ (opsL3 ++ opsHead)

abbrev ops : List (HloOp τ sig (Elt F)) := ops0 ++ ops1

end Cert.ReferenceIdeal.Hand

end
-- ==== Proof.RefRunA.lean ====
import proofs.«113402_g36472862278100_cont_sun_c4_736_16_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 1000000 in
theorem part0_eq (d : Dev nD) : main_part0 (F := F) d = seq ops0 := by
  simp only [main_part0, fn_cumsum_0.body, fn_cumsum.body, fn_clip.body, fn_cumsum_2.body, fn_cumsum_1.body, fn_where.body, fn_floor_divide.body, fn_where_3.body, fn_remainder.body, fn_where_4.body, fn_relu.body, seq_append, seq, bind_assoc, pure_bind]
  rfl

set_option maxRecDepth 4096 in
theorem part1_eq (d : Dev nD) : main_part1 (F := F) d = seq ops1 := by
  simp only [main_part1, fn_relu.body, fn_log_softmax.body, seq_append, seq, bind_assoc, pure_bind]
  rfl

theorem main_eq (d : Dev nD) : main (F := F) d = seq ops := by
  rw [seq_append, ← part0_eq, ← part1_eq]; rfl

theorem ops_sub : (ops : List (HloOp τ sig (Elt F))).Forall fun op => op.bufs ⊆ tcRefs τ sig := by
  simp only [ops, ops0, ops1, opsFlat, List.forall_append, List.Forall, nullary_bufs_sub, unary_bufs_sub, binary_bufs_sub, ternary_bufs_sub,
    reshape_bufs_sub, nary_bufs_sub, and_self]

theorem ops_fresh : (ops : List (HloOp τ sig (Elt F))).Forall fun op => op.fresh = ∅ := by
  simp only [ops, ops0, ops1, opsFlat, List.forall_append]
  repeat' constructor

theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq (by decide) (by decide) defs main (fun _ => ops) main_eq (fun _ => ops_sub) m ρ
    (fun _ op h => List.forall_iff_forall_mem.mp ops_fresh op h)

end Cert.ReferenceIdeal.Hand

end
-- ==== Proof.RefTerm.lean ====
import proofs.«113402_g36472862278100_cont_sun_c4_736_16_alg».proof.ReferenceIdeal

noncomputable section

namespace Cert.ReferenceIdeal.Hand

open Cert.ReferenceIdeal Idealize.ShloMosaic
open Cert.ReferenceIdeal.Facts₀ Cert.ReferenceIdeal.Facts

variable {F : FTy → Type} [FloatOps F] [Facts]

def refFlat (main_arg1 : FVec F S4096x4096 .f32) : IVec S131072 32 :=
  let main_cst := constant S_ .f32 0x00000000#32
  let main_v0 := broadcastInDim S4096x4096 ![] bcast_S_S4096x4096 main_cst
  let main_v1 := cmpf .une main_arg1 main_v0
  let main_call0_v0 := shapeCast S16777216 main_v1 shapeCasts_S4096x4096_S16777216
  let main_call0_v1 := extui 32 main_call0_v0 natLt_1_32
  let main_call0_call0_c := constantI S_ 32 0#32
  let main_call0_call0_v0 := broadcastInDim S_ ![] bcast_S_S_ main_call0_call0_c
  let main_v2 := Host.reduceWindow IntOp.addi ![16777216] ![1] ![16777215] ![0] main_call0_v1 main_call0_call0_v0 reduceWindows_S16777216_S16777216_w16777216s1p16777215_0 h_S_
  let main_c := constantI S_ 32 0#32
  let main_v3 := broadcastInDim S131072 ![] bcast_S_S131072 main_c
  let main_c_0 := constantI S_ 32 0#32
  let main_call1_v0 := id main_c_0
  let main_call1_v1 := broadcastInDim S16777216 ![] bcast_S_S16777216 main_call1_v0
  let main_v4 := maxsi main_call1_v1 main_v2
  let main_c_1 := constantI S_ 32 0#32
  let main_v5 := broadcastInDim S16777216 ![] bcast_S_S16777216 main_c_1
  let main_v6 := cmpi .slt main_v4 main_v5
  let main_c_2 := constantI S_ 32 131072#32
  let main_v7 := broadcastInDim S16777216 ![] bcast_S_S16777216 main_c_2
  let main_v8 := addi main_v4 main_v7
  let main_v9 := select main_v6 main_v8 main_v4
  let main_v10 := broadcastInDim S16777216x1 ![0] bcast_S16777216_S16777216x1_0 main_v9
  let main_c_3 := constantI S_ 32 1#32
  let main_v11 := broadcastInDim S16777216 ![] bcast_S_S16777216 main_c_3
  let main_v12 := Host.scatter scatter_S131072_S16777216x1_S16777216_n_0_0_1 IntOp.addi main_v3 main_v10 main_v11
  let main_call2_call0_c := constantI S_ 32 0#32
  let main_call2_call0_v0 := broadcastInDim S_ ![] bcast_S_S_ main_call2_call0_c
  let main_v13 := Host.reduceWindow IntOp.addi ![131072] ![1] ![131071] ![0] main_v12 main_call2_call0_v0 reduceWindows_S131072_S131072_w131072s1p131071_0 h_S_
  main_v13

def refFloorDiv (main_c_4 : IVec S_ 32) (main_v13 : IVec S131072 32) : IVec S131072 32 :=
  let main_call3_v0 := broadcastInDim S131072 ![] bcast_S_S131072 main_c_4
  let main_call3_v1 := Host.divsi main_v13 main_call3_v0
  let main_call3_v2 := signi main_v13
  let main_call3_v3 := signi main_c_4
  let main_call3_v4 := broadcastInDim S131072 ![] bcast_S_S131072 main_call3_v3
  let main_call3_v5 := cmpi .ne main_call3_v2 main_call3_v4
  let main_call3_v6 := broadcastInDim S131072 ![] bcast_S_S131072 main_c_4
  let main_call3_v7 := Host.remsi main_v13 main_call3_v6
  let main_call3_c := constantI S_ 32 0#32
  let main_call3_v8 := broadcastInDim S131072 ![] bcast_S_S131072 main_call3_c
  let main_call3_v9 := cmpi .ne main_call3_v7 main_call3_v8
  let main_call3_v10 := andi main_call3_v5 main_call3_v9
  let main_call3_c_0 := constantI S_ 32 1#32
  let main_call3_v11 := broadcastInDim S131072 ![] bcast_S_S131072 main_call3_c_0
  let main_call3_v12 := subi main_call3_v1 main_call3_v11
  let main_v14 := select main_call3_v10 main_call3_v12 main_call3_v1
  main_v14

def refRow (main_v13 : IVec S131072 32) : IVec S131072 32 := refFloorDiv (constantI S_ 32 4096#32) main_v13

def refRowMod (main_v14 : IVec S131072 32) : IVec S131072 32 :=
  let main_c_5 := constantI S_ 32 4096#32
  let main_call4_v0 := id main_c_5
  let main_call4_c := constantI S_ 32 0#32
  let main_call4_v1 := cmpi .eq main_call4_v0 main_call4_c
  let main_call4_c_0 := constantI S_ 32 1#32
  let main_call4_v2 := select main_call4_v1 main_call4_c_0 main_call4_v0
  let main_call4_v3 := broadcastInDim S131072 ![] bcast_S_S131072 main_call4_v2
  let main_call4_v4 := Host.remsi main_v14 main_call4_v3
  let main_call4_c_1 := constantI S_ 32 0#32
  let main_call4_v5 := broadcastInDim S131072 ![] bcast_S_S131072 main_call4_c_1
  let main_call4_v6 := cmpi .ne main_call4_v4 main_call4_v5
  let main_call4_c_2 := constantI S_ 32 0#32
  let main_call4_v7 := broadcastInDim S131072 ![] bcast_S_S131072 main_call4_c_2
  let main_call4_v8 := cmpi .slt main_call4_v4 main_call4_v7
  let main_call4_c_3 := constantI S_ 32 0#32
  let main_call4_v9 := cmpi .slt main_call4_v2 main_call4_c_3
  let main_call4_v10 := broadcastInDim S131072 ![] bcast_S_S131072 main_call4_v9
  let main_call4_v11 := cmpi .ne main_call4_v8 main_call4_v10
  let main_call4_v12 := andi main_call4_v11 main_call4_v6
  let main_call4_v13 := broadcastInDim S131072 ![] bcast_S_S131072 main_call4_v2
  let main_call4_v14 := addi main_call4_v4 main_call4_v13
  let main_v15 := select main_call4_v12 main_call4_v14 main_call4_v4
  main_v15

def refCol1 (main_v13 : IVec S131072 32) : IVec S131072 32 := refFloorDiv (constantI S_ 32 1#32) main_v13

def refColMod (main_v16 : IVec S131072 32) : IVec S131072 32 := refRowMod main_v16

def refPast (main_arg1 : FVec F S4096x4096 .f32) : IVec S131072 1 :=
  let main_cst := constant S_ .f32 0x00000000#32
  let main_v0 := broadcastInDim S4096x4096 ![] bcast_S_S4096x4096 main_cst
  let main_v1 := cmpf .une main_arg1 main_v0
  let main_v18 := iotaInDim S131072 32 0
  let main_v19 := extui 32 main_v1 natLt_1_32
  let main_c_8 := constantI S_ 32 0#32
  let main_v20 := Host.reduce IntOp.addi main_v19 main_c_8 reducesTo_S4096x4096_S_d0_1 h_S_
  let main_v21 := broadcastInDim S131072 ![] bcast_S_S131072 main_v20
  let main_v22 := cmpi .sge main_v18 main_v21
  main_v22

def refSrc (main_arg1 : FVec F S4096x4096 .f32) : IVec S131072 32 :=
  let main_v13 := refFlat main_arg1
  let main_v14 := refRow main_v13
  let main_v15 := refRowMod main_v14
  let main_v22 := refPast main_arg1
  let main_c_9 := constantI S_ 32 4096#32
  let main_call7_v0 := id main_c_9
  let main_call7_v1 := broadcastInDim S131072 ![] bcast_S_S131072 main_call7_v0
  let main_v23 := select main_v22 main_call7_v1 main_v15
  main_v23

def refDst (main_arg1 : FVec F S4096x4096 .f32) : IVec S131072 32 :=
  let main_v13 := refFlat main_arg1
  let main_v16 := refCol1 main_v13
  let main_v17 := refColMod main_v16
  let main_v22 := refPast main_arg1
  let main_c_10 := constantI S_ 32 4096#32
  let main_call8_v0 := id main_c_10
  let main_call8_v1 := broadcastInDim S131072 ![] bcast_S_S131072 main_call8_v0
  let main_v24 := select main_v22 main_call8_v1 main_v17
  main_v24

def refProp (main_v23 main_v24 : IVec S131072 32) (main_v25 : FVec F S4096x64 .f32) (main_arg5 : FVec F S64 .f32) : FVec F S4096x64 .f32 :=
  let main_c_11 := constantI S_ 32 0#32
  let main_v26 := broadcastInDim S131072 ![] bcast_S_S131072 main_c_11
  let main_v27 := cmpi .slt main_v23 main_v26
  let main_c_12 := constantI S_ 32 4096#32
  let main_v28 := broadcastInDim S131072 ![] bcast_S_S131072 main_c_12
  let main_v29 := addi main_v23 main_v28
  let main_v30 := select main_v27 main_v29 main_v23
  let main_v31 := broadcastInDim S131072x1 ![0] bcast_S131072_S131072x1_0 main_v30
  let main_v32 := Host.gather gather_S4096x64_S131072x1_S131072x64_1_0_n_n_0_1_164 main_v25 main_v31
  let main_cst_13 := constant S_ .f32 0x00000000#32
  let main_v33 := broadcastInDim S4096x64 ![] bcast_S_S4096x64 main_cst_13
  let main_v34 := broadcastInDim S131072x1 ![0] bcast_S131072_S131072x1_0 main_v24
  let main_v35 := Host.scatterAdd scatter_S4096x64_S131072x1_S131072x64_1_0_0_1 main_v33 main_v34 main_v32
  let main_v36 := broadcastInDim S1x64 ![1] bcast_S64_S1x64_1 main_arg5
  let main_v37 := broadcastInDim S4096x64 ![0, 1] bcast_S1x64_S4096x64_0_1 main_v36
  let main_v38 := addf main_v35 main_v37
  main_v38

def refMax0 (main_v38 : FVec F S4096x64 .f32) : FVec F S4096x64 .f32 :=
  let main_call9_cst := constant S_ .f32 0x00000000#32
  let main_call9_v0 := broadcastInDim S4096x64 ![] bcast_S_S4096x64 main_call9_cst
  let main_v39 := maximumf main_v38 main_call9_v0
  main_v39

def refLayer1 (main_v23 : IVec S131072 32) (main_v24 : IVec S131072 32) (main_arg0 : FVec F S4096x256 .f32) (main_arg2 : FVec F S256x64 .f32) (main_arg5 : FVec F S64 .f32) : FVec F S4096x64 .f32 :=
  refMax0 (refProp main_v23 main_v24 (Host.dotGeneral dot_S4096x256_S256x64_S4096x64_1_0_0_1_n_n none main_arg0 main_arg2) main_arg5)

def refLayer2 (main_v23 : IVec S131072 32) (main_v24 : IVec S131072 32) (main_v39 : FVec F S4096x64 .f32) (main_arg3 : FVec F S64x64 .f32) (main_arg6 : FVec F S64 .f32) : FVec F S4096x64 .f32 :=
  refMax0 (refProp main_v23 main_v24 (Host.dotGeneral dot_S4096x64_S64x64_S4096x64_1_0_0_1_n_n none main_v39 main_arg3) main_arg6)

def refLayer3 (main_v23 : IVec S131072 32) (main_v24 : IVec S131072 32) (main_v54 : FVec F S4096x64 .f32) (main_arg4 : FVec F S64x64 .f32) (main_arg7 : FVec F S64 .f32) : FVec F S4096x64 .f32 :=
  refProp main_v23 main_v24 (Host.dotGeneral dot_S4096x64_S64x64_S4096x64_1_0_0_1_n_n none main_v54 main_arg4) main_arg7

def refHead (main_v39 : FVec F S4096x64 .f32) (main_v54 : FVec F S4096x64 .f32) (main_v68 : FVec F S4096x64 .f32) (main_arg8 : FVec F S192x10 .f32) (main_arg9 : FVec F S10 .f32) : FVec F S4096x10 .f32 :=
  let main_v69 := concatenate S4096x192 1 [⟨S4096x64, main_v39⟩, ⟨S4096x64, main_v54⟩, ⟨S4096x64, main_v68⟩] concatenates_S4096x64_S4096x64_S4096x64_S4096x192_d1
  let main_v70 := Host.dotGeneral dot_S4096x192_S192x10_S4096x10_1_0_0_1_n_n none main_v69 main_arg8
  let main_v71 := broadcastInDim S1x10 ![1] bcast_S10_S1x10_1 main_arg9
  let main_v72 := broadcastInDim S4096x10 ![0, 1] bcast_S1x10_S4096x10_0_1 main_v71
  let main_v73 := addf main_v70 main_v72
  let main_call11_cst := constant S_ .f32 0xFF800000#32
  let main_call11_v0 := Host.reduce FloatOps.maximumf main_v73 main_call11_cst reducesTo_S4096x10_S4096_d1 h_S_
  let main_call11_cst_0 := constant S_ .f32 0xFF800000#32
  let main_call11_v1 := broadcastInDim S4096 ![] bcast_S_S4096 main_call11_cst_0
  let main_call11_v2 := maximumf main_call11_v1 main_call11_v0
  let main_call11_v3 := broadcastInDim S4096x1 ![0] bcast_S4096_S4096x1_0 main_call11_v2
  let main_call11_v4 := broadcastInDim S4096x10 ![0, 1] bcast_S4096x1_S4096x10_0_1 main_call11_v3
  let main_call11_v5 := subf main_v73 main_call11_v4
  let main_call11_v6 := Host.exp main_call11_v5
  let main_call11_cst_1 := constant S_ .f32 0x00000000#32
  let main_call11_v7 := Host.reduceAdd main_call11_v6 main_call11_cst_1 reducesTo_S4096x10_S4096_d1 h_S_
  let main_call11_v8 := broadcastInDim S4096x1 ![0] bcast_S4096_S4096x1_0 main_call11_v7
  let main_call11_v9 := Host.log main_call11_v8
  let main_call11_v10 := broadcastInDim S4096x10 ![0, 1] bcast_S4096x1_S4096x10_0_1 main_call11_v9
  let main_v74 := subf main_call11_v5 main_call11_v10
  main_v74

def refNet (main_v23 main_v24 : IVec S131072 32) (main_arg0 : FVec F S4096x256 .f32) (main_arg2 : FVec F S256x64 .f32)
    (main_arg3 main_arg4 : FVec F S64x64 .f32) (main_arg5 main_arg6 main_arg7 : FVec F S64 .f32)
    (main_arg8 : FVec F S192x10 .f32) (main_arg9 : FVec F S10 .f32) : FVec F S4096x10 .f32 :=
  let main_v39 := refLayer1 main_v23 main_v24 main_arg0 main_arg2 main_arg5
  let main_v54 := refLayer2 main_v23 main_v24 main_v39 main_arg3 main_arg6
  let main_v68 := refLayer3 main_v23 main_v24 main_v54 main_arg4 main_arg7
  refHead main_v39 main_v54 main_v68 main_arg8 main_arg9

def refOut (a0 : FVec F S4096x256 .f32) (a1 : FVec F S4096x4096 .f32) (a2 : FVec F S256x64 .f32) (a3 a4 : FVec F S64x64 .f32)
    (a5 a6 a7 : FVec F S64 .f32) (a8 : FVec F S192x10 .f32) (a9 : FVec F S10 .f32) : FVec F S4096x10 .f32 :=
  refNet (refSrc a1) (refDst a1) a0 a2 a3 a4 a5 a6 a7 a8 a9

end Cert.ReferenceIdeal.Hand

end
-- ==== Proof.LibSeqLine.lean ====
import Idealize.ShloMosaic.Lib.StableHlo.Run

noncomputable section

namespace Cert.LibSeqLine

open Idealize.ShloMosaic Idealize.ShloMosaic.StableHlo

variable {τ : Topo} {sig : RefSig} {Val : EltTy → Type}

theorem after_append : ∀ (l₁ l₂ : List (HloOp τ sig Val)) (V : Valuation τ sig Val), after (l₁ ++ l₂) V = after l₂ (after l₁ V)
  | [], _, _ => rfl
  | _ :: l, l₂, _ => after_append l l₂ _

def From (n : ℕ) (op : HloOp τ sig Val) : Prop := ∃ y : Ref sig .tc, op.writes = {Proc.devRef .tc y} ∧ n ≤ y.idx.val

/-- Buffers are numbered in the order they are written, so a line passes over every buffer numbered below its first. -/
theorem after_below {n : ℕ} {l : List (HloOp τ sig Val)} (hl : l.Forall (From n)) (V : Valuation τ sig Val) {r : Ref sig .tc}
    (hr : r.idx.val < n) : after l V (no_index (Proc.devRef .tc r)) = V (Proc.devRef .tc r) :=
  after_of_forall_not_mem l V fun op hop hb => by
    obtain ⟨y, hy, hn⟩ := List.forall_iff_forall_mem.mp hl op hop
    rw [hy, Finset.mem_singleton] at hb
    exact absurd (Proc.devRef_injective _ hb ▸ hr) (Nat.not_lt.mpr hn)

end Cert.LibSeqLine

end
-- ==== Proof.RefValFlat.lean ====
import proofs.«113402_g36472862278100_cont_sun_c4_736_16_alg».proof.Proof.RefOps
import proofs.«113402_g36472862278100_cont_sun_c4_736_16_alg».proof.Proof.RefTerm
import proofs.«113402_g36472862278100_cont_sun_c4_736_16_alg».proof.Proof.LibSeqLine

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.LibSeqLine

variable {F : FTy → Type} [FloatOps F] (W : Valuation τ sig (Elt F))

/-- Every operation writes one buffer, and the buffers are numbered in program order: each stage writes from its first buffer's number up. -/
theorem froms : (opsFA : List (HloOp τ sig (Elt F))).Forall (From 10) ∧ (opsFB : List (HloOp τ sig (Elt F))).Forall (From 18)
    ∧ (opsFC : List (HloOp τ sig (Elt F))).Forall (From 24) ∧ (opsFD : List (HloOp τ sig (Elt F))).Forall (From 32)
    ∧ (opsFE : List (HloOp τ sig (Elt F))).Forall (From 35) ∧ (opsRow : List (HloOp τ sig (Elt F))).Forall (From 38)
    ∧ (opsRowMod : List (HloOp τ sig (Elt F))).Forall (From 55) ∧ (opsCol1 : List (HloOp τ sig (Elt F))).Forall (From 77)
    ∧ (opsColMod : List (HloOp τ sig (Elt F))).Forall (From 94) ∧ (opsPast : List (HloOp τ sig (Elt F))).Forall (From 116)
    ∧ (opsSrc : List (HloOp τ sig (Elt F))).Forall (From 122) ∧ (opsDst : List (HloOp τ sig (Elt F))).Forall (From 126)
    ∧ (opsL1 : List (HloOp τ sig (Elt F))).Forall (From 130) ∧ (opsL2a : List (HloOp τ sig (Elt F))).Forall (From 150)
    ∧ (opsL2b : List (HloOp τ sig (Elt F))).Forall (From 154) ∧ (opsL3 : List (HloOp τ sig (Elt F))).Forall (From 170)
    ∧ (opsHead : List (HloOp τ sig (Elt F))).Forall (From 187) := by
  repeat' (first | exact ⟨_, rfl, by decide⟩ | constructor)

section

attribute [local irreducible] Host.reduceWindow Host.scatter

set_option maxRecDepth 8192

theorem valFA : after opsFA W (main_v2 : DevRef τ sig)
    = Host.reduceWindow IntOp.addi ![16777216] ![1] ![16777215] ![0]
        (extui 32 (shapeCast S16777216 (cmpf .une (W (main_arg1 : DevRef τ sig)) (broadcastInDim S4096x4096 ![] bcast_S_S4096x4096 (constant S_ .f32 0x00000000#32))) shapeCasts_S4096x4096_S16777216) natLt_1_32)
        (broadcastInDim S_ ![] bcast_S_S_ (constantI S_ 32 0#32)) reduceWindows_S16777216_S16777216_w16777216s1p16777215_0 h_S_ := by
  simp only [after_cons, after_nil]
  rfl

theorem valFB : after opsFB W (main_v4 : DevRef τ sig)
    = maxsi (broadcastInDim S16777216 ![] bcast_S_S16777216 (id (constantI S_ 32 0#32))) (W (main_v2 : DevRef τ sig)) := by
  simp only [after_cons, after_nil]
  rfl

theorem valFC : after opsFC W (main_v10 : DevRef τ sig)
    = broadcastInDim S16777216x1 ![0] bcast_S16777216_S16777216x1_0
        (select (cmpi .slt (W (main_v4 : DevRef τ sig)) (broadcastInDim S16777216 ![] bcast_S_S16777216 (constantI S_ 32 0#32)))
          (addi (W (main_v4 : DevRef τ sig)) (broadcastInDim S16777216 ![] bcast_S_S16777216 (constantI S_ 32 131072#32))) (W (main_v4 : DevRef τ sig))) := by
  simp only [after_cons, after_nil]
  rfl

theorem valFE : after opsFE W (main_v13 : DevRef τ sig)
    = Host.reduceWindow IntOp.addi ![131072] ![1] ![131071] ![0] (W (main_v12 : DevRef τ sig))
        (broadcastInDim S_ ![] bcast_S_S_ (constantI S_ 32 0#32)) reduceWindows_S131072_S131072_w131072s1p131071_0 h_S_ := by
  simp only [after_cons, after_nil]
  rfl

end

theorem valFA_v1 : after opsFA W (no_index (main_v1 : DevRef τ sig))
    = cmpf .une (W (main_arg1 : DevRef τ sig)) (broadcastInDim S4096x4096 ![] bcast_S_S4096x4096 (constant S_ .f32 0x00000000#32)) := by
  after_results_simp

theorem valFB_v3 : after opsFB W (main_v3 : DevRef τ sig) = broadcastInDim S131072 ![] bcast_S_S131072 (constantI S_ 32 0#32) := by
  after_results_simp

theorem valFD : after opsFD W (main_v12 : DevRef τ sig)
    = Host.scatter scatter_S131072_S16777216x1_S16777216_n_0_0_1 IntOp.addi (W (main_v3 : DevRef τ sig)) (W (main_v10 : DevRef τ sig))
        (broadcastInDim S16777216 ![] bcast_S_S16777216 (constantI S_ 32 1#32)) := by
  after_results_simp

theorem flat_v13 : after opsFE (after opsFD (after opsFC (after opsFB (after opsFA W)))) (no_index (main_v13 : DevRef τ sig))
    = refFlat (W (main_arg1 : DevRef τ sig)) := by
  rw [valFE, valFD, valFC, after_below froms.2.2.1 _ (r := main_v3) (by decide), valFB, valFB_v3, valFA]
  unfold refFlat
  with_reducible rfl

end Cert.ReferenceIdeal.Hand

end
-- ==== Proof.RefValHead.lean ====
import proofs.«113402_g36472862278100_cont_sun_c4_736_16_alg».proof.Proof.RefOps
import proofs.«113402_g36472862278100_cont_sun_c4_736_16_alg».proof.Proof.RefTerm

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.reduceAdd concatenate in
set_option maxRecDepth 8192 in
theorem head_main_v74 (W : Valuation τ sig (Elt F)) :
    after opsHead W (no_index (main_v74 : DevRef τ sig))
      = refHead (W (main_v39 : DevRef τ sig)) (W (main_v54 : DevRef τ sig)) (W (main_v68 : DevRef τ sig))
          (W (main_arg8 : DevRef τ sig)) (W (main_arg9 : DevRef τ sig)) := by
  simp only [after_cons, after_nil]
  rfl

end Cert.ReferenceIdeal.Hand

end
-- ==== Proof.RefVal.lean ====
import proofs.«113402_g36472862278100_cont_sun_c4_736_16_alg».proof.Proof.RefOps
import proofs.«113402_g36472862278100_cont_sun_c4_736_16_alg».proof.Proof.RefTerm
import proofs.«113402_g36472862278100_cont_sun_c4_736_16_alg».proof.Proof.LibSeqLine
import proofs.«113402_g36472862278100_cont_sun_c4_736_16_alg».proof.Proof.RefValFlat
import proofs.«113402_g36472862278100_cont_sun_c4_736_16_alg».proof.Proof.RefValHead

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.LibSeqLine

variable {F : FTy → Type} [FloatOps F] (W : Valuation τ sig (Elt F))

def pastOf (main_v1 : IVec S4096x4096 1) : IVec S131072 1 :=
  cmpi .sge (iotaInDim S131072 32 0)
    (broadcastInDim S131072 ![] bcast_S_S131072 (Host.reduce IntOp.addi (extui 32 main_v1 natLt_1_32) (constantI S_ 32 0#32) reducesTo_S4096x4096_S_d0_1 h_S_))

def fillOf (main_v22 : IVec S131072 1) (main_v15 : IVec S131072 32) : IVec S131072 32 :=
  select main_v22 (broadcastInDim S131072 ![] bcast_S_S131072 (id (constantI S_ 32 4096#32))) main_v15

section

set_option maxRecDepth 8192

theorem row_v14 : after opsRow W (no_index (main_v14 : DevRef τ sig)) = refRow (W (main_v13 : DevRef τ sig)) := by
  after_results_simp; rfl

theorem rowmod_v15 : after opsRowMod W (no_index (main_v15 : DevRef τ sig)) = refRowMod (W (main_v14 : DevRef τ sig)) := by
  after_results_simp; rfl

theorem col1_v16 : after opsCol1 W (no_index (main_v16 : DevRef τ sig)) = refCol1 (W (main_v13 : DevRef τ sig)) := by
  after_results_simp; rfl

theorem colmod_v17 : after opsColMod W (no_index (main_v17 : DevRef τ sig)) = refColMod (W (main_v16 : DevRef τ sig)) := by
  after_results_simp; rfl

theorem past_v22 : after opsPast W (no_index (main_v22 : DevRef τ sig)) = pastOf (W (main_v1 : DevRef τ sig)) := by
  after_results_simp; rfl

theorem src_v23 : after opsSrc W (no_index (main_v23 : DevRef τ sig)) = fillOf (W (main_v22 : DevRef τ sig)) (W (main_v15 : DevRef τ sig)) := by
  after_results_simp; rfl

theorem dst_v24 : after opsDst W (no_index (main_v24 : DevRef τ sig)) = fillOf (W (main_v22 : DevRef τ sig)) (W (main_v17 : DevRef τ sig)) := by
  after_results_simp; rfl

theorem l1_v39 : after opsL1 W (no_index (main_v39 : DevRef τ sig))
    = refLayer1 (W (main_v23 : DevRef τ sig)) (W (main_v24 : DevRef τ sig)) (W (main_arg0 : DevRef τ sig)) (W (main_arg2 : DevRef τ sig)) (W (main_arg5 : DevRef τ sig)) := by
  after_results_simp; rfl

theorem l2_v54 : after opsL2b (after opsL2a W) (no_index (main_v54 : DevRef τ sig))
    = refLayer2 (W (main_v23 : DevRef τ sig)) (W (main_v24 : DevRef τ sig)) (W (main_v39 : DevRef τ sig)) (W (main_arg3 : DevRef τ sig)) (W (main_arg6 : DevRef τ sig)) := by
  after_results_simp; rfl

theorem l3_v68 : after opsL3 W (no_index (main_v68 : DevRef τ sig))
    = refLayer3 (W (main_v23 : DevRef τ sig)) (W (main_v24 : DevRef τ sig)) (W (main_v54 : DevRef τ sig)) (W (main_arg4 : DevRef τ sig)) (W (main_arg7 : DevRef τ sig)) := by
  after_results_simp; rfl

end

/-- Each stage's result is read where it is written and passed over by every later stage, whose buffers are numbered higher. -/
theorem ops_vals : after ops W (main_v74 : DevRef τ sig) = refOut (W (main_arg0 : DevRef τ sig)) (W (main_arg1 : DevRef τ sig)) (W (main_arg2 : DevRef τ sig)) (W (main_arg3 : DevRef τ sig)) (W (main_arg4 : DevRef τ sig)) (W (main_arg5 : DevRef τ sig)) (W (main_arg6 : DevRef τ sig)) (W (main_arg7 : DevRef τ sig)) (W (main_arg8 : DevRef τ sig)) (W (main_arg9 : DevRef τ sig))
    ∧ after ops W (main_arg0 : DevRef τ sig) = W (main_arg0 : DevRef τ sig)
    ∧ after ops W (main_arg1 : DevRef τ sig) = W (main_arg1 : DevRef τ sig)
    ∧ after ops W (main_arg2 : DevRef τ sig) = W (main_arg2 : DevRef τ sig)
    ∧ after ops W (main_arg3 : DevRef τ sig) = W (main_arg3 : DevRef τ sig)
    ∧ after ops W (main_arg4 : DevRef τ sig) = W (main_arg4 : DevRef τ sig)
    ∧ after ops W (main_arg5 : DevRef τ sig) = W (main_arg5 : DevRef τ sig)
    ∧ after ops W (main_arg6 : DevRef τ sig) = W (main_arg6 : DevRef τ sig)
    ∧ after ops W (main_arg7 : DevRef τ sig) = W (main_arg7 : DevRef τ sig)
    ∧ after ops W (main_arg8 : DevRef τ sig) = W (main_arg8 : DevRef τ sig)
    ∧ after ops W (main_arg9 : DevRef τ sig) = W (main_arg9 : DevRef τ sig) := by
  obtain ⟨hA, hB, hC, hD, hE, h1, h2, h3, h4, h5, h6, h7, h8, h9, h10, h11, h12⟩ := froms (F := F)
  simp (disch := decide) only [ops, ops0, ops1, opsFlat, after_append, ↓flat_v13, ↓valFA_v1, ↓row_v14, ↓rowmod_v15, ↓col1_v16, ↓colmod_v17, ↓past_v22,
    ↓src_v23, ↓dst_v24, ↓l1_v39, ↓l2_v54, ↓l3_v68, ↓head_main_v74, after_below hA, after_below hB, after_below hC, after_below hD, after_below hE,
    after_below h1, after_below h2, after_below h3, after_below h4, after_below h5, after_below h6, after_below h7, after_below h8, after_below h9,
    after_below h10, after_below h11, after_below h12, and_true]
  rfl

end Cert.ReferenceIdeal.Hand

end
-- ==== Proof.RefRun.lean ====
import proofs.«113402_g36472862278100_cont_sun_c4_736_16_alg».proof.Proof.RefRunA
import proofs.«113402_g36472862278100_cont_sun_c4_736_16_alg».proof.Proof.RefVal

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v74) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => by simp only [h c]; exact ops_vals _) (run_all m ρ)

end Cert.ReferenceIdeal.Hand

end
-- ==== Proof.RefHead.lean ====
import proofs.«113402_g36472862278100_cont_sun_c4_736_16_alg».proof.ReferenceIdeal
import proofs.«113402_g36472862278100_cont_sun_c4_736_16_alg».proof.Proof.Spec
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import Idealize.ShloMosaic.Lib.StackMember
import Mathlib.Algebra.BigOperators.Fin

noncomputable section

namespace Cert.RefHead

open Cert.ReferenceIdeal Idealize.ShloMosaic Idealize.ShloMosaic.ValueIdx
open Cert.ReferenceIdeal.Facts₀ Cert.ReferenceIdeal.Facts
open scoped BigOperators

variable [Facts]

def headLogits (X1 X2 X3 : FVec Ideal S4096x64 .f32) (a8 : FVec Ideal S192x10 .f32) (a9 : FVec Ideal S10 .f32) :
    FVec Ideal S4096x10 .f32 :=
  addf (Host.dotGeneral dot_S4096x192_S192x10_S4096x10_1_0_0_1_n_n none
      (concatenate S4096x192 1 [⟨S4096x64, X1⟩, ⟨S4096x64, X2⟩, ⟨S4096x64, X3⟩]
        concatenates_S4096x64_S4096x64_S4096x64_S4096x192_d1) a8)
    (broadcastInDim S4096x10 ![0, 1] bcast_S1x10_S4096x10_0_1 (broadcastInDim S1x10 ![1] bcast_S10_S1x10_1 a9))

def rowMaxKeep (L : FVec Ideal S4096x10 .f32) : FVec Ideal S4096x10 .f32 :=
  broadcastInDim S4096x10 ![0, 1] bcast_S4096x1_S4096x10_0_1 (broadcastInDim S4096x1 ![0] bcast_S4096_S4096x1_0
    (maximumf (broadcastInDim S4096 ![] bcast_S_S4096 (constant S_ .f32 0xFF800000#32))
      (Host.reduce FloatOps.maximumf L (constant S_ .f32 0xFF800000#32) reducesTo_S4096x10_S4096_d1 h_S_)))

def logSumKeep (S : FVec Ideal S4096x10 .f32) : FVec Ideal S4096x10 .f32 :=
  broadcastInDim S4096x10 ![0, 1] bcast_S4096x1_S4096x10_0_1 (Host.log (broadcastInDim S4096x1 ![0] bcast_S4096_S4096x1_0
    (Host.reduceAdd (Host.exp S) (constant S_ .f32 0x00000000#32) reducesTo_S4096x10_S4096_d1 h_S_)))

def logSoftmax (L : FVec Ideal S4096x10 .f32) : FVec Ideal S4096x10 .f32 :=
  subf (subf L (rowMaxKeep L)) (logSumKeep (subf L (rowMaxKeep L)))

theorem dot_head_apply (l : FVec Ideal S4096x192 .f32) (r : FVec Ideal S192x10 .f32) (p : Fin 4096) (q : Fin 10) :
    Host.dotGeneral dot_S4096x192_S192x10_S4096x10_1_0_0_1_n_n none l r (ix2 p q)
      = ∑ k : Fin 192, l (ix2 p k) * r (ix2 k q) :=
  StackMember.dotGeneral_plain_apply (m := 4096) (n := 10) (k := 192) none l r p q

-- Column g of the three arrays side by side lies in the block g / 64, at column g % 64 of that array.
theorem feats_apply {α : Type} (A B C : S4096x64.Idx → α) (j : Fin 4096) (f : Fin 64) (g : Fin 192) {cat : S4096x192.Idx → α}
    (hcat : cat = concatenate S4096x192 1 [⟨S4096x64, A⟩, ⟨S4096x64, B⟩, ⟨S4096x64, C⟩]
      concatenates_S4096x64_S4096x64_S4096x64_S4096x192_d1) :
    (g.val = f.val → cat (ix2 j g) = A (ix2 j f)) ∧ (g.val = 64 + f.val → cat (ix2 j g) = B (ix2 j f))
      ∧ (g.val = 128 + f.val → cat (ix2 j g) = C (ix2 j f)) := by
  subst hcat
  have hb : ∀ b : Fin 2, Fin.cast rfl b ≠ (1 : Fin 2) →
      ((ix2 j f : S4096x64.Idx) b).val = ((ix2 j g : S4096x192.Idx) (Fin.cast rfl b)).val := fun b hb => by
    match b with
    | ⟨0, _⟩ => rfl
    | ⟨1, _⟩ => exact absurd rfl hb
  exact ⟨fun h => concatenate_apply_piece (t := S4096x192) 1 _ _ _ 0 (by simp) S4096x64 A rfl rfl 0 rfl (ix2 j f) hb
      ((Nat.zero_add _).trans h.symm),
    fun h => concatenate_apply_piece (t := S4096x192) 1 _ _ _ 1 (by simp) S4096x64 B rfl rfl 64 rfl (ix2 j f) hb h.symm,
    fun h => concatenate_apply_piece (t := S4096x192) 1 _ _ _ 2 (by simp) S4096x64 C rfl rfl 128 rfl (ix2 j f) hb h.symm⟩

theorem sum_192 {M : Type*} [AddCommMonoid M] (g : Fin 192 → M) :
    ∑ k : Fin 192, g k
      = (∑ f : Fin 64, g ⟨f.val, by omega⟩) + (∑ f : Fin 64, g ⟨64 + f.val, by omega⟩)
        + (∑ f : Fin 64, g ⟨128 + f.val, by omega⟩) := by
  have h1 := Fin.sum_univ_add (M := M) (a := 64) (b := 128) (fun i => g i)
  have h2 := Fin.sum_univ_add (M := M) (a := 64) (b := 64) (fun i => g (Fin.natAdd 64 i))
  rw [add_assoc]
  refine h1.trans ?_
  refine congrArg₂ (· + ·) rfl ?_
  refine h2.trans ?_
  refine congrArg₂ (· + ·) rfl ?_
  exact Finset.sum_congr rfl fun f _ => congrArg g (Fin.ext (by
    show 64 + (64 + f.val) = 128 + f.val
    omega))

theorem bias_apply {α : Type} (v : S10.Idx → α) (j : Fin 4096) (c : Fin 10) :
    broadcastInDim S4096x10 ![0, 1] bcast_S1x10_S4096x10_0_1 (broadcastInDim S1x10 ![1] bcast_S10_S1x10_1 v) (ix2 j c)
      = v (ix1 c) :=
  (broadcastInDim_apply ![0, 1] bcast_S1x10_S4096x10_0_1 _ (ix2 j c) (ix2 (0 : Fin 1) c) (Fin.forall_fin_two.2 ⟨rfl, rfl⟩)).trans
    (broadcastInDim_apply ![1] bcast_S10_S1x10_1 v (ix2 (0 : Fin 1) c) (ix1 c) (Fin.forall_fin_one.2 rfl))

theorem col_apply {α : Type} (v : S4096.Idx → α) (j : Fin 4096) :
    broadcastInDim S4096x1 ![0] bcast_S4096_S4096x1_0 v (ix2 j (0 : Fin 1)) = v (ix1 j) :=
  broadcastInDim_apply ![0] bcast_S4096_S4096x1_0 v (ix2 j (0 : Fin 1)) (ix1 j) (Fin.forall_fin_one.2 rfl)

theorem spread_apply {α : Type} (v : S4096x1.Idx → α) (j : Fin 4096) (c : Fin 10) :
    broadcastInDim S4096x10 ![0, 1] bcast_S4096x1_S4096x10_0_1 v (ix2 j c) = v (ix2 j (0 : Fin 1)) :=
  broadcastInDim_apply ![0, 1] bcast_S4096x1_S4096x10_0_1 v (ix2 j c) (ix2 j (0 : Fin 1)) (Fin.forall_fin_two.2 ⟨rfl, rfl⟩)

theorem reduces_rows : S4096x10.Reduces [1] S4096 := by decide

theorem lift_cols (j : Fin 4096) (c : Fin 10) : reduces_rows.lift (ix1 j) c = ix2 j c := by
  funext ax; apply Fin.ext
  match ax with
  | ⟨0, _⟩ => rfl
  | ⟨1, _⟩ => rfl

theorem ofBits_neg_inf_f32 : Ideal.ofBits .f32 0xFF800000#32 = ⊥ := by
  simp [Ideal.ofBits, Ideal.ieee]

variable (X1 X2 X3 : FVec Ideal S4096x64 .f32) (a8 : FVec Ideal S192x10 .f32) (a9 : FVec Ideal S10 .f32)
  (L : FVec Ideal S4096x10 .f32) (j : Fin 4096) (c : Fin 10)

-- A fold of max from ⊥ over a finite row is the row's supremum.
theorem rowMax_apply :
    Host.reduce FloatOps.maximumf L (constant S_ .f32 0xFF800000#32) reducesTo_S4096x10_S4096_d1 h_S_ (ix1 j)
      = Finset.univ.sup fun c : Fin 10 => L (ix2 j c) := by
  rw [Host.reduce_eq_fold_single FloatOps.maximumf L _ reducesTo_S4096x10_S4096_d1 reduces_rows h_S_ (ix1 j)]
  show (Finset.univ : Finset (Fin 10)).fold max (Ideal.ofBits .f32 0xFF800000#32) (L ∘ reduces_rows.lift (ix1 j)) = _
  rw [ofBits_neg_inf_f32, (funext fun c => congrArg L (lift_cols j c) : (L ∘ reduces_rows.lift (ix1 j)) = fun c : Fin 10 => L (ix2 j c))]
  rfl

theorem rowSum_apply :
    Host.reduceAdd L (constant S_ .f32 0x00000000#32) reducesTo_S4096x10_S4096_d1 h_S_ (ix1 j) = ∑ c : Fin 10, L (ix2 j c) := by
  rw [hostReduceAdd_apply, Ideal.hostReduceAdd_single reducesTo_S4096x10_S4096_d1 reduces_rows]
  show Ideal.ofBits .f32 0x00000000#32 + _ = _
  rw [Ideal.ofBits_zero_f32, zero_add]
  exact Finset.sum_congr rfl fun c _ => congrArg L (lift_cols j c)

theorem headLogits_apply :
    headLogits X1 X2 X3 a8 a9 (ix2 j c)
      = ((∑ f : Fin 64, X1 (ix2 j f) * a8 (ix2 ⟨f.val, by omega⟩ c))
          + (∑ f : Fin 64, X2 (ix2 j f) * a8 (ix2 ⟨64 + f.val, by omega⟩ c))
          + (∑ f : Fin 64, X3 (ix2 j f) * a8 (ix2 ⟨128 + f.val, by omega⟩ c)))
        + a9 (ix1 c) := by
  unfold headLogits
  rw [addf_apply, dot_head_apply, bias_apply, sum_192]
  refine congrArg₂ (· + ·) (congrArg₂ (· + ·) (congrArg₂ (· + ·) ?_ ?_) ?_) rfl <;>
    refine Finset.sum_congr rfl fun f _ => congrArg (· * _) ?_
  · exact (feats_apply X1 X2 X3 j f _ rfl).1 rfl
  · exact (feats_apply X1 X2 X3 j f _ rfl).2.1 rfl
  · exact (feats_apply X1 X2 X3 j f _ rfl).2.2 rfl

theorem rowMaxKeep_apply : rowMaxKeep L (ix2 j c) = Finset.univ.sup fun c' : Fin 10 => L (ix2 j c') := by
  unfold rowMaxKeep
  rw [spread_apply, col_apply, maximumf_apply, broadcastInDim_scalar_apply, rowMax_apply, constant_apply,
    ofBits_neg_inf_f32, max_bot_left]

theorem logSumKeep_apply : logSumKeep L (ix2 j c) = Ideal.log (∑ c' : Fin 10, Ideal.exp (L (ix2 j c'))) := by
  unfold logSumKeep
  rw [spread_apply]
  exact congrArg Ideal.log ((col_apply _ j).trans (rowSum_apply _ j))

-- Subtracting the row maximum and the logarithm of the shifted exponentials' sum is the row-wise log-softmax.
theorem logSoftmax_apply : logSoftmax L (ix2 j c) = Cert.Spec.logSoftmaxRow (fun c => L (ix2 j c)) c := by
  unfold logSoftmax Cert.Spec.logSoftmaxRow
  rw [subf_apply, subf_apply, logSumKeep_apply, rowMaxKeep_apply]
  refine congrArg₂ (· - ·) rfl (congrArg Ideal.log (Finset.sum_congr rfl fun c' _ => congrArg Ideal.exp ?_))
  rw [subf_apply, rowMaxKeep_apply]

end Cert.RefHead
end
-- ==== Proof.LibScatterRows.lean ====
import Idealize.ShloMosaic.PureOps.Ideal
import Idealize.ShloMosaic.Lib.ValueIdx
import Idealize.ShloMosaic.Lib.Pipeline.Value
import Mathlib.Algebra.BigOperators.Fin

noncomputable section

open scoped BigOperators

namespace Cert.Lib

open Idealize.ShloMosaic Idealize.ShloMosaic.ValueIdx

structure RowScatter2 {N M C : Nat} (d : ScatterDims ⟨2, ![N, C]⟩ ⟨2, ![M, 1]⟩ ⟨2, ![M, C]⟩) : Prop where
  uw : d.updateWindowDims = [1]
  iw : d.insertedWindowDims = [0]
  sd : d.scatterDimsToOperandDims = [0]
  iv : d.indexVectorDim = 1

section
variable {N M C w : Nat} (d : ScatterDims ⟨2, ![N, C]⟩ ⟨2, ![M, 1]⟩ ⟨2, ![M, C]⟩) (hd : RowScatter2 d)
  (idx : IVec ⟨2, ![M, 1]⟩ w) (n : Fin N) (c : Fin C)
include hd

theorem start_window_rows2 (m : Fin M) :
    d.start (ix2 m c) idx 0 + (d.window (ix2 m c) 0 : Int) = (idx (ix2 m 0)).toInt
      ∧ d.start (ix2 m c) idx 1 + (d.window (ix2 m c) 1 : Int) = (c.val : Int) := by
  obtain ⟨hu, hi, hs, hv⟩ := hd
  obtain ⟨uw, iw, sd, iv, wf⟩ := d
  simp only at hu hi hs hv
  subst hu hi hs hv
  constructor
  · unfold ScatterDims.start ScatterDims.window
    rw [dif_pos (List.mem_singleton.2 rfl), dif_neg (by show (0 : Fin 2) ∉ ([1] : List (Fin 2)); simp)]
    refine (add_zero _).trans (congrArg (fun t => (idx t).toInt) (funext fun b => ?_))
    match b with
    | ⟨0, _⟩ =>
      unfold ScatterDims.siIdx ScatterDims.siCoord
      rw [dif_neg (by simp)]
      exact Fin.ext (congrArg (fun a => ((ix2 m c : (⟨2, ![M, C]⟩ : Shape).Idx) a).val) (List.getElem_singleton _))
    | ⟨1, _⟩ => exact Subsingleton.elim (α := Fin 1) _ _
  · unfold ScatterDims.start ScatterDims.window
    rw [dif_neg (by simp), dif_pos (by show (1 : Fin 2) ∈ ([1] : List (Fin 2)); simp), zero_add]
    exact congrArg (fun a => (((ix2 m c : (⟨2, ![M, C]⟩ : Shape).Idx) a).val : Int)) (List.getElem_singleton _)

theorem resultIdx?_rows2 (m : Fin M) (c' : Fin C) :
    d.resultIdx? (ix2 m c) idx = some (ix2 n c') ↔ (idx (ix2 m 0)).toInt = (n.val : Int) ∧ c = c' := by
  obtain ⟨e0, e1⟩ := start_window_rows2 d hd idx c m
  have := n.isLt
  have := c.isLt
  unfold ScatterDims.resultIdx?
  constructor
  · intro h
    split at h
    · next hc =>
      have hf := Option.some.inj h
      have f0 := congrArg Fin.val (congrFun hf 0)
      have f1 := congrArg Fin.val (congrFun hf 1)
      have c0 := (hc 0).1
      simp only [e0] at f0 c0
      simp only [e1] at f1
      change _ = n.val at f0
      change _ = c'.val at f1
      exact ⟨by omega, Fin.ext (by omega)⟩
    · exact absurd h (by simp)
  · rintro ⟨hT, rfl⟩
    have hcond : ∀ a : Fin 2, 0 ≤ d.start (ix2 m c) idx a + (d.window (ix2 m c) a : Int)
        ∧ d.start (ix2 m c) idx a + (d.window (ix2 m c) a : Int) < ((⟨2, ![N, C]⟩ : Shape).size a : Int) := by
      rw [Fin.forall_fin_two, e0, e1]
      exact ⟨⟨by omega, by show _ < (N : Int); omega⟩, ⟨by omega, by show _ < (C : Int); omega⟩⟩
    rw [dif_pos hcond]
    refine congrArg some (funext fun a => Fin.ext ?_)
    match a with
    | ⟨0, _⟩ => exact (congrArg Int.toNat (e0.trans hT)).trans (Int.toNat_natCast _)
    | ⟨1, _⟩ => exact (congrArg Int.toNat e1).trans (Int.toNat_natCast _)

variable {φ : FTy} (x : FVec Ideal ⟨2, ![N, C]⟩ φ) (upd : FVec Ideal ⟨2, ![M, C]⟩ φ)

-- m ↦ (m, c) is a bijection from the rows whose index is n onto the update elements landing on (n, c).
theorem scatterAdd_rows2 :
    Host.scatterAdd d x idx upd (ix2 n c)
      = x (ix2 n c) + ∑ m ∈ Finset.univ.filter (fun m : Fin M => (idx (ix2 m 0)).toInt = (n.val : Int)), upd (ix2 m c) := by
  show Ideal.hostScatterAdd d x idx upd (ix2 n c) = _
  unfold Ideal.hostScatterAdd
  congr 1
  symm
  refine Finset.sum_bij (fun m _ => ix2 m c) ?_ ?_ ?_ ?_
  · intro m hm
    simp only [Finset.mem_filter, Finset.mem_univ, true_and] at hm ⊢
    exact (resultIdx?_rows2 d hd idx n c m c).2 ⟨hm, rfl⟩
  · intro m₁ _ m₂ _ h
    exact congrFun h 0
  · intro j hj
    obtain ⟨a, b, rfl⟩ : ∃ a b, j = ix2 a b := ⟨j 0, j 1, eq_ix2 j⟩
    simp only [Finset.mem_filter, Finset.mem_univ, true_and] at hj
    obtain ⟨hT, hc⟩ := (resultIdx?_rows2 d hd idx n b a c).1 hj
    subst hc
    exact ⟨a, by simp only [Finset.mem_filter, Finset.mem_univ, true_and]; exact hT, rfl⟩
  · intro m _; rfl

end

theorem broadcastInDim_col_apply {α : Type} {M : Nat}
    (h : (⟨1, ![M]⟩ : Shape).BroadcastsInDim ⟨2, ![M, 1]⟩ (![0] : Fin 1 → Fin 2))
    (x : (⟨1, ![M]⟩ : Shape).Idx → α) (j : Fin M) (k : Fin 1) :
    broadcastInDim ⟨2, ![M, 1]⟩ ![0] h x (ix2 j k) = x (ix1 j) := by
  refine broadcastInDim_apply _ h x (ix2 j k) (ix1 j) fun a => ?_
  match a with
  | ⟨0, _⟩ =>
    show j.val = if M = 1 then 0 else j.val
    split
    · next h1 => have := j.isLt; omega
    · rfl

def wrapW (n v : BitVec 32) : BitVec 32 := Scalar.select (IntOp.cmpi .slt v 0#32) (IntOp.addi v n) v

end Cert.Lib
-- ==== Proof.LibNthCount.lean ====
import Mathlib.Data.Nat.Nth
import Mathlib.Data.Nat.Count
import Mathlib.Algebra.BigOperators.Fin
import Mathlib.Algebra.BigOperators.Group.Finset.Basic

namespace Cert.LibNthCount

open scoped BigOperators

variable {p : ℕ → Prop} [DecidablePred p] {N : ℕ}

theorem lt_card_of_lt_count {k : ℕ} (hk : k < Nat.count p N) :
    ∀ hf : (Set.ofPred p).Finite, k < hf.toFinset.card :=
  fun hf => hk.trans_le (Nat.count_le_card hf N)

theorem nth_lt_of_lt_count (k : ℕ) (hk : k < Nat.count p N) : Nat.nth p k < N :=
  Nat.nth_lt_of_lt_count hk

-- Exactly k + 1 numbers up to nth p k satisfy p, and the prefix count is monotone.
theorem count_succ_le_iff_lt_nth (k : ℕ) (hk : k < Nat.count p N) (q : ℕ) :
    Nat.count p (q + 1) ≤ k ↔ q < Nat.nth p k := by
  refine ⟨fun h => ?_, fun h => Nat.le_nth_of_count_le (Nat.succ_le_of_lt h)⟩
  by_contra hq
  have h1 : Nat.count p (Nat.nth p k + 1) = k + 1 := Nat.count_nth_succ (lt_card_of_lt_count hk)
  have h2 : Nat.count p (Nat.nth p k + 1) ≤ Nat.count p (q + 1) := Nat.count_monotone p (Nat.succ_le_succ (not_lt.1 hq))
  omega

theorem card_count_succ_le (k : ℕ) (hk : k < Nat.count p N) :
    ((Finset.range N).filter (fun q => Nat.count p (q + 1) ≤ k)).card = Nat.nth p k := by
  have hset : (Finset.range N).filter (fun q => Nat.count p (q + 1) ≤ k) = Finset.range (Nat.nth p k) := by
    ext q
    rw [Finset.mem_filter, Finset.mem_range, Finset.mem_range, count_succ_le_iff_lt_nth k hk q]
    exact ⟨fun h => h.2, fun h => ⟨h.trans (nth_lt_of_lt_count k hk), h⟩⟩
  rw [hset, Finset.card_range]

theorem card_count_succ_le_of_ge (k : ℕ) (hk : Nat.count p N ≤ k) :
    ((Finset.range N).filter (fun q => Nat.count p (q + 1) ≤ k)).card = N := by
  rw [Finset.filter_true_of_mem fun q hq =>
    (Nat.count_monotone p (Nat.succ_le_of_lt (Finset.mem_range.1 hq))).trans hk, Finset.card_range]

-- k ↦ nth p k is a bijection from the ranks below count p N onto the positions below N satisfying p, with inverse count p.
theorem sum_nth_eq_sum_filter {M : Type*} [AddCommMonoid M] (g : ℕ → M) :
    ∑ k ∈ Finset.range (Nat.count p N), g (Nat.nth p k) = ∑ q ∈ (Finset.range N).filter p, g q := by
  refine Finset.sum_nbij' (fun k => Nat.nth p k) (fun q => Nat.count p q) ?_ ?_ ?_ ?_ fun _ _ => rfl
  · intro k hk
    have hk' : k < Nat.count p N := Finset.mem_range.1 hk
    exact Finset.mem_filter.2 ⟨Finset.mem_range.2 (nth_lt_of_lt_count k hk'), Nat.nth_mem k (lt_card_of_lt_count hk')⟩
  · intro q hq
    rw [Finset.mem_filter, Finset.mem_range] at hq
    exact Finset.mem_range.2 (Nat.count_strict_mono hq.2 hq.1)
  · exact fun k hk => Nat.count_nth (lt_card_of_lt_count (Finset.mem_range.1 hk))
  · exact fun q hq => Nat.nth_count (Finset.mem_filter.1 hq).2

theorem sum_fin_rank_eq {M : Type*} [AddCommMonoid M] (E : ℕ) (hE : Nat.count p N ≤ E) (g : ℕ → M) :
    ∑ k : Fin E, (if k.val < Nat.count p N then g (Nat.nth p k.val) else 0)
      = ∑ q : Fin N, (if p q.val then g q.val else 0) := by
  rw [← Finset.sum_range (fun k => if k < Nat.count p N then g (Nat.nth p k) else 0),
    ← Finset.sum_range (fun q => if p q then g q else 0),
    ← Finset.sum_filter, ← Finset.sum_filter, ← sum_nth_eq_sum_filter g]
  congr 1
  ext k
  rw [Finset.mem_filter, Finset.mem_range, Finset.mem_range]
  exact ⟨fun h => h.2, fun h => ⟨h.trans_le hE, h⟩⟩

theorem count_succ_eq_sum_ite (q : ℕ) :
    Nat.count p (q + 1) = ∑ i ∈ Finset.range (q + 1), (if p i then 1 else 0) := by
  rw [Nat.count_eq_card_filter_range, Finset.card_filter]

theorem sum_card_count_succ_eq (k : ℕ) :
    ∑ v ∈ Finset.range (k + 1), ((Finset.range N).filter (fun q => Nat.count p (q + 1) = v)).card
      = ((Finset.range N).filter (fun q => Nat.count p (q + 1) ≤ k)).card := by
  rw [Finset.card_eq_sum_card_fiberwise (f := fun q => Nat.count p (q + 1))
    (s := (Finset.range N).filter (fun q => Nat.count p (q + 1) ≤ k)) (t := Finset.range (k + 1))
    fun q hq => Finset.mem_coe.2 (Finset.mem_range.2 (Nat.lt_succ_of_le (Finset.mem_filter.1 (Finset.mem_coe.1 hq)).2))]
  refine Finset.sum_congr rfl fun v hv => congrArg Finset.card ?_
  ext q
  rw [Finset.mem_filter, Finset.mem_filter, Finset.mem_filter]
  exact ⟨fun ⟨hq, h⟩ => ⟨⟨hq, h ▸ Nat.lt_succ_iff.1 (Finset.mem_range.1 hv)⟩, h⟩, fun ⟨⟨hq, _⟩, h⟩ => ⟨hq, h⟩⟩

end Cert.LibNthCount
-- ==== Proof.RefNetA.lean ====
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import Mathlib.Algebra.BigOperators.Fin
import Mathlib.Algebra.BigOperators.Group.Finset.Sigma
import Mathlib.Logic.Equiv.Fin.Basic
import proofs.«113402_g36472862278100_cont_sun_c4_736_16_alg».proof.Proof.LibScatterRows
import proofs.«113402_g36472862278100_cont_sun_c4_736_16_alg».proof.Proof.LibNthCount

noncomputable section
open scoped BigOperators

namespace Cert.RefNet
open Idealize.ShloMosaic Idealize.ShloMosaic.ValueIdx

structure RowGather2 {N M C : Nat} (d : GatherDims ⟨2, ![N, C]⟩ ⟨2, ![M, 1]⟩ ⟨2, ![M, C]⟩) : Prop where
  od : d.offsetDims = [1]
  cs : d.collapsedSliceDims = [0]
  ob : d.operandBatchingDims = []
  sb : d.startIndicesBatchingDims = []
  sm : d.startIndexMap = [0]
  iv : d.indexVectorDim = 1
  ss : d.sliceSizes = ![1, C]

def clampRow {N w : Nat} (hN : 0 < N) (v : BitVec w) : Fin N := ⟨min v.toInt.toNat (N - 1), by omega⟩

theorem gather_rows2 {α : Type} {N M C w : Nat} (hN : 0 < N)
    (d : GatherDims ⟨2, ![N, C]⟩ ⟨2, ![M, 1]⟩ ⟨2, ![M, C]⟩) (hd : RowGather2 d)
    (x : (⟨2, ![N, C]⟩ : Shape).Idx → α) (idx : IVec ⟨2, ![M, 1]⟩ w) (m : Fin M) (c : Fin C) :
    Host.gather d x idx (ix2 m c) = x (ix2 (clampRow hN (idx (ix2 m 0))) c) := by
  obtain ⟨h1, h2, h3, h4, h5, h6, h7⟩ := hd
  obtain ⟨od, cs, ob, sb, sm, iv, ss, wf⟩ := d
  simp only at h1 h2 h3 h4 h5 h6 h7
  subst h1 h2 h3 h4 h5 h6 h7
  unfold Host.gather
  congr 1
  funext a
  apply Fin.ext
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ k, GatherDims.siIdx (s := ⟨2, ![N, C]⟩) (si := ⟨2, ![M, 1]⟩) (t := ⟨2, ![M, C]⟩)
        ⟨[1], [0], [], [], [0], 1, ![1, C], wf⟩ (ix2 m c) k = ix2 m 0 := by
      intro k
      funext b
      match b with
      | ⟨0, _⟩ => exact Fin.ext rfl
      | ⟨1, _⟩ => exact Subsingleton.elim (α := Fin 1) _ _
    rw [hsi]
    rfl
  | ⟨1, _⟩ =>
    show GatherDims.start _ _ idx 1 + GatherDims.batchCoord _ _ 1 + GatherDims.offCoord _ _ 1 = _
    rw [GatherDims.batchCoord_eq_zero _ _ _ List.not_mem_nil]
    unfold GatherDims.start
    rw [dif_neg (by simp)]
    simp only [Nat.add_zero, Nat.zero_add]
    unfold GatherDims.offCoord
    rw [dif_pos ((GatherDims.mem_sKept _ _).mpr ⟨by simp, List.not_mem_nil⟩)]
    rfl

theorem toInt_ofNat_of_lt (a : ℕ) (ha : a < 2 ^ 31) : (BitVec.ofNat 32 a).toInt = (a : Int) := by
  rw [BitVec.toInt_eq_toNat_cond, BitVec.toNat_ofNat, Nat.mod_eq_of_lt (by omega)]
  rw [if_pos (by omega)]

theorem wrapW_ofNat_of_lt (n : BitVec 32) (a : ℕ) (ha : a < 2 ^ 31) :
    Cert.Lib.wrapW n (BitVec.ofNat 32 a) = BitVec.ofNat 32 a := by
  unfold Cert.Lib.wrapW Scalar.select IntOp.cmpi
  have h : (BitVec.ofNat 32 a).slt 0#32 = false := by
    rw [BitVec.slt_eq_decide, toInt_ofNat_of_lt a ha]
    simp
  rw [h]
  rfl

-- A flat position q of an R × C grid is (q / C, q % C), so column j's terms are indexed by the rows.
theorem sum_flat_col {M : Type*} [AddCommMonoid M] (R C : ℕ) (p : ℕ → Prop) [DecidablePred p] (j : Fin C) (g : ℕ → M) :
    ∑ q : Fin (R * C), (if p q.val then (if q.val % C = j.val then g (q.val / C) else 0) else 0)
      = ∑ i : Fin R, if p (C * i.val + j.val) then g i.val else 0 := by
  have hC : 0 < C := Fin.pos j
  rw [← (finProdFinEquiv (m := R) (n := C)).sum_comp, Fintype.sum_prod_type]
  refine Finset.sum_congr rfl fun i _ => ?_
  have hv : ∀ b : Fin C, (finProdFinEquiv (i, b)).val = b.val + C * i.val := fun b => rfl
  rw [Finset.sum_eq_single j]
  · rw [hv, Nat.add_mul_mod_self_left, Nat.mod_eq_of_lt j.isLt, if_pos rfl, Nat.add_mul_div_left _ _ hC,
      Nat.div_eq_of_lt j.isLt, Nat.zero_add, Nat.add_comm]
  · intro b _ hb
    have hne : ¬ (finProdFinEquiv (i, b)).val % C = j.val := by
      rw [hv, Nat.add_mul_mod_self_left, Nat.mod_eq_of_lt b.isLt]
      exact fun h => hb (Fin.ext h)
    rw [if_neg hne]
    split <;> rfl
  · intro h; exact absurd (Finset.mem_univ _) h

structure EdgeList (p : ℕ → Prop) [DecidablePred p] (a1 : FVec Ideal ⟨2, ![4096, 4096]⟩ .f32)
    (src dst : IVec ⟨1, ![131072]⟩ 32) : Prop where
  hp : ∀ i j : Fin 4096, p (4096 * i.val + j.val) ↔ a1 (ix2 i j) ≠ 0
  hbin : ∀ i, a1 i = 0 ∨ a1 i = 1
  hK : Nat.count p 16777216 ≤ 131072
  hsrc : ∀ k : Fin 131072, k.val < Nat.count p 16777216 → src (ix1 k) = BitVec.ofNat 32 (Nat.nth p k.val / 4096)
  hsrc' : ∀ k : Fin 131072, Nat.count p 16777216 ≤ k.val → src (ix1 k) = 4096#32
  hdst : ∀ k : Fin 131072, k.val < Nat.count p 16777216 → dst (ix1 k) = BitVec.ofNat 32 (Nat.nth p k.val % 4096)
  hdst' : ∀ k : Fin 131072, Nat.count p 16777216 ≤ k.val → dst (ix1 k) = 4096#32

-- Edge k < K carries row (nth p k / 4096) of H to row (nth p k % 4096); re-indexing along k ↦ nth p k turns the sum over edges into a sum over the nonzero entries of column j, and a 0/1 entry is its own indicator.
theorem EdgeList.scatter_gather_rows {p : ℕ → Prop} [DecidablePred p] {a1 : FVec Ideal ⟨2, ![4096, 4096]⟩ .f32}
    {src dst : IVec ⟨1, ![131072]⟩ 32} (E : EdgeList p a1 src dst)
    (dg : GatherDims ⟨2, ![4096, 64]⟩ ⟨2, ![131072, 1]⟩ ⟨2, ![131072, 64]⟩) (hdg : RowGather2 dg)
    (ds : ScatterDims ⟨2, ![4096, 64]⟩ ⟨2, ![131072, 1]⟩ ⟨2, ![131072, 64]⟩) (hds : Cert.Lib.RowScatter2 ds)
    (x0 : FVec Ideal ⟨2, ![4096, 64]⟩ .f32) (hx0 : ∀ i, x0 i = 0)
    (scol dcol : IVec ⟨2, ![131072, 1]⟩ 32)
    (hscol : ∀ k : Fin 131072, scol (ix2 k 0) = Cert.Lib.wrapW 4096#32 (src (ix1 k)))
    (hdcol : ∀ k : Fin 131072, dcol (ix2 k 0) = dst (ix1 k))
    (H : FVec Ideal ⟨2, ![4096, 64]⟩ .f32) (j : Fin 4096) (f : Fin 64) :
    Host.scatterAdd ds x0 dcol (Host.gather dg H scol) (ix2 j f) = ∑ i : Fin 4096, H (ix2 i f) * a1 (ix2 i j) := by
  rw [Cert.Lib.scatterAdd_rows2 ds hds, hx0, zero_add, Finset.sum_filter]
  let g : ℕ → EReal := fun i => if h : i < 4096 then H (ix2 ⟨i, h⟩ f) else 0
  have hterm : ∀ k : Fin 131072,
      (if (dcol (ix2 k 0)).toInt = (j.val : Int) then Host.gather dg H scol (ix2 k f) else 0)
        = if k.val < Nat.count p 16777216 then
            (if Nat.nth p k.val % 4096 = j.val then g (Nat.nth p k.val / 4096) else 0) else 0 := by
    intro k
    rw [hdcol, gather_rows2 (by norm_num) dg hdg, hscol]
    by_cases hk : k.val < Nat.count p 16777216
    · rw [if_pos hk, E.hdst k hk, E.hsrc k hk]
      have hq : Nat.nth p k.val < 16777216 := Nat.nth_lt_of_lt_count hk
      have hd : Nat.nth p k.val / 4096 < 4096 := by omega
      rw [toInt_ofNat_of_lt _ (by omega), wrapW_ofNat_of_lt _ _ (by omega)]
      by_cases hj : Nat.nth p k.val % 4096 = j.val
      · rw [if_pos hj, if_pos (by exact_mod_cast hj)]
        show _ = if h : Nat.nth p k.val / 4096 < 4096 then H (ix2 ⟨_, h⟩ f) else 0
        rw [dif_pos hd]
        congr 2
        apply Fin.ext
        show min (BitVec.ofNat 32 (Nat.nth p k.val / 4096)).toInt.toNat (4096 - 1) = Nat.nth p k.val / 4096
        rw [toInt_ofNat_of_lt _ (by omega), Int.toNat_natCast]
        omega
      · rw [if_neg hj, if_neg (by exact_mod_cast hj)]
    · rw [if_neg hk, E.hdst' k (not_lt.1 hk), toInt_ofNat_of_lt 4096 (by omega), if_neg (by have := j.isLt; omega)]
  rw [Finset.sum_congr rfl fun k _ => hterm k]
  rw [Cert.LibNthCount.sum_fin_rank_eq (p := p) (N := 16777216) 131072 E.hK
    (fun q => if q % 4096 = j.val then g (q / 4096) else 0)]
  have h := sum_flat_col 4096 4096 p j g
  rw [show (4096 * 4096 : ℕ) = 16777216 from rfl] at h
  rw [h]
  refine Finset.sum_congr rfl fun i _ => ?_
  have hg : g i.val = H (ix2 i f) := by
    show (if h : i.val < 4096 then H (ix2 ⟨i.val, h⟩ f) else 0) = _
    rw [dif_pos i.isLt]
  rw [hg]
  rcases E.hbin (ix2 i j) with h | h
  · rw [if_neg (fun hq => (E.hp i j).1 hq h), h, mul_zero]
  · rw [if_pos ((E.hp i j).2 (by rw [h]; exact one_ne_zero)), h, mul_one]

end Cert.RefNet
end
-- ==== Proof.RefNetB.lean ====
import Idealize.ShloMosaic.Lib.StackMember
import proofs.«113402_g36472862278100_cont_sun_c4_736_16_alg».proof.ReferenceIdeal
import proofs.«113402_g36472862278100_cont_sun_c4_736_16_alg».proof.Proof.Spec
import proofs.«113402_g36472862278100_cont_sun_c4_736_16_alg».proof.Proof.RefNetA

noncomputable section
open scoped BigOperators

namespace Cert.ReferenceIdeal.Hand

open Cert.ReferenceIdeal Idealize.ShloMosaic Idealize.ShloMosaic.ValueIdx
open Cert.ReferenceIdeal.Facts₀ Cert.ReferenceIdeal.Facts Cert.RefNet

variable [Facts]

def refSrcCol (src : IVec S131072 32) : IVec S131072x1 32 :=
  broadcastInDim S131072x1 ![0] bcast_S131072_S131072x1_0
    (select (cmpi .slt src (broadcastInDim S131072 ![] bcast_S_S131072 (constantI S_ 32 0#32)))
      (addi src (broadcastInDim S131072 ![] bcast_S_S131072 (constantI S_ 32 4096#32))) src)

def refAgg (src dst : IVec S131072 32) (H : FVec Ideal S4096x64 .f32) (b : FVec Ideal S64 .f32) : FVec Ideal S4096x64 .f32 :=
  addf
    (Host.scatterAdd scatter_S4096x64_S131072x1_S131072x64_1_0_0_1
      (broadcastInDim S4096x64 ![] bcast_S_S4096x64 (constant S_ .f32 0x00000000#32))
      (broadcastInDim S131072x1 ![0] bcast_S131072_S131072x1_0 dst)
      (Host.gather gather_S4096x64_S131072x1_S131072x64_1_0_n_n_0_1_164 H (refSrcCol src)))
    (broadcastInDim S4096x64 ![0, 1] bcast_S1x64_S4096x64_0_1 (broadcastInDim S1x64 ![1] bcast_S64_S1x64_1 b))

def refRelu (x : FVec Ideal S4096x64 .f32) : FVec Ideal S4096x64 .f32 :=
  maximumf x (broadcastInDim S4096x64 ![] bcast_S_S4096x64 (constant S_ .f32 0x00000000#32))

theorem bias_apply (b : FVec Ideal S64 .f32) (j : Fin 4096) (f : Fin 64) :
    broadcastInDim S4096x64 ![0, 1] bcast_S1x64_S4096x64_0_1 (broadcastInDim S1x64 ![1] bcast_S64_S1x64_1 b) (ix2 j f)
      = b (ix1 f) :=
  (broadcastInDim_apply _ _ _ (ix2 j f) (ix2 (0 : Fin 1) f) (Fin.forall_fin_two.2 ⟨rfl, rfl⟩)).trans
    (broadcastInDim_apply _ _ b (ix2 (0 : Fin 1) f) (ix1 f) (Fin.forall_fin_one.2 rfl))

theorem zeros_apply (i : S4096x64.Idx) :
    (broadcastInDim S4096x64 ![] bcast_S_S4096x64 (constant S_ .f32 0x00000000#32) : FVec Ideal S4096x64 .f32) i = 0 := by
  rw [broadcastInDim_scalar_apply, constant_apply, Ideal.ofBits_zero_f32]

theorem refRelu_apply (x : FVec Ideal S4096x64 .f32) (i : S4096x64.Idx) : refRelu x i = max (x i) 0 := by
  unfold refRelu
  rw [maximumf_apply, zeros_apply]

variable {p : ℕ → Prop} [DecidablePred p] {a1 : FVec Ideal S4096x4096 .f32} {src dst : IVec S131072 32}
  (E : EdgeList p a1 src dst) (a0 : FVec Ideal S4096x256 .f32) (a2 : FVec Ideal S256x64 .f32)
  (a3 a4 : FVec Ideal S64x64 .f32) (a5 a6 a7 : FVec Ideal S64 .f32) (j : Fin 4096) (f : Fin 64)
include E

theorem agg_apply (H : FVec Ideal S4096x64 .f32) (L : Fin 4096 → Fin 64 → EReal) (hL : ∀ i f, H (ix2 i f) = L i f)
    (b : FVec Ideal S64 .f32) : refAgg src dst H b (ix2 j f) = Cert.Spec.agg a1 L j f + b (ix1 f) := by
  obtain rfl : (fun i f => H (ix2 i f)) = L := funext fun i => funext fun f => hL i f
  unfold refAgg
  rw [addf_apply, bias_apply]
  exact congrArg (· + b (ix1 f)) (E.scatter_gather_rows _ ⟨rfl, rfl, rfl, rfl, rfl, rfl, rfl⟩ _ ⟨rfl, rfl, rfl, rfl⟩ _
    zeros_apply (refSrcCol src) _ (fun k => (Cert.Lib.broadcastInDim_col_apply _ _ k 0).trans rfl)
    (fun k => Cert.Lib.broadcastInDim_col_apply bcast_S131072_S131072x1_0 dst k 0) H j f)

theorem layer_apply (X : FVec Ideal S4096x64 .f32) (G : Fin 4096 → Fin 64 → EReal) (hG : ∀ i k, X (ix2 i k) = G i k)
    (W : FVec Ideal S64x64 .f32) (b : FVec Ideal S64 .f32) :
    refAgg src dst (Host.dotGeneral dot_S4096x64_S64x64_S4096x64_1_0_0_1_n_n none X W) b (ix2 j f)
      = Cert.Spec.agg a1 (Cert.Spec.lin G W) j f + b (ix1 f) := by
  obtain rfl : (fun i k => X (ix2 i k)) = G := funext fun i => funext fun k => hG i k
  exact agg_apply E j f _ _ (StackMember.dotGeneral_plain_apply (m := 4096) (n := 64) (k := 64) none X W) b

def refX1 (src dst : IVec S131072 32) (a0 : FVec Ideal S4096x256 .f32) (a2 : FVec Ideal S256x64 .f32)
    (a5 : FVec Ideal S64 .f32) : FVec Ideal S4096x64 .f32 :=
  refRelu (refAgg src dst (Host.dotGeneral dot_S4096x256_S256x64_S4096x64_1_0_0_1_n_n none a0 a2) a5)

def refX2 (src dst : IVec S131072 32) (a0 : FVec Ideal S4096x256 .f32) (a2 : FVec Ideal S256x64 .f32)
    (a3 : FVec Ideal S64x64 .f32) (a5 a6 : FVec Ideal S64 .f32) : FVec Ideal S4096x64 .f32 :=
  refRelu (refAgg src dst (Host.dotGeneral dot_S4096x64_S64x64_S4096x64_1_0_0_1_n_n none (refX1 src dst a0 a2 a5) a3) a6)

def refX3 (src dst : IVec S131072 32) (a0 : FVec Ideal S4096x256 .f32) (a2 : FVec Ideal S256x64 .f32)
    (a3 a4 : FVec Ideal S64x64 .f32) (a5 a6 a7 : FVec Ideal S64 .f32) : FVec Ideal S4096x64 .f32 :=
  refAgg src dst (Host.dotGeneral dot_S4096x64_S64x64_S4096x64_1_0_0_1_n_n none (refX2 src dst a0 a2 a3 a5 a6) a4) a7

theorem refX1_apply : refX1 src dst a0 a2 a5 (ix2 j f) = Cert.Spec.X1 a1 a0 a2 a5 j f := by
  unfold refX1 Cert.Spec.X1
  rw [refRelu_apply]
  exact congrArg (max · 0) (agg_apply E j f _ _
    (StackMember.dotGeneral_plain_apply (m := 4096) (n := 64) (k := 256) none a0 a2) a5)

theorem refX2_apply : refX2 src dst a0 a2 a3 a5 a6 (ix2 j f) = Cert.Spec.X2 a1 a0 a2 a3 a5 a6 j f := by
  unfold refX2 Cert.Spec.X2
  rw [refRelu_apply, layer_apply E j f _ _ (fun i k => refX1_apply E a0 a2 a5 i k)]

theorem refX3_apply : refX3 src dst a0 a2 a3 a4 a5 a6 a7 (ix2 j f) = Cert.Spec.X3 a1 a0 a2 a3 a4 a5 a6 a7 j f := by
  unfold refX3 Cert.Spec.X3
  rw [layer_apply E j f _ _ (fun i k => refX2_apply E a0 a2 a3 a5 a6 i k)]

end Cert.ReferenceIdeal.Hand
end
-- ==== Proof.RefNet.lean ====
import proofs.«113402_g36472862278100_cont_sun_c4_736_16_alg».proof.Proof.RefTerm
import proofs.«113402_g36472862278100_cont_sun_c4_736_16_alg».proof.Proof.RefHead
import proofs.«113402_g36472862278100_cont_sun_c4_736_16_alg».proof.Proof.RefNetB

noncomputable section
open scoped BigOperators

namespace Cert.ReferenceIdeal.Hand

open Cert.ReferenceIdeal Idealize.ShloMosaic Idealize.ShloMosaic.ValueIdx
open Cert.ReferenceIdeal.Facts₀ Cert.ReferenceIdeal.Facts Cert.RefNet

variable [Facts]

-- The program's network is the row-wise log-softmax of the head's logits over the three layers' features, and over an edge list each layer's features are the specification's.
theorem refNet_eq_spec {p : ℕ → Prop} [DecidablePred p] {a1 : FVec Ideal S4096x4096 .f32} {src dst : IVec S131072 32}
    (E : EdgeList p a1 src dst) (a0 : FVec Ideal S4096x256 .f32) (a2 : FVec Ideal S256x64 .f32)
    (a3 a4 : FVec Ideal S64x64 .f32) (a5 a6 a7 : FVec Ideal S64 .f32) (a8 : FVec Ideal S192x10 .f32)
    (a9 : FVec Ideal S10 .f32) :
    refNet (F := Ideal) src dst a0 a2 a3 a4 a5 a6 a7 a8 a9 = Cert.Spec.out a1 a0 a2 a3 a4 a5 a6 a7 a8 a9 := by
  funext i
  obtain ⟨j, c, rfl⟩ : ∃ j c, i = ix2 j c := ⟨i 0, i 1, eq_ix2 i⟩
  refine (Cert.RefHead.logSoftmax_apply (Cert.RefHead.headLogits (refX1 src dst a0 a2 a5) (refX2 src dst a0 a2 a3 a5 a6)
    (refX3 src dst a0 a2 a3 a4 a5 a6 a7) a8 a9) j c).trans ?_
  show _ = Cert.Spec.logSoftmaxRow (Cert.Spec.logits a1 a0 a2 a3 a4 a5 a6 a7 a8 a9 j) c
  refine congrArg (fun l => Cert.Spec.logSoftmaxRow l c) (funext fun c' => ?_)
  rw [Cert.RefHead.headLogits_apply]
  unfold Cert.Spec.logits
  simp only [refX1_apply E, refX2_apply E, refX3_apply E]

end Cert.ReferenceIdeal.Hand
end
-- ==== Proof.RefEdgesA.lean ====
import Idealize.ShloMosaic.PureOps.Ideal
import Idealize.ShloMosaic.PureOps
import Idealize.ShloMosaic.Lib.ValueIdx
import Idealize.ShloMosaic.Lib.StableHlo.Predicate
import Mathlib.Data.Nat.Count
import Mathlib.Data.Nat.Nth

noncomputable section

namespace Cert.RefEdges

open Idealize.ShloMosaic Idealize.ShloMosaic.ValueIdx

variable (a1 : FVec Ideal ⟨2, ![4096, 4096]⟩ .f32)

-- Flat position q = 4096 · i + j holds a nonzero entry; false from 4096² on.
def nz (q : ℕ) : Prop :=
  ∃ _h : q < 16777216, a1 (ix2 ⟨q / 4096, by omega⟩ ⟨q % 4096, Nat.mod_lt _ (by norm_num)⟩) ≠ 0

instance nzDecidable : DecidablePred (nz a1) :=
  fun _ => Classical.propDecidable _

def nnz : ℕ := Nat.count (nz a1) 16777216

theorem nz_iff (i j : Fin 4096) :
    nz a1 (4096 * i.val + j.val) ↔ a1 (ix2 i j) ≠ 0 := by
  have hi := i.isLt
  have hj := j.isLt
  have e1 : (4096 * i.val + j.val) / 4096 = i.val := by omega
  have e2 : (4096 * i.val + j.val) % 4096 = j.val := by omega
  have hidx : (ix2 (⟨(4096 * i.val + j.val) / 4096, by omega⟩ : Fin 4096)
      (⟨(4096 * i.val + j.val) % 4096, Nat.mod_lt _ (by norm_num)⟩ : Fin 4096)) = ix2 i j := by
    congr 1 <;> exact Fin.ext (by assumption)
  constructor
  · rintro ⟨_, h⟩
    rwa [hidx] at h
  · intro h
    exact ⟨by omega, by rwa [hidx]⟩

theorem une_zero_apply {s : Shape} (a z : FVec Ideal s .f32) (hz : ∀ i, z i = 0) (i : s.Idx) :
    cmpf .une a z i = 1#1 ↔ a i ≠ 0 := by
  show BitVec.ofBool (decide (a i ≠ z i)) = 1#1 ↔ a i ≠ 0
  rw [hz i, StableHlo.Predicate.ofBool_eq_one_iff, decide_eq_true_eq]

theorem bcast_zero_apply {t : Shape} (h : (⟨0, ![]⟩ : Shape).BroadcastsInDim t ![]) (i : t.Idx) :
    broadcastInDim t ![] h (constant (F := Ideal) ⟨0, ![]⟩ .f32 0x00000000#32) i = 0 := by
  show Ideal.ofBits .f32 0x00000000#32 = 0
  simp [Ideal.ofBits, Ideal.ieee]

theorem shapeCast_flat_apply {α : Type} (m : (⟨2, ![4096, 4096]⟩ : Shape).Idx → α)
    (h : (⟨2, ![4096, 4096]⟩ : Shape).ShapeCasts ⟨1, ![16777216]⟩) (q : Fin 16777216) :
    shapeCast ⟨1, ![16777216]⟩ m h (ix1 q)
      = m (ix2 ⟨q.val / 4096, by have := q.isLt; omega⟩ ⟨q.val % 4096, Nat.mod_lt _ (by norm_num)⟩) := by
  unfold shapeCast
  congr 1
  apply Shape.reshapeEquiv_eq_of_rowMajor
  rw [Shape.rowMajor_val_two, Shape.rowMajor_val_one]
  show q.val / 4096 * 4096 + q.val % 4096 = q.val
  omega

theorem flat_mask_toNat (z : FVec Ideal ⟨2, ![4096, 4096]⟩ .f32) (hz : ∀ i, z i = 0)
    (h : (⟨2, ![4096, 4096]⟩ : Shape).ShapeCasts ⟨1, ![16777216]⟩) (hw : 1 < 32) (q : Fin 16777216) :
    (extui 32 (shapeCast ⟨1, ![16777216]⟩ (cmpf .une a1 z) h) hw (ix1 q)).toNat = if nz a1 q.val then 1 else 0 := by
  rw [extui_apply, StableHlo.Predicate.toNat_setWidth_bit, shapeCast_flat_apply]
  have hq := q.isLt
  exact if_congr ((une_zero_apply a1 z hz _).trans ⟨fun h => ⟨hq, h⟩, fun ⟨_, h⟩ => h⟩) rfl rfl

theorem nnz_eq_card :
    nnz a1 = (Finset.univ.filter (fun i : (⟨2, ![4096, 4096]⟩ : Shape).Idx => a1 i ≠ 0)).card := by
  unfold nnz
  rw [Nat.count_eq_card_filter_range]
  symm
  refine Finset.card_bij (fun i _ => 4096 * (i 0).val + (i 1).val) ?_ ?_ ?_
  · intro i hi
    have h0 := idx2_lt0 i
    have h1 := idx2_lt1 i
    rw [Finset.mem_filter] at hi ⊢
    refine ⟨Finset.mem_range.2 (by omega), (nz_iff a1 (i 0) (i 1)).2 ?_⟩
    have h2 := hi.2
    rw [eq_ix2 i] at h2
    exact h2
  · intro i _ j _ hij
    have h0 := idx2_lt0 i
    have h1 := idx2_lt1 i
    have g0 := idx2_lt0 j
    have g1 := idx2_lt1 j
    rw [eq_ix2 i, eq_ix2 j]
    have e0 : i 0 = j 0 := Fin.ext (by omega)
    have e1 : i 1 = j 1 := Fin.ext (by omega)
    rw [e0, e1]
  · intro q hq
    rw [Finset.mem_filter, Finset.mem_range] at hq
    obtain ⟨hlt, _, hne⟩ := hq
    refine ⟨ix2 ⟨q / 4096, by omega⟩ ⟨q % 4096, Nat.mod_lt _ (by norm_num)⟩, ?_, ?_⟩
    · exact Finset.mem_filter.2 ⟨Finset.mem_univ _, hne⟩
    · show 4096 * (q / 4096) + q % 4096 = q
      omega

theorem nnz_le : nnz a1 ≤ 16777216 := Nat.count_le (nz a1)

end Cert.RefEdges

end
-- ==== Proof.LibIntScan.lean ====
import Idealize.ShloMosaic.PureOps.Contract
import Idealize.ShloMosaic.PureOps.Reduce
import Idealize.ShloMosaic.Lib.ValueIdx
import Idealize.ShloMosaic.Lib.WordSum
import Mathlib.Data.BitVec
import Mathlib.Algebra.BigOperators.Fin

open scoped BigOperators

namespace Cert.LibIntScan

open Idealize.ShloMosaic Idealize.ShloMosaic.ValueIdx

theorem foldl_addi_finRange {N : Nat} (g : Fin N → BitVec 32) :
    (List.finRange N).foldl (fun r m => IntOp.addi r (g m)) 0#32 = ∑ m : Fin N, g m := by
  rw [Fin.sum_univ_def, List.sum_eq_foldl, List.foldl_map]
  rfl

def idxEquiv1 {n : Nat} : (⟨1, ![n]⟩ : Shape).Idx ≃ Fin n where
  toFun i := i 0
  invFun k := ix1 k
  left_inv i := (eq_ix1 i).symm
  right_inv _ := rfl

variable {n p : Nat} (hp : p + 1 = n) (x : (⟨1, ![n]⟩ : Shape).Idx → BitVec 32) {u : Shape}
    (init : u.Idx → BitVec 32)
    (hRW : (⟨1, ![n]⟩ : Shape).ReduceWindows (![n] : Fin 1 → Nat) ![1] ![p] ![0] ⟨1, ![n]⟩) (hu : 0 < u.numel)
    (hinit : init (Shape.Idx.first hu) = 0#32) (q : Fin n)
include hp hinit

theorem reduceWindow_cumsum :
    Host.reduceWindow IntOp.addi ![n] ![1] ![p] ![0] x init hRW hu (ix1 q)
      = ∑ i ∈ Finset.range (q.val + 1), if h : i < n then x (ix1 ⟨i, h⟩) else 0#32 := by
  unfold Host.reduceWindow
  simp only [hinit]
  rw [foldl_addi_finRange, ← Equiv.sum_comp (Shape.rowMajor ⟨1, ![n]⟩)]
  simp only [Equiv.symm_apply_apply]
  rw [← Equiv.sum_comp (idxEquiv1 (n := n)).symm]
  let y : Nat → BitVec 32 := fun m => if h : m < n then x (ix1 ⟨m, h⟩) else 0#32
  have hq := q.isLt
  trans ∑ k : Fin n, (if p ≤ q.val + k.val then y (q.val + k.val - p) else (0 : BitVec 32))
  · refine Finset.sum_congr rfl fun k _ => ?_
    have hk := k.isLt
    split_ifs with h1 h2
    · have hlt : q.val + k.val - p < n := by omega
      show _ = (if h : q.val + k.val - p < n then x (ix1 ⟨_, h⟩) else 0#32)
      rw [dif_pos hlt]
      congr 1
      funext a
      have ha : a = 0 := Subsingleton.elim _ _
      subst ha
      apply Fin.ext
      show q.val * 1 + k.val - p = q.val + k.val - p
      rw [Nat.mul_one]
    · have h3 := (h1 0).1
      change p ≤ q.val * 1 + k.val at h3
      omega
    · exfalso
      apply h1
      intro a
      have ha : a = 0 := Subsingleton.elim _ _
      subst ha
      show p ≤ q.val * 1 + k.val ∧ q.val * 1 + k.val - p < n
      omega
    · rfl
  · have e := Finset.sum_range_add (fun k => if p ≤ q.val + k then y (q.val + k - p) else 0) (p - q.val) (q.val + 1)
    rw [show p - q.val + (q.val + 1) = n by omega] at e
    rw [Fin.sum_univ_eq_sum_range (fun k => if p ≤ q.val + k then y (q.val + k - p) else 0) n, e, Finset.sum_eq_zero, zero_add]
    · exact Finset.sum_congr rfl fun i hi => by
        have := Finset.mem_range.1 hi
        show (if p ≤ q.val + (p - q.val + i) then y (q.val + (p - q.val + i) - p) else 0) = y i
        rw [if_pos (by omega)]; congr 1; omega
    · intro k hk
      have := Finset.mem_range.1 hk
      exact if_neg (by omega)

-- While the sum of the values stays inside the word, the running sum's value is that sum.
theorem toNat_reduceWindow_cumsum (g : ℕ → ℕ) (hx : ∀ q' : Fin n, (x (ix1 q')).toNat = g q'.val)
    (hS : ∑ i ∈ Finset.range (q.val + 1), g i < 2 ^ 32) :
    (Host.reduceWindow IntOp.addi ![n] ![1] ![p] ![0] x init hRW hu (ix1 q)).toNat
      = ∑ i ∈ Finset.range (q.val + 1), g i := by
  have hg : ∑ i ∈ Finset.range (q.val + 1), (if h : i < n then x (ix1 ⟨i, h⟩) else 0#32).toNat
      = ∑ i ∈ Finset.range (q.val + 1), g i :=
    Finset.sum_congr rfl fun i hi => by
      have hi' : i < n := by have := Finset.mem_range.1 hi; have := q.isLt; omega
      rw [dif_pos hi']; exact hx ⟨i, hi'⟩
  rw [reduceWindow_cumsum hp x init hRW hu hinit q, WordSum.toNat_sum _ _ (by rw [hg]; exact hS), hg]

end Cert.LibIntScan
-- ==== Proof.RefEdgesB.lean ====
import proofs.«113402_g36472862278100_cont_sun_c4_736_16_alg».proof.Proof.RefEdgesA
import proofs.«113402_g36472862278100_cont_sun_c4_736_16_alg».proof.Proof.LibIntScan
import proofs.«113402_g36472862278100_cont_sun_c4_736_16_alg».proof.Proof.LibNthCount

open scoped BigOperators

noncomputable section

namespace Cert.RefEdges

open Idealize.ShloMosaic Idealize.ShloMosaic.ValueIdx

theorem card_fin_filter {n : ℕ} (P : ℕ → Prop) [DecidablePred P] :
    (Finset.univ.filter (fun q : Fin n => P q.val)).card = ((Finset.range n).filter P).card := by
  rw [Finset.card_filter, Finset.card_filter, Fin.sum_univ_eq_sum_range (fun i => if P i then 1 else 0)]

variable (a1 : FVec Ideal ⟨2, ![4096, 4096]⟩ .f32)

theorem cumsum_count (x : (⟨1, ![16777216]⟩ : Shape).Idx → BitVec 32)
    (hx : ∀ q : Fin 16777216, (x (ix1 q)).toNat = if nz a1 q.val then 1 else 0) {u : Shape}
    (init : u.Idx → BitVec 32)
    (hRW : (⟨1, ![16777216]⟩ : Shape).ReduceWindows (![16777216] : Fin 1 → Nat) ![1] ![16777215] ![0] ⟨1, ![16777216]⟩)
    (hu : 0 < u.numel) (hinit : init (Shape.Idx.first hu) = 0#32) (q : Fin 16777216) :
    (Host.reduceWindow IntOp.addi ![16777216] ![1] ![16777215] ![0] x init hRW hu (ix1 q)).toNat
      = Nat.count (nz a1) (q.val + 1) := by
  have hle : Nat.count (nz a1) (q.val + 1) ≤ q.val + 1 := Nat.count_le (nz a1)
  have hq := q.isLt
  rw [LibNthCount.count_succ_eq_sum_ite] at hle ⊢
  exact LibIntScan.toNat_reduceWindow_cumsum rfl x init hRW hu hinit q _ hx (by omega)

-- Summing the histogram of the prefix counts up to k counts the positions whose prefix count is at most k: that is where the k-th nonzero entry sits.
theorem histsum_nth (bins : (⟨1, ![131072]⟩ : Shape).Idx → BitVec 32)
    (hb : ∀ v : Fin 131072, (bins (ix1 v)).toNat
      = ((Finset.range 16777216).filter (fun q => Nat.count (nz a1) (q + 1) = v.val)).card) {u : Shape}
    (init : u.Idx → BitVec 32)
    (hRW : (⟨1, ![131072]⟩ : Shape).ReduceWindows (![131072] : Fin 1 → Nat) ![1] ![131071] ![0] ⟨1, ![131072]⟩)
    (hu : 0 < u.numel) (hinit : init (Shape.Idx.first hu) = 0#32) (k : Fin 131072) :
    (Host.reduceWindow IntOp.addi ![131072] ![1] ![131071] ![0] bins init hRW hu (ix1 k)).toNat
      = if k.val < nnz a1 then Nat.nth (nz a1) k.val else 16777216 := by
  have hle : ((Finset.range 16777216).filter (fun q => Nat.count (nz a1) (q + 1) ≤ k.val)).card ≤ 16777216 :=
    (Finset.card_filter_le _ _).trans (by rw [Finset.card_range])
  rw [LibIntScan.toNat_reduceWindow_cumsum rfl bins init hRW hu hinit k
    (fun v => ((Finset.range 16777216).filter (fun q => Nat.count (nz a1) (q + 1) = v)).card) hb
    (by rw [LibNthCount.sum_card_count_succ_eq]; omega), LibNthCount.sum_card_count_succ_eq]
  split
  · next hk => exact LibNthCount.card_count_succ_le k.val hk
  · next hk => exact LibNthCount.card_count_succ_le_of_ge k.val (not_lt.1 hk)

end Cert.RefEdges

end
-- ==== Proof.LibWordDiv.lean ====
import Idealize.ShloMosaic.PureOps.Vector
import Idealize.ShloMosaic.PureOps.ShapeOps
import Idealize.ShloMosaic.Lib.StableHlo.Predicate
import Idealize.ShloMosaic.Lib.ValueIdx

namespace Cert.LibWordDiv

open Idealize.ShloMosaic
open Idealize.ShloMosaic.StableHlo.Predicate (slt_iff_toNat sge_iff_toNat cmpi_eq_iff bcast_scalar)
open Idealize.ShloMosaic.ValueIdx (select_zero select_one eq_zero_of_ne_one)

theorem msb_false_of_lt {a : BitVec 32} (ha : a.toNat < 2 ^ 31) : a.msb = false :=
  BitVec.msb_eq_false_iff_two_mul_lt.mpr (by omega)

theorem toNat_ofNat_of_lt (a : ℕ) (ha : a < 2 ^ 31) : (BitVec.ofNat 32 a).toNat = a := by
  rw [BitVec.toNat_ofNat]; exact Nat.mod_eq_of_lt (by omega)

theorem cmpi_slt_zero (a : BitVec 32) (ha : a.toNat < 2 ^ 31) : IntOp.cmpi .slt a 0#32 = 0#1 :=
  eq_zero_of_ne_one fun h => absurd ((slt_iff_toNat ha (by decide)).mp h) (Nat.not_lt_zero _)

def signW (x : BitVec 32) : BitVec 32 := if x = 0 then 0 else if x.msb then -1 else 1

theorem signW_pos (x : BitVec 32) (h0 : 0 < x.toNat) (h : x.toNat < 2 ^ 31) : signW x = 1 := by
  have hx : ¬ x = 0#32 := by rintro rfl; simp at h0
  simp [signW, hx, msb_false_of_lt h]

def floorDivW (v d : BitVec 32) : BitVec 32 :=
  Scalar.select
    (IntOp.andi (IntOp.cmpi .ne (signW v) (signW d)) (IntOp.cmpi .ne (IntOp.remsi .host v d) 0#32))
    (IntOp.subi (IntOp.divsi .host v d) 1#32) (IntOp.divsi .host v d)

def remainderW (v d : BitVec 32) : BitVec 32 :=
  let d' := Scalar.select (IntOp.cmpi .eq d 0#32) 1#32 d
  let r := IntOp.remsi .host v d'
  Scalar.select
    (IntOp.andi (IntOp.cmpi .ne (IntOp.cmpi .slt r 0#32) (IntOp.cmpi .slt d' 0#32)) (IntOp.cmpi .ne r 0#32))
    (IntOp.addi r d') r

section
variable (v d : BitVec 32) (hv : v.toNat < 2 ^ 31) (hd0 : 0 < d.toNat) (hd : d.toNat < 2 ^ 31)
include hd0 hd

theorem not_corner : ¬ IntOp.SDivCorner v d := by
  rintro (hc | ⟨_, hc⟩)
  · rw [hc] at hd0; simp at hd0
  · rw [hc] at hd; revert hd; decide

include hv

theorem divsi_host_eq : IntOp.divsi .host v d = BitVec.ofNat 32 (v.toNat / d.toNat) := by
  have hle : v.toNat / d.toNat ≤ v.toNat := Nat.div_le_self _ _
  simp only [IntOp.divsi, if_neg (not_corner v d hd0 hd), BitVec.sdiv_eq, msb_false_of_lt hv, msb_false_of_lt hd,
    BitVec.udiv_eq]
  apply BitVec.eq_of_toNat_eq
  rw [BitVec.toNat_udiv, toNat_ofNat_of_lt _ (by omega)]

theorem remsi_host_eq : IntOp.remsi .host v d = BitVec.ofNat 32 (v.toNat % d.toNat) := by
  have hlt : v.toNat % d.toNat < d.toNat := Nat.mod_lt _ hd0
  simp only [IntOp.remsi, if_neg (not_corner v d hd0 hd), BitVec.srem_eq, msb_false_of_lt hv, msb_false_of_lt hd,
    BitVec.umod_eq]
  apply BitVec.eq_of_toNat_eq
  rw [BitVec.toNat_umod, toNat_ofNat_of_lt _ (by omega)]

-- No correction is made: the signs agree unless the dividend, hence the remainder, is zero.
theorem floorDivW_eq : floorDivW v d = BitVec.ofNat 32 (v.toNat / d.toNat) := by
  have hcond : IntOp.andi (IntOp.cmpi .ne (signW v) (signW d)) (IntOp.cmpi .ne (IntOp.remsi .host v d) 0#32) = 0#1 := by
    rw [signW_pos d hd0 hd, remsi_host_eq v d hv hd0 hd]
    by_cases hz : v.toNat = 0
    · rw [hz, Nat.zero_mod, show IntOp.cmpi .ne (BitVec.ofNat 32 0) 0#32 = 0#1 from rfl]; exact BitVec.and_zero
    · rw [signW_pos v (by omega) hv, show IntOp.cmpi .ne (1 : BitVec 32) 1 = 0#1 from rfl]; exact BitVec.zero_and
  rw [floorDivW, hcond, select_zero, divsi_host_eq v d hv hd0 hd]

-- The divisor is not zero, and remainder and divisor are both non-negative, so no correction is made.
theorem remainderW_eq : remainderW v d = BitVec.ofNat 32 (v.toNat % d.toNat) := by
  have hd' : Scalar.select (IntOp.cmpi .eq d 0#32) 1#32 d = d := by
    rw [eq_zero_of_ne_one (mt cmpi_eq_iff.mp (by rintro rfl; simp at hd0)), select_zero]
  have hrlt : (BitVec.ofNat 32 (v.toNat % d.toNat)).toNat < 2 ^ 31 := by
    have := Nat.mod_lt v.toNat hd0
    rw [toNat_ofNat_of_lt _ (by omega)]; omega
  simp only [remainderW, hd', remsi_host_eq v d hv hd0 hd, cmpi_slt_zero _ hrlt, cmpi_slt_zero d hd]
  rw [show IntOp.cmpi .ne (0#1) (0#1) = 0#1 from rfl, IntOp.andi, BitVec.zero_and, select_zero]

end

abbrev S0 : Shape := ⟨0, ![]⟩

def i0 : S0.Idx := fun a => a.elim0

theorem bcast0_apply {α : Type} {t : Shape} (bc : S0.BroadcastsInDim t ![]) (x : S0.Idx → α) (j : t.Idx) :
    broadcastInDim t ![] bc x j = x i0 :=
  (bcast_scalar bc (by decide) x j).trans (congrArg x (funext fun a => a.elim0))

variable {t : Shape} (bc : S0.BroadcastsInDim t ![])

def floorDivide (v : IVec t 32) (d : IVec S0 32) : IVec t 32 :=
  let v0 := broadcastInDim t ![] bc d
  let v1 := Host.divsi v v0
  let v2 := signi v
  let v3 := signi d
  let v4 := broadcastInDim t ![] bc v3
  let v5 := cmpi .ne v2 v4
  let v6 := broadcastInDim t ![] bc d
  let v7 := Host.remsi v v6
  let c := constantI S0 32 0#32
  let v8 := broadcastInDim t ![] bc c
  let v9 := cmpi .ne v7 v8
  let v10 := andi v5 v9
  let c_0 := constantI S0 32 1#32
  let v11 := broadcastInDim t ![] bc c_0
  let v12 := subi v1 v11
  select v10 v12 v1

def remainder (v : IVec t 32) (d : IVec S0 32) : IVec t 32 :=
  let v0 : IVec S0 32 := id d
  let c := constantI S0 32 0#32
  let v1 := cmpi .eq v0 c
  let c_0 := constantI S0 32 1#32
  let v2 := select v1 c_0 v0
  let v3 := broadcastInDim t ![] bc v2
  let v4 := Host.remsi v v3
  let c_1 := constantI S0 32 0#32
  let v5 := broadcastInDim t ![] bc c_1
  let v6 := cmpi .ne v4 v5
  let c_2 := constantI S0 32 0#32
  let v7 := broadcastInDim t ![] bc c_2
  let v8 := cmpi .slt v4 v7
  let c_3 := constantI S0 32 0#32
  let v9 := cmpi .slt v2 c_3
  let v10 := broadcastInDim t ![] bc v9
  let v11 := cmpi .ne v8 v10
  let v12 := andi v11 v6
  let v13 := broadcastInDim t ![] bc v2
  let v14 := addi v4 v13
  select v12 v14 v4

def where4 (c : IVec t 1) (f : IVec S0 32) (x : IVec t 32) : IVec t 32 :=
  let v0 : IVec S0 32 := id f
  let v1 := broadcastInDim t ![] bc v0
  select c v1 x

def clipLo (v : IVec t 32) (lo : IVec S0 32) : IVec t 32 :=
  let v0 : IVec S0 32 := id lo
  let v1 := broadcastInDim t ![] bc v0
  maxsi v1 v

def wrapNeg (v : IVec t 32) (c : BitVec 32) : IVec t 32 :=
  let z := broadcastInDim t ![] bc (constantI S0 32 0#32)
  let m := cmpi .slt v z
  let cc := broadcastInDim t ![] bc (constantI S0 32 c)
  let s := addi v cc
  select m s v

section
variable (v : IVec t 32) (d : IVec S0 32) (hv : ∀ j, (v j).toNat < 2 ^ 31)
include hv

theorem clipLo_zero_eq : clipLo bc v (constantI S0 32 0#32) = v := by
  funext j
  have h : (v j).slt 0#32 = false := by
    have h := cmpi_slt_zero _ (hv j)
    cases hb : (v j).slt 0#32
    · rfl
    · rw [IntOp.cmpi, hb] at h; exact absurd h (by decide)
  simp only [clipLo, maxsi, bcast0_apply, id, constantI, IntOp.maxsi, h]
  rfl

omit hv in
theorem wrapNeg_eq (c : BitVec 32) (hv : ∀ j, (v j).toNat < 2 ^ 31) : wrapNeg bc v c = v := by
  funext j
  simp only [wrapNeg, select, cmpi, addi, bcast0_apply, constantI, cmpi_slt_zero _ (hv j), select_zero]

variable (hd0 : 0 < (d i0).toNat) (hd : (d i0).toNat < 2 ^ 31)
include hd0 hd

theorem floorDivide_eq : floorDivide bc v d = fun j => BitVec.ofNat 32 ((v j).toNat / (d i0).toNat) := by
  funext j
  rw [← floorDivW_eq _ _ (hv j) hd0 hd]
  simp only [floorDivide, floorDivW, select, andi, cmpi, signi, signW, Host.divsi, Host.remsi, subi, constantI,
    bcast0_apply]

theorem remainder_eq : remainder bc v d = fun j => BitVec.ofNat 32 ((v j).toNat % (d i0).toNat) := by
  funext j
  rw [← remainderW_eq _ _ (hv j) hd0 hd]
  simp only [remainder, remainderW, select, andi, addi, cmpi, Host.remsi, constantI, bcast0_apply, id]

end

-- Row of a flat position: quotient by 4096, reduced modulo 4096.
theorem rowOf_eq (v : IVec t 32) (hv : ∀ j, (v j).toNat < 2 ^ 31) :
    remainder bc (floorDivide bc v (constantI S0 32 4096#32)) (constantI S0 32 4096#32)
      = fun j => BitVec.ofNat 32 ((v j).toNat / 4096 % 4096) := by
  have hq : ∀ j, (BitVec.ofNat 32 ((v j).toNat / 4096)).toNat < 2 ^ 31 := fun j => by
    have := hv j
    rw [toNat_ofNat_of_lt _ (by omega)]; omega
  rw [floorDivide_eq bc v _ hv (by decide) (by decide), show (constantI S0 32 4096#32 i0).toNat = 4096 from rfl,
    remainder_eq bc _ _ hq (by decide) (by decide)]
  funext j
  have := hv j
  exact congrArg (fun n => BitVec.ofNat 32 (n % 4096)) (toNat_ofNat_of_lt _ (by omega))

-- Column of a flat position: quotient by one, reduced modulo 4096.
theorem colOf_eq (v : IVec t 32) (hv : ∀ j, (v j).toNat < 2 ^ 31) :
    remainder bc (floorDivide bc v (constantI S0 32 1#32)) (constantI S0 32 4096#32)
      = fun j => BitVec.ofNat 32 ((v j).toNat % 4096) := by
  have h1 : floorDivide bc v (constantI S0 32 1#32) = v := by
    rw [floorDivide_eq bc v _ hv (by decide) (by decide)]
    funext j
    exact BitVec.eq_of_toNat_eq (by rw [toNat_ofNat_of_lt _ (by have := hv j; exact Nat.lt_of_le_of_lt (Nat.div_le_self _ _) this)]; exact Nat.div_one _)
  rw [h1, remainder_eq bc v _ hv (by decide) (by decide)]
  rfl

def fillFrom {n : ℕ} (bc : S0.BroadcastsInDim ⟨1, ![n]⟩ ![]) (total f : IVec S0 32) (x : IVec ⟨1, ![n]⟩ 32) :
    IVec ⟨1, ![n]⟩ 32 :=
  let v18 := iotaInDim ⟨1, ![n]⟩ 32 0
  let v21 := broadcastInDim ⟨1, ![n]⟩ ![] bc total
  let v22 := cmpi .sge v18 v21
  where4 bc v22 f x

-- Past the total the fill value, before it the entry: positions and total are below 2³¹, so the signed test is the test of the values.
theorem fillFrom_apply {n : ℕ} (bc : S0.BroadcastsInDim ⟨1, ![n]⟩ ![]) (total f : IVec S0 32)
    (x : IVec ⟨1, ![n]⟩ 32) (hn : n ≤ 2 ^ 31) (ht : (total i0).toNat < 2 ^ 31) (j : (⟨1, ![n]⟩ : Shape).Idx) :
    fillFrom bc total f x j = if (total i0).toNat ≤ (j 0).val then f i0 else x j := by
  have hj : (j 0).val < n := (j 0).isLt
  have h := sge_iff_toNat (a := BitVec.ofNat 32 (j 0).val) (b := total i0) (by rw [toNat_ofNat_of_lt _ (by omega)]; omega) ht
  rw [toNat_ofNat_of_lt _ (by omega)] at h
  simp only [fillFrom, where4, select, id, cmpi, iotaInDim]
  rw [bcast0_apply bc total j, bcast0_apply bc f j]
  exact if_congr h rfl rfl

end Cert.LibWordDiv
-- ==== Proof.LibIntScanB.lean ====
import proofs.«113402_g36472862278100_cont_sun_c4_736_16_alg».proof.Proof.LibIntScan
import Idealize.ShloMosaic.PureOps.ShapeOps
import Idealize.ShloMosaic.Lib.StableHlo.Predicate

open scoped BigOperators

namespace Cert.LibIntScan

open Idealize.ShloMosaic Idealize.ShloMosaic.ValueIdx

-- Each update adds its word at the position it lands on and nowhere else, so position i' gathers the updates landing there.
theorem scatter_addi_apply {s si u : Shape} {w : Nat} (d : ScatterDims s si u)
    (x : s.Idx → BitVec 32) (idx : IVec si w) (upd : u.Idx → BitVec 32) (i' : s.Idx) :
    Host.scatter d IntOp.addi x idx upd i'
      = x i' + ∑ j ∈ Finset.univ.filter (fun j : u.Idx => d.resultIdx? j idx = some i'), upd j := by
  rw [Finset.sum_filter, ← Equiv.sum_comp u.rowMajor.symm, Fin.sum_univ_def]
  unfold Host.scatter
  generalize List.finRange u.numel = l
  induction l generalizing x with
  | nil => exact (add_zero _).symm
  | cons n l ih =>
    rw [List.foldl_cons, ih, List.map_cons, List.sum_cons, ← add_assoc]
    congr 1
    cases hres : d.resultIdx? (u.rowMajor.symm n) idx with
    | none => simp
    | some i =>
      by_cases h : i' = i
      · subst h; simp [IntOp.addi]
      · have h' : ¬ i = i' := fun e => h e.symm
        simp [h, h']

section Hist
variable {m N w : Nat} (d : ScatterDims ⟨1, ![m]⟩ ⟨2, ![N, 1]⟩ ⟨1, ![N]⟩) (hiw : d.insertedWindowDims = [0])
  (hsd : d.scatterDimsToOperandDims = [0]) (hiv : d.indexVectorDim = 1)

include hiw in
theorem window_eq_zero (j : (⟨1, ![N]⟩ : Shape).Idx) : d.window j 0 = 0 := by
  unfold ScatterDims.window
  rw [dif_neg]
  simp [Shape.kept, hiw]

include hsd hiv in
theorem start_eq_toInt (idx : IVec ⟨2, ![N, 1]⟩ w) (j : (⟨1, ![N]⟩ : Shape).Idx) :
    d.start j idx 0 = (idx (ix2 (j 0) 0)).toInt := by
  have hm : (0 : Fin 1) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hiv]; simp)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by rw [hiv])]
    apply Fin.ext
    show List.idxOf (0 : Fin 1) d.scatterDimsToOperandDims = 0
    rw [hsd]; simp

include hiw hsd hiv

theorem resultIdx?_eq_some_iff (idx : IVec ⟨2, ![N, 1]⟩ w) (j : (⟨1, ![N]⟩ : Shape).Idx) (v : Fin m) :
    d.resultIdx? j idx = some (ix1 v) ↔ (idx (ix2 (j 0) 0)).toInt = (v.val : Int) := by
  have hw := window_eq_zero d hiw j
  have hs := start_eq_toInt d hsd hiv idx j
  have hv := v.isLt
  unfold ScatterDims.resultIdx?
  constructor
  · intro h
    split at h
    · next hc =>
      have h0 := hc 0
      have e := congrArg (fun i : (⟨1, ![m]⟩ : Shape).Idx => (i 0).val) (Option.some.inj h)
      change (d.start j idx 0 + (d.window j 0 : Int)).toNat = v.val at e
      rw [hs, hw] at e h0
      omega
    · exact absurd h (by simp)
  · intro h
    have hc : ∀ a, 0 ≤ d.start j idx a + (d.window j a : Int) ∧ d.start j idx a + (d.window j a : Int) < ((⟨1, ![m]⟩ : Shape).size a : Nat) := by
      intro a
      have ha : a = 0 := Subsingleton.elim _ _
      subst ha
      rw [hs, hw, h]
      show (0 : Int) ≤ (v.val : Int) + ((0 : Nat) : Int) ∧ (v.val : Int) + ((0 : Nat) : Int) < (m : Int)
      omega
    rw [dif_pos hc]
    congr 1
    funext a
    have ha : a = 0 := Subsingleton.elim _ _
    subst ha
    apply Fin.ext
    show (d.start j idx 0 + (d.window j 0 : Int)).toNat = v.val
    rw [hs, hw, h]
    omega

theorem scatter_addi_rank1 (x : (⟨1, ![m]⟩ : Shape).Idx → BitVec 32) (idx : IVec ⟨2, ![N, 1]⟩ w)
    (upd : (⟨1, ![N]⟩ : Shape).Idx → BitVec 32) (v : Fin m) :
    Host.scatter d IntOp.addi x idx upd (ix1 v)
      = x (ix1 v) + ∑ p ∈ Finset.univ.filter (fun p : Fin N => (idx (ix2 p 0)).toInt = (v.val : Int)), upd (ix1 p) := by
  rw [scatter_addi_apply]
  congr 1
  rw [Finset.sum_filter, Finset.sum_filter, ← Equiv.sum_comp (idxEquiv1 (n := N)).symm]
  refine Finset.sum_congr rfl fun p _ => ?_
  exact if_congr (resultIdx?_eq_some_iff d hiw hsd hiv idx (ix1 p) v) rfl rfl

-- Ones scattered into zeros make the histogram of the index words, here below 2³¹ so that signed and unsigned readings agree.
theorem toNat_scatter_ones_of_lt (hN : N < 2 ^ 32) (idx : IVec ⟨2, ![N, 1]⟩ 32)
    (hidx : ∀ p : Fin N, (idx (ix2 p 0)).toNat < 2 ^ 31) (v : Fin m) :
    (Host.scatter d IntOp.addi (fun _ => 0#32) idx (fun _ => 1#32) (ix1 v)).toNat
      = (Finset.univ.filter (fun p : Fin N => (idx (ix2 p 0)).toNat = v.val)).card := by
  have hf : Finset.univ.filter (fun p : Fin N => (idx (ix2 p 0)).toInt = (v.val : Int))
      = Finset.univ.filter (fun p : Fin N => (idx (ix2 p 0)).toNat = v.val) :=
    Finset.filter_congr fun p _ => by
      rw [StableHlo.Predicate.toInt_eq_toNat_of_lt (hidx p)]; exact Int.natCast_inj
  have hsum : ∑ _p ∈ Finset.univ.filter (fun p : Fin N => (idx (ix2 p 0)).toNat = v.val), ((1#32 : BitVec 32)).toNat
      = (Finset.univ.filter (fun p : Fin N => (idx (ix2 p 0)).toNat = v.val)).card := by
    rw [Finset.sum_const, show (1#32 : BitVec 32).toNat = 1 from rfl, smul_eq_mul, mul_one]
  rw [scatter_addi_rank1 d hiw hsd hiv, hf, show (0#32 : BitVec 32) = 0 from rfl, zero_add,
    WordSum.toNat_sum _ _ (by rw [hsum]; exact lt_of_le_of_lt (Finset.card_le_univ _) (by simpa using hN)), hsum]

end Hist

end Cert.LibIntScan
-- ==== Proof.RefEdges.lean ====
import proofs.«113402_g36472862278100_cont_sun_c4_736_16_alg».proof.Proof.RefEdgesB
import proofs.«113402_g36472862278100_cont_sun_c4_736_16_alg».proof.ReferenceIdeal
import proofs.«113402_g36472862278100_cont_sun_c4_736_16_alg».proof.Proof.LibWordDiv
import proofs.«113402_g36472862278100_cont_sun_c4_736_16_alg».proof.Proof.LibIntScanB
import proofs.«113402_g36472862278100_cont_sun_c4_736_16_alg».proof.Proof.PreFacts

open scoped BigOperators

noncomputable section

namespace Cert.RefEdges

open Cert.ReferenceIdeal Idealize.ShloMosaic Idealize.ShloMosaic.ValueIdx
open Cert.ReferenceIdeal.Facts₀ Cert.ReferenceIdeal.Facts
open Cert.LibWordDiv

variable [Facts] (a1 : FVec Ideal S4096x4096 .f32)

def eMask : IVec S4096x4096 1 :=
  cmpf .une a1 (broadcastInDim S4096x4096 ![] bcast_S_S4096x4096 (constant S_ .f32 0x00000000#32))

def eCount : IVec S16777216 32 :=
  Host.reduceWindow IntOp.addi ![16777216] ![1] ![16777215] ![0]
    (extui 32 (shapeCast S16777216 (eMask a1) shapeCasts_S4096x4096_S16777216) natLt_1_32)
    (broadcastInDim S_ ![] bcast_S_S_ (constantI S_ 32 0#32))
    reduceWindows_S16777216_S16777216_w16777216s1p16777215_0 h_S_

def eIdx : IVec S16777216 32 :=
  wrapNeg bcast_S_S16777216 (clipLo bcast_S_S16777216 (eCount a1) (constantI S_ 32 0#32)) 131072#32

def eBins : IVec S131072 32 :=
  Host.scatter scatter_S131072_S16777216x1_S16777216_n_0_0_1 IntOp.addi
    (broadcastInDim S131072 ![] bcast_S_S131072 (constantI S_ 32 0#32))
    (broadcastInDim S16777216x1 ![0] bcast_S16777216_S16777216x1_0 (eIdx a1))
    (broadcastInDim S16777216 ![] bcast_S_S16777216 (constantI S_ 32 1#32))

def eFlat : IVec S131072 32 :=
  Host.reduceWindow IntOp.addi ![131072] ![1] ![131071] ![0] (eBins a1)
    (broadcastInDim S_ ![] bcast_S_S_ (constantI S_ 32 0#32))
    reduceWindows_S131072_S131072_w131072s1p131071_0 h_S_

def eTotal : IVec S_ 32 :=
  Host.reduce IntOp.addi (extui 32 (eMask a1) natLt_1_32) (constantI S_ 32 0#32) reducesTo_S4096x4096_S_d0_1 h_S_

def eSrc : IVec S131072 32 :=
  fillFrom bcast_S_S131072 (eTotal a1) (constantI S_ 32 4096#32)
    (remainder bcast_S_S131072 (floorDivide bcast_S_S131072 (eFlat a1) (constantI S_ 32 4096#32))
      (constantI S_ 32 4096#32))

def eDst : IVec S131072 32 :=
  fillFrom bcast_S_S131072 (eTotal a1) (constantI S_ 32 4096#32)
    (remainder bcast_S_S131072 (floorDivide bcast_S_S131072 (eFlat a1) (constantI S_ 32 1#32))
      (constantI S_ 32 4096#32))

omit [Facts] in
theorem bcast_col_apply {α : Type} {n : ℕ} (h₁ : (⟨1, ![n]⟩ : Shape).BroadcastsInDim ⟨2, ![n, 1]⟩ ![0])
    (v : (⟨1, ![n]⟩ : Shape).Idx → α) (p : Fin n) :
    broadcastInDim ⟨2, ![n, 1]⟩ ![0] h₁ v (ix2 p (0 : Fin 1)) = v (ix1 p) := by
  have e : ix2 p (0 : Fin 1) = StableHlo.Predicate.ixP p := by
    funext a; match a with | ⟨0, _⟩ => rfl | ⟨1, _⟩ => rfl
  rw [e, StableHlo.Predicate.bcast_col1]; exact congrArg v (eq_ix1 _)

theorem eMask_apply (i : S4096x4096.Idx) : eMask a1 i = 1#1 ↔ a1 i ≠ 0 :=
  une_zero_apply a1 _ (fun j => bcast_zero_apply bcast_S_S4096x4096 j) i

theorem eCount_toNat (q : Fin 16777216) : (eCount a1 (ix1 q)).toNat = Nat.count (nz a1) (q.val + 1) :=
  cumsum_count a1 _
    (fun q' => flat_mask_toNat a1 _ (fun j => bcast_zero_apply bcast_S_S4096x4096 j)
      shapeCasts_S4096x4096_S16777216 natLt_1_32 q')
    _ reduceWindows_S16777216_S16777216_w16777216s1p16777215_0 h_S_ rfl q

theorem eCount_lt (j : S16777216.Idx) : (eCount a1 j).toNat < 2 ^ 31 := by
  obtain ⟨q, rfl⟩ : ∃ q : Fin 16777216, j = ix1 q := ⟨j 0, eq_ix1 j⟩
  rw [eCount_toNat]
  have h1 : Nat.count (nz a1) (q.val + 1) ≤ q.val + 1 := Nat.count_le (nz a1)
  have h2 := q.isLt
  omega

-- The running sum is never negative, so clipping and wrapping leave it unchanged.
theorem eIdx_eq : eIdx a1 = eCount a1 := by
  rw [eIdx, clipLo_zero_eq bcast_S_S16777216 _ (eCount_lt a1), wrapNeg_eq bcast_S_S16777216 _ _ (eCount_lt a1)]

theorem eBins_toNat (v : Fin 131072) :
    (eBins a1 (ix1 v)).toNat
      = ((Finset.range 16777216).filter (fun q => Nat.count (nz a1) (q + 1) = v.val)).card := by
  refine (LibIntScan.toNat_scatter_ones_of_lt scatter_S131072_S16777216x1_S16777216_n_0_0_1 rfl rfl rfl
    (by norm_num) _ (fun p => ?_) v).trans ?_
  · rw [bcast_col_apply, eIdx_eq]; exact eCount_lt a1 _
  · rw [← card_fin_filter (n := 16777216) (fun q => Nat.count (nz a1) (q + 1) = v.val)]
    exact congrArg Finset.card (Finset.filter_congr fun p _ => by rw [bcast_col_apply, eIdx_eq, eCount_toNat])

theorem eFlat_toNat (k : Fin 131072) :
    (eFlat a1 (ix1 k)).toNat = if k.val < nnz a1 then Nat.nth (nz a1) k.val else 16777216 :=
  histsum_nth a1 (eBins a1) (eBins_toNat a1) _ reduceWindows_S131072_S131072_w131072s1p131071_0 h_S_ rfl k

theorem eFlat_lt (j : S131072.Idx) : (eFlat a1 j).toNat < 2 ^ 31 := by
  obtain ⟨k, rfl⟩ : ∃ k : Fin 131072, j = ix1 k := ⟨j 0, eq_ix1 j⟩
  rw [eFlat_toNat]
  split
  · next hk =>
    have : Nat.nth (nz a1) k.val < 16777216 := LibNthCount.nth_lt_of_lt_count k.val hk
    omega
  · norm_num

theorem eTotal_toNat : (eTotal a1 i0).toNat = nnz a1 := by
  rw [nnz_eq_card, eTotal,
    PreFacts.toNat_reduce_count_all (by decide) (eMask a1) natLt_1_32 reducesTo_S4096x4096_S_d0_1 h_S_ i0]
  exact congrArg Finset.card (Finset.filter_congr (fun i _ => eMask_apply a1 i))

theorem fill_apply (x : IVec S131072 32) (k : Fin 131072) :
    fillFrom bcast_S_S131072 (eTotal a1) (constantI S_ 32 4096#32) x (ix1 k)
      = if nnz a1 ≤ k.val then 4096#32 else x (ix1 k) := by
  rw [fillFrom_apply bcast_S_S131072 _ _ _ (by norm_num)
    (by rw [eTotal_toNat]; exact lt_of_le_of_lt (nnz_le a1) (by norm_num)), eTotal_toNat]
  rfl

variable (k : Fin 131072)

theorem eSrc_lt (hk : k.val < nnz a1) : eSrc a1 (ix1 k) = BitVec.ofNat 32 (Nat.nth (nz a1) k.val / 4096) := by
  have hn : Nat.nth (nz a1) k.val < 16777216 := LibNthCount.nth_lt_of_lt_count k.val hk
  rw [eSrc, fill_apply, if_neg (not_le.2 hk), rowOf_eq bcast_S_S131072 _ (eFlat_lt a1)]
  show BitVec.ofNat 32 ((eFlat a1 (ix1 k)).toNat / 4096 % 4096) = _
  rw [eFlat_toNat, if_pos hk, Nat.mod_eq_of_lt (by omega)]

theorem eDst_lt (hk : k.val < nnz a1) : eDst a1 (ix1 k) = BitVec.ofNat 32 (Nat.nth (nz a1) k.val % 4096) := by
  rw [eDst, fill_apply, if_neg (not_le.2 hk), colOf_eq bcast_S_S131072 _ (eFlat_lt a1)]
  show BitVec.ofNat 32 ((eFlat a1 (ix1 k)).toNat % 4096) = _
  rw [eFlat_toNat, if_pos hk]

theorem eSrc_ge (hk : nnz a1 ≤ k.val) : eSrc a1 (ix1 k) = 4096#32 := by
  rw [eSrc, fill_apply, if_pos hk]

theorem eDst_ge (hk : nnz a1 ≤ k.val) : eDst a1 (ix1 k) = 4096#32 := by
  rw [eDst, fill_apply, if_pos hk]

end Cert.RefEdges

end
-- ==== Proof.RefEdgesBridge.lean ====
import proofs.«113402_g36472862278100_cont_sun_c4_736_16_alg».proof.Proof.RefEdges
import proofs.«113402_g36472862278100_cont_sun_c4_736_16_alg».proof.Proof.RefTerm
import proofs.«113402_g36472862278100_cont_sun_c4_736_16_alg».proof.Proof.RefNetB

noncomputable section

namespace Cert.RefEdges

open Cert.ReferenceIdeal Cert.ReferenceIdeal.Hand Idealize.ShloMosaic Idealize.ShloMosaic.ValueIdx
open Cert.ReferenceIdeal.Facts₀ Cert.ReferenceIdeal.Facts
open Cert.LibWordDiv

variable [Facts]

theorem refFlat_eq (a1 : FVec Ideal S4096x4096 .f32) : refFlat a1 = eFlat a1 := rfl

-- The program's source and destination lists are the stage-by-stage ones, which list the nonzero entries in row-major order and then the fill value.
theorem edgeList (a1 : FVec Ideal S4096x4096 .f32) (hbin : ∀ i, a1 i = 0 ∨ a1 i = 1) (hK : nnz a1 ≤ 131072) :
    Cert.RefNet.EdgeList (nz a1) a1 (refSrc a1) (refDst a1) where
  hp := nz_iff a1
  hbin := hbin
  hK := hK
  hsrc := eSrc_lt a1
  hsrc' := eSrc_ge a1
  hdst := eDst_lt a1
  hdst' := eDst_ge a1

end Cert.RefEdges

end
-- ==== Proof.RefSpec.lean ====
import proofs.«113402_g36472862278100_cont_sun_c4_736_16_alg».proof.Proof.RefTerm
import proofs.«113402_g36472862278100_cont_sun_c4_736_16_alg».proof.Proof.RefNet
import proofs.«113402_g36472862278100_cont_sun_c4_736_16_alg».proof.Proof.RefEdgesBridge

noncomputable section

namespace Cert.ReferenceIdeal.Hand

open Cert.ReferenceIdeal Idealize.ShloMosaic Idealize.ShloMosaic.ValueIdx
open Cert.ReferenceIdeal.Facts₀ Cert.ReferenceIdeal.Facts

variable [Facts]

theorem ref_eq_spec (a0 : FVec Ideal S4096x256 .f32) (a1 : FVec Ideal S4096x4096 .f32) (a2 : FVec Ideal S256x64 .f32)
    (a3 a4 : FVec Ideal S64x64 .f32) (a5 a6 a7 : FVec Ideal S64 .f32) (a8 : FVec Ideal S192x10 .f32)
    (a9 : FVec Ideal S10 .f32) (hbin : ∀ i, a1 i = 0 ∨ a1 i = 1)
    (hcnt : (Finset.univ.filter (fun i : S4096x4096.Idx => a1 i ≠ 0)).card ≤ 131072) :
    refOut (F := Ideal) a0 a1 a2 a3 a4 a5 a6 a7 a8 a9 = Cert.Spec.out a1 a0 a2 a3 a4 a5 a6 a7 a8 a9 := by
  have hK : Cert.RefEdges.nnz a1 ≤ 131072 := by
    rw [Cert.RefEdges.nnz_eq_card]
    convert hcnt
  unfold refOut
  exact refNet_eq_spec (Cert.RefEdges.edgeList a1 hbin hK) a0 a2 a3 a4 a5 a6 a7 a8 a9

end Cert.ReferenceIdeal.Hand

end
-- ==== Proof.lean ====
/-
  Three graph-convolution layers over a dense 4096 × 4096 adjacency, a linear head and a row-wise log-softmax.
  The kernel sums (H W)(i, f) · A(i, j) over all nodes i; the reference sums the source rows over the list of nonzero
  entries of A. With every entry of A in {0, 1} and at most 131072 of them nonzero the list enumerates the support
  of A once, so both are the array Cert.Spec.out.
-/
import proofs.«113402_g36472862278100_cont_sun_c4_736_16_alg».proof.Defs
import proofs.«113402_g36472862278100_cont_sun_c4_736_16_alg».proof.Proof.Gen.Kernel
import proofs.«113402_g36472862278100_cont_sun_c4_736_16_alg».proof.Proof.Gen.KernelIdeal
import proofs.«113402_g36472862278100_cont_sun_c4_736_16_alg».proof.Proof.Gen.ReferenceIdeal
import proofs.«113402_g36472862278100_cont_sun_c4_736_16_alg».proof.Proof.Gen.Pre_finite_inputs
import proofs.«113402_g36472862278100_cont_sun_c4_736_16_alg».proof.Proof.PreFacts
import proofs.«113402_g36472862278100_cont_sun_c4_736_16_alg».proof.Proof.Spec
import proofs.«113402_g36472862278100_cont_sun_c4_736_16_alg».proof.Proof.KFrame
import proofs.«113402_g36472862278100_cont_sun_c4_736_16_alg».proof.Proof.KValueF
import proofs.«113402_g36472862278100_cont_sun_c4_736_16_alg».proof.Proof.RefRun
import proofs.«113402_g36472862278100_cont_sun_c4_736_16_alg».proof.Proof.RefSpec
import Idealize.ShloMosaic.Adequacy
import Idealize.ShloMosaic.Init

noncomputable section

open Idealize.ShloMosaic Idealize.SL.Sem

namespace Cert.Proof

variable {F : FTy → Type} [FloatOps F]

/-- The two printed kernels are one text, so their body tables agree label by label. -/
theorem defs₀_eq [Cert.Kernel.Facts] [Cert.KernelIdeal.Facts] :
    Cert.Kernel.defs₀ (F := F) = Cert.KernelIdeal.defs₀ := by
  unfold Cert.Kernel.defs₀ Cert.KernelIdeal.defs₀
  congr 1; funext l a
  obtain ⟨_ | n, h⟩ := l
  · obtain ⟨t, s⟩ := a; rfl
  · exact absurd h (by omega)

theorem defs_eq [Cert.Kernel.Facts] [Cert.KernelIdeal.Facts] :
    Cert.Kernel.defs (F := F) = Cert.KernelIdeal.defs :=
  congrArg _ defs₀_eq

/-- The frame proof is generic in the float instance, and the word-level program is the same program. -/
theorem frame_p [hK : Cert.Kernel.Facts] [hP : Cert.Pre_finite_inputs.Facts] : Cert.frame_Kernel :=
  fun m ρ _ => by rw [defs_eq]; exact Cert.KernelIdeal.Hand.frame m ρ

theorem frame_pi [hKI : Cert.KernelIdeal.Facts] [hP : Cert.Pre_finite_inputs.Facts] : Cert.frame_KernelIdeal :=
  fun m ρ _ => Cert.KernelIdeal.Hand.frame m ρ

theorem frame_ri [hRI : Cert.ReferenceIdeal.Facts] [hP : Cert.Pre_finite_inputs.Facts] : Cert.frame_ReferenceIdeal :=
  fun m ρ _ => (θ_run (Cert.ReferenceIdeal.defs (F := Ideal)) _ _).mono (fun _ h c => (h c).2) (Cert.ReferenceIdeal.Hand.run m ρ)

theorem preserves : Cert.preserves_Kernel_KernelIdeal := trivial

/-- Both runs end at the specification's array: the kernel by its dense products, the reference by its edge list. -/
theorem algebraic [hKI : Cert.KernelIdeal.Facts] [hRI : Cert.ReferenceIdeal.Facts] [hP : Cert.Pre_finite_inputs.Facts] :
    Cert.algebraic_KernelIdeal_ReferenceIdeal := by
  intro m ρ m' ρ' hpre hagree
  refine ⟨fun c => Cert.KernelIdeal.Hand.kerOut (F := Ideal) m c, Cert.KernelIdeal.Hand.run_values m ρ, ?_⟩
  refine (θ_run (Cert.ReferenceIdeal.defs (F := Ideal)) _ _).mono (fun _ h c => ⟨(h c).1.trans ?_, (h c).2⟩)
    (Cert.ReferenceIdeal.Hand.run m' ρ')
  obtain ⟨e0, e1, e2, e3, e4, e5, e6, e7, e8, e9⟩ := hagree c
  rw [e0, e1, e2, e3, e4, e5, e6, e7, e8, e9]
  obtain ⟨_, _, _, _, _, _, _, _, _, _, hbin, hcnt⟩ := Cert.PreFacts.of_pre _ _ _ _ _ _ _ _ _ _ (hpre c)
  exact (Cert.ReferenceIdeal.Hand.ref_eq_spec _ _ _ _ _ _ _ _ _ _ hbin hcnt).trans
    (Cert.KernelIdeal.Hand.kernel_eq_spec m c).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
